-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000x128 : Shape := ⟨2, ![600000, 128]⟩
abbrev S600000 : Shape := ⟨1, ![600000]⟩
abbrev S128x128 : Shape := ⟨2, ![128, 128]⟩
abbrev S128 : Shape := ⟨1, ![128]⟩
abbrev S256x3 : Shape := ⟨2, ![256, 3]⟩
abbrev S3 : Shape := ⟨1, ![3]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x3 : S_.BroadcastsInDim S256x3 (![] : Fin 0 → Fin S256x3.rank)
  reducesTo_S256x3_S_d0_1 : S256x3.ReducesTo [0, 1] S_
  bcast_S_S3 : S_.BroadcastsInDim S3 (![] : Fin 0 → Fin S3.rank)
  reducesTo_S3_S_d0 : S3.ReducesTo [0] S_
  bcast_S_S600000 : S_.BroadcastsInDim S600000 (![] : Fin 0 → Fin S600000.rank)
  reducesTo_S600000_S_d0 : S600000.ReducesTo [0] S_

variable [Facts]

def fn_part3 {F : FTy → Type} [FloatOps F] (main_arg2 : IVec S600000 32) (main_arg3 : IVec S600000 32) (main_v48 : IVec S_ 1) (main_v50 : IVec S600000 1) : IVec S_ 1 :=
  let main_c_19 : IVec S_ 1 := constantI S_ 1 1#1
  let main_v51 : IVec S_ 1 := (fun x v => Host.reduce IntOp.andi x v reducesTo_S600000_S_d0 h_S_) main_v50 main_c_19
  let main_v52 : IVec S_ 1 := andi main_v48 main_v51
  let main_c_20 : IVec S_ 32 := constantI S_ 32 50000#32
  let main_v53 : IVec S600000 32 := broadcastInDim S600000 ![] bcast_S_S600000 main_c_20
  let main_v54 : IVec S600000 1 := cmpi .slt main_arg2 main_v53
  let main_c_21 : IVec S_ 1 := constantI S_ 1 1#1
  let main_v55 : IVec S_ 1 := (fun x v => Host.reduce IntOp.andi x v reducesTo_S600000_S_d0 h_S_) main_v54 main_c_21
  let main_v56 : IVec S_ 1 := andi main_v52 main_v55
  let main_c_22 : IVec S_ 32 := constantI S_ 32 0#32
  let main_v57 : IVec S600000 32 := broadcastInDim S600000 ![] bcast_S_S600000 main_c_22
  let main_v58 : IVec S600000 1 := cmpi .sge main_arg3 main_v57
  let main_c_23 : IVec S_ 1 := constantI S_ 1 1#1
  let main_v59 : IVec S_ 1 := (fun x v => Host.reduce IntOp.andi x v reducesTo_S600000_S_d0 h_S_) main_v58 main_c_23
  let main_v60 : IVec S_ 1 := andi main_v56 main_v59
  let main_c_24 : IVec S_ 32 := constantI S_ 32 50000#32
  let main_v61 : IVec S600000 32 := broadcastInDim S600000 ![] bcast_S_S600000 main_c_24
  let main_v62 : IVec S600000 1 := cmpi .slt main_arg3 main_v61
  let main_c_25 : IVec S_ 1 := constantI S_ 1 1#1
  let main_v63 : IVec S_ 1 := (fun x v => Host.reduce IntOp.andi x v reducesTo_S600000_S_d0 h_S_) main_v62 main_c_25
  let main_v64 : IVec S_ 1 := andi main_v60 main_v63
  main_v64

def fn_part2 {F : FTy → Type} [FloatOps F] (main_arg2 : IVec S600000 32) (main_arg3 : IVec S600000 32) (main_arg9 : FVec F S128 .f32) (main_arg10 : FVec F S256x3 .f32) (main_arg11 : FVec F S3 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x3 .f32 := Host.absf main_arg10
  let main_cst_14 : FVec F S_ .f32 := constant S_ .f32 0x7F800000#32
  let main_v40 : FVec F S256x3 .f32 := broadcastInDim S256x3 ![] bcast_S_S256x3 main_cst_14
  let main_v41 : IVec S256x3 1 := cmpf .olt main_v39 main_v40
  let main_c_15 : IVec S_ 1 := constantI S_ 1 1#1
  let main_v42 : IVec S_ 1 := (fun x v => Host.reduce IntOp.andi x v reducesTo_S256x3_S_d0_1 h_S_) main_v41 main_c_15
  let main_v43 : IVec S_ 1 := andi main_v38 main_v42
  let main_v44 : FVec F S3 .f32 := Host.absf main_arg11
  let main_cst_16 : FVec F S_ .f32 := constant S_ .f32 0x7F800000#32
  let main_v45 : FVec F S3 .f32 := broadcastInDim S3 ![] bcast_S_S3 main_cst_16
  let main_v46 : IVec S3 1 := cmpf .olt main_v44 main_v45
  let main_c_17 : IVec S_ 1 := constantI S_ 1 1#1
  let main_v47 : IVec S_ 1 := (fun x v => Host.reduce IntOp.andi x v reducesTo_S3_S_d0 h_S_) main_v46 main_c_17
  let main_v48 : IVec S_ 1 := andi main_v43 main_v47
  let main_c_18 : IVec S_ 32 := constantI S_ 32 0#32
  let main_v49 : IVec S600000 32 := broadcastInDim S600000 ![] bcast_S_S600000 main_c_18
  let main_v50 : IVec S600000 1 := cmpi .sge main_arg2 main_v49
  fn_part3 (F := F) main_arg2 main_arg3 main_v48 main_v50

def fn_part1 {F : FTy → Type} [FloatOps F] (main_arg2 : IVec S600000 32) (main_arg3 : IVec S600000 32) (main_arg6 : FVec F S128 .f32) (main_arg7 : FVec F S128x128 .f32) (main_arg8 : FVec F S128x128 .f32) (main_arg9 : FVec F S128 .f32) (main_arg10 : FVec F S256x3 .f32) (main_arg11 : FVec F S3 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg3 main_arg9 main_arg10 main_arg11 main_v33

def fn {F : FTy → Type} [FloatOps F] (main_arg0 : FVec F S50000x128 .f32) (main_arg1 : FVec F S600000x128 .f32) (main_arg2 : IVec S600000 32) (main_arg3 : IVec S600000 32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S256x3 .f32) (main_arg11 : FVec F S3 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg2 main_arg3 main_arg6 main_arg7 main_arg8 main_arg9 main_arg10 main_arg11 main_v13 main_v16
-- ==== Kernel.lean ====
abbrev S50000x128 : Shape := ⟨2, ![50000, 128]⟩
abbrev S600000x128 : Shape := ⟨2, ![600000, 128]⟩
abbrev S600000 : Shape := ⟨1, ![600000]⟩
abbrev S128x128 : Shape := ⟨2, ![128, 128]⟩
abbrev S128 : Shape := ⟨1, ![128]⟩
abbrev S256x3 : Shape := ⟨2, ![256, 3]⟩
abbrev S3 : Shape := ⟨1, ![3]⟩
abbrev S_ : Shape := ⟨0, ![]⟩
abbrev S64 : Shape := ⟨1, ![64]⟩
abbrev S600064 : Shape := ⟨1, ![600064]⟩
abbrev S600064x1 : Shape := ⟨2, ![600064, 1]⟩
abbrev S50000 : Shape := ⟨1, ![50000]⟩
abbrev S600000x1 : Shape := ⟨2, ![600000, 1]⟩
abbrev S50000x1 : Shape := ⟨2, ![50000, 1]⟩
abbrev S50176x128 : Shape := ⟨2, ![50176, 128]⟩
abbrev S256x1 : Shape := ⟨2, ![256, 1]⟩
abbrev S256x128 : Shape := ⟨2, ![256, 128]⟩
abbrev S1024x128 : Shape := ⟨2, ![1024, 128]⟩
abbrev S1x1024 : Shape := ⟨2, ![1, 1024]⟩
abbrev S256x1024 : Shape := ⟨2, ![256, 1024]⟩
abbrev S1x128 : Shape := ⟨2, ![1, 128]⟩
abbrev S1000x128 : Shape := ⟨2, ![1000, 128]⟩
abbrev S128x3 : Shape := ⟨2, ![128, 3]⟩
abbrev S50000x3 : Shape := ⟨2, ![50000, 3]⟩
abbrev S1000x3 : Shape := ⟨2, ![1000, 3]⟩
abbrev S1 : Shape := ⟨1, ![1]⟩
abbrev S1x1 : Shape := ⟨2, ![1, 1]⟩
abbrev S600000x3 : Shape := ⟨2, ![600000, 3]⟩
abbrev S1x3 : Shape := ⟨2, ![1, 3]⟩

abbrev nBuf : Space → Nat
  | .hbm => 104
  | .vmem => 40
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S600000, .i32⟩
  | .hbm, ⟨3, _⟩ => ⟨S600000, .i32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S256x3, .f32⟩
  | .hbm, ⟨11, _⟩ => ⟨S3, .f32⟩
  | .hbm, ⟨12, _⟩ => ⟨S_, .i32⟩
  | .hbm, ⟨13, _⟩ => ⟨S64, .i32⟩
  | .hbm, ⟨14, _⟩ => ⟨S600064, .i32⟩
  | .hbm, ⟨15, _⟩ => ⟨S600064x1, .i32⟩
  | .hbm, ⟨16, _⟩ => ⟨S_, .i32⟩
  | .hbm, ⟨17, _⟩ => ⟨S64, .i32⟩
  | .hbm, ⟨18, _⟩ => ⟨S600064, .i32⟩
  | .hbm, ⟨19, _⟩ => ⟨S600064x1, .i32⟩
  | .hbm, ⟨20, _⟩ => ⟨S_, .f32⟩
  | .hbm, ⟨21, _⟩ => ⟨S600000, .f32⟩
  | .hbm, ⟨22, _⟩ => ⟨S_, .f32⟩
  | .hbm, ⟨23, _⟩ => ⟨S50000, .f32⟩
  | .hbm, ⟨24, _⟩ => ⟨S600000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S_, .i32⟩
  | .hbm, ⟨31, _⟩ => ⟨S_, .f32⟩
  | .hbm, ⟨32, _⟩ => ⟨S50176x128, .f32⟩
  | .hbm, ⟨33, _⟩ => ⟨S50176x128, .bf16⟩
  | .hbm, ⟨34, _⟩ => ⟨S50176x128, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S_, .i32⟩
  | .hbm, ⟨41, _⟩ => ⟨S_, .f32⟩
  | .hbm, ⟨42, _⟩ => ⟨S50176x128, .f32⟩
  | .hbm, ⟨43, _⟩ => ⟨S50176x128, .bf16⟩
  | .hbm, ⟨44, _⟩ => ⟨S50176x128, .f32⟩
  | .hbm, ⟨45, _⟩ => ⟨S50000x128, .f32⟩
  | .hbm, ⟨46, _⟩ => ⟨S50000x128, .f32⟩
  | .hbm, ⟨47, _⟩ => ⟨S50000x128, .f32⟩
  | .hbm, ⟨48, _⟩ => ⟨S1x128, .f32⟩
  | .hbm, ⟨49, _⟩ => ⟨S50000x128, .f32⟩
  | .hbm, ⟨50, _⟩ => ⟨S128x3, .f32⟩
  | .hbm, ⟨51, _⟩ => ⟨S128x3, .f32⟩
  | .hbm, ⟨52, _⟩ => ⟨S50000x3, .f32⟩
  | .hbm, ⟨53, _⟩ => ⟨S50000x3, .f32⟩
  | .hbm, ⟨54, _⟩ => ⟨S_, .i32⟩
  | .hbm, ⟨55, _⟩ => ⟨S600000, .i32⟩
  | .hbm, ⟨56, _⟩ => ⟨S600000, .i1⟩
  | .hbm, ⟨57, _⟩ => ⟨S_, .i32⟩
  | .hbm, ⟨58, _⟩ => ⟨S600000, .i32⟩
  | .hbm, ⟨59, _⟩ => ⟨S600000, .i32⟩
  | .hbm, ⟨60, _⟩ => ⟨S600000, .i32⟩
  | .hbm, ⟨61, _⟩ => ⟨S600000x1, .i32⟩
  | .hbm, ⟨62, _⟩ => ⟨S1, .i32⟩
  | .hbm, ⟨63, _⟩ => ⟨S_, .i32⟩
  | .hbm, ⟨64, _⟩ => ⟨S600000x1, .i32⟩
  | .hbm, ⟨65, _⟩ => ⟨S600000x1, .i1⟩
  | .hbm, ⟨66, _⟩ => ⟨S1x1, .i32⟩
  | .hbm, ⟨67, _⟩ => ⟨S600000x1, .i32⟩
  | .hbm, ⟨68, _⟩ => ⟨S600000x1, .i1⟩
  | .hbm, ⟨69, _⟩ => ⟨S600000x1, .i1⟩
  | .hbm, ⟨70, _⟩ => ⟨S_, .i1⟩
  | .hbm, ⟨71, _⟩ => ⟨S600000, .i1⟩
  | .hbm, ⟨72, _⟩ => ⟨S600000x3, .f32⟩
  | .hbm, ⟨73, _⟩ => ⟨S600000x3, .i1⟩
  | .hbm, ⟨74, _⟩ => ⟨S_, .f32⟩
  | .hbm, ⟨75, _⟩ => ⟨S600000x3, .f32⟩
  | .hbm, ⟨76, _⟩ => ⟨S600000x3, .f32⟩
  | .hbm, ⟨77, _⟩ => ⟨S_, .i32⟩
  | .hbm, ⟨78, _⟩ => ⟨S600000, .i32⟩
  | .hbm, ⟨79, _⟩ => ⟨S600000, .i1⟩
  | .hbm, ⟨80, _⟩ => ⟨S_, .i32⟩
  | .hbm, ⟨81, _⟩ => ⟨S600000, .i32⟩
  | .hbm, ⟨82, _⟩ => ⟨S600000, .i32⟩
  | .hbm, ⟨83, _⟩ => ⟨S600000, .i32⟩
  | .hbm, ⟨84, _⟩ => ⟨S600000x1, .i32⟩
  | .hbm, ⟨85, _⟩ => ⟨S1, .i32⟩
  | .hbm, ⟨86, _⟩ => ⟨S_, .i32⟩
  | .hbm, ⟨87, _⟩ => ⟨S600000x1, .i32⟩
  | .hbm, ⟨88, _⟩ => ⟨S600000x1, .i1⟩
  | .hbm, ⟨89, _⟩ => ⟨S1x1, .i32⟩
  | .hbm, ⟨90, _⟩ => ⟨S600000x1, .i32⟩
  | .hbm, ⟨91, _⟩ => ⟨S600000x1, .i1⟩
  | .hbm, ⟨92, _⟩ => ⟨S600000x1, .i1⟩
  | .hbm, ⟨93, _⟩ => ⟨S_, .i1⟩
  | .hbm, ⟨94, _⟩ => ⟨S600000, .i1⟩
  | .hbm, ⟨95, _⟩ => ⟨S600000x3, .f32⟩
  | .hbm, ⟨96, _⟩ => ⟨S600000x3, .i1⟩
  | .hbm, ⟨97, _⟩ => ⟨S_, .f32⟩
  | .hbm, ⟨98, _⟩ => ⟨S600000x3, .f32⟩
  | .hbm, ⟨99, _⟩ => ⟨S600000x3, .f32⟩
  | .hbm, ⟨100, _⟩ => ⟨S600000x3, .f32⟩
  | .hbm, ⟨101, _⟩ => ⟨S1x3, .f32⟩
  | .hbm, ⟨102, _⟩ => ⟨S600000x3, .f32⟩
  | .hbm, ⟨103, _⟩ => ⟨S600000x3, .f32⟩
  | .local _ .vmem, ⟨0, _⟩ => ⟨S256x1, .i32⟩
  | .local _ .vmem, ⟨1, _⟩ => ⟨S256x1, .i32⟩
  | .local _ .vmem, ⟨2, _⟩ => ⟨S256x1, .i32⟩
  | .local _ .vmem, ⟨3, _⟩ => ⟨S256x1, .i32⟩
  | .local _ .vmem, ⟨4, _⟩ => ⟨S50176x128, .bf16⟩
  | .local _ .vmem, ⟨5, _⟩ => ⟨S50176x128, .f32⟩
  | .local _ .vmem, ⟨6, _⟩ => ⟨S256x128, .f32⟩
  | .local _ .vmem, ⟨7, _⟩ => ⟨S1000x128, .f32⟩
  | .local _ .vmem, ⟨8, _⟩ => ⟨S1000x128, .f32⟩
  | .local _ .vmem, ⟨9, _⟩ => ⟨S1000x128, .f32⟩
  | .local _ .vmem, ⟨10, _⟩ => ⟨S1000x128, .f32⟩
  | .local _ .vmem, ⟨11, _⟩ => ⟨S128x128, .f32⟩
  | .local _ .vmem, ⟨12, _⟩ => ⟨S128x128, .f32⟩
  | .local _ .vmem, ⟨13, _⟩ => ⟨S1x128, .f32⟩
  | .local _ .vmem, ⟨14, _⟩ => ⟨S1000x128, .f32⟩
  | .local _ .vmem, ⟨15, _⟩ => ⟨S1000x128, .f32⟩
  | .local _ .vmem, ⟨16, _⟩ => ⟨S256x1, .i32⟩
  | .local _ .vmem, ⟨17, _⟩ => ⟨S256x1, .i32⟩
  | .local _ .vmem, ⟨18, _⟩ => ⟨S256x1, .i32⟩
  | .local _ .vmem, ⟨19, _⟩ => ⟨S256x1, .i32⟩
  | .local _ .vmem, ⟨20, _⟩ => ⟨S50176x128, .bf16⟩
  | .local _ .vmem, ⟨21, _⟩ => ⟨S50176x128, .f32⟩
  | .local _ .vmem, ⟨22, _⟩ => ⟨S256x128, .f32⟩
  | .local _ .vmem, ⟨23, _⟩ => ⟨S1000x128, .f32⟩
  | .local _ .vmem, ⟨24, _⟩ => ⟨S1000x128, .f32⟩
  | .local _ .vmem, ⟨25, _⟩ => ⟨S1000x128, .f32⟩
  | .local _ .vmem, ⟨26, _⟩ => ⟨S1000x128, .f32⟩
  | .local _ .vmem, ⟨27, _⟩ => ⟨S128x128, .f32⟩
  | .local _ .vmem, ⟨28, _⟩ => ⟨S128x128, .f32⟩
  | .local _ .vmem, ⟨29, _⟩ => ⟨S1x128, .f32⟩
  | .local _ .vmem, ⟨30, _⟩ => ⟨S1000x128, .f32⟩
  | .local _ .vmem, ⟨31, _⟩ => ⟨S1000x128, .f32⟩
  | .local _ .vmem, ⟨32, _⟩ => ⟨S1000x128, .f32⟩
  | .local _ .vmem, ⟨33, _⟩ => ⟨S1000x128, .f32⟩
  | .local _ .vmem, ⟨34, _⟩ => ⟨S128x3, .f32⟩
  | .local _ .vmem, ⟨35, _⟩ => ⟨S128x3, .f32⟩
  | .local _ .vmem, ⟨36, _⟩ => ⟨S1000x3, .f32⟩
  | .local _ .vmem, ⟨37, _⟩ => ⟨S1000x3, .f32⟩
  | .local _ .vmem, ⟨38, _⟩ => ⟨S1000x3, .f32⟩
  | .local _ .vmem, ⟨39, _⟩ => ⟨S1000x3, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_3 : Ref sig .tc := ⟨.hbm, 30, rfl⟩
abbrev main_call0_v0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_call1_v0 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31_0 : Ref sig .tc := ⟨.hbm, 52, rfl⟩
abbrev main_v31_1 : Ref sig .tc := ⟨.hbm, 53, rfl⟩
abbrev main_call2_c : Ref sig .tc := ⟨.hbm, 54, rfl⟩
abbrev main_call2_v0 : Ref sig .tc := ⟨.hbm, 55, rfl⟩
abbrev main_call2_v1 : Ref sig .tc := ⟨.hbm, 56, rfl⟩
abbrev main_call2_c_0 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_c_1 : Ref sig .tc := ⟨.hbm, 62, rfl⟩
abbrev main_call2_c_2 : Ref sig .tc := ⟨.hbm, 63, rfl⟩
abbrev main_call2_v6 : Ref sig .tc := ⟨.hbm, 64, rfl⟩
abbrev main_call2_v7 : Ref sig .tc := ⟨.hbm, 65, rfl⟩
abbrev main_call2_v8 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_c_3 : Ref sig .tc := ⟨.hbm, 70, rfl⟩
abbrev main_call2_v12 : Ref sig .tc := ⟨.hbm, 71, rfl⟩
abbrev main_call2_v13 : Ref sig .tc := ⟨.hbm, 72, rfl⟩
abbrev main_call2_v14 : Ref sig .tc := ⟨.hbm, 73, rfl⟩
abbrev main_call2_cst : Ref sig .tc := ⟨.hbm, 74, rfl⟩
abbrev main_call2_v15 : Ref sig .tc := ⟨.hbm, 75, rfl⟩
abbrev main_v32 : Ref sig .tc := ⟨.hbm, 76, rfl⟩
abbrev main_call3_c : Ref sig .tc := ⟨.hbm, 77, rfl⟩
abbrev main_call3_v0 : Ref sig .tc := ⟨.hbm, 78, rfl⟩
abbrev main_call3_v1 : Ref sig .tc := ⟨.hbm, 79, rfl⟩
abbrev main_call3_c_0 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_call3_v5 : Ref sig .tc := ⟨.hbm, 84, rfl⟩
abbrev main_call3_c_1 : Ref sig .tc := ⟨.hbm, 85, rfl⟩
abbrev main_call3_c_2 : Ref sig .tc := ⟨.hbm, 86, rfl⟩
abbrev main_call3_v6 : Ref sig .tc := ⟨.hbm, 87, rfl⟩
abbrev main_call3_v7 : Ref sig .tc := ⟨.hbm, 88, rfl⟩
abbrev main_call3_v8 : Ref sig .tc := ⟨.hbm, 89, rfl⟩
abbrev main_call3_v9 : Ref sig .tc := ⟨.hbm, 90, rfl⟩
abbrev main_call3_v10 : Ref sig .tc := ⟨.hbm, 91, rfl⟩
abbrev main_call3_v11 : Ref sig .tc := ⟨.hbm, 92, rfl⟩
abbrev main_call3_c_3 : Ref sig .tc := ⟨.hbm, 93, rfl⟩
abbrev main_call3_v12 : Ref sig .tc := ⟨.hbm, 94, rfl⟩
abbrev main_call3_v13 : Ref sig .tc := ⟨.hbm, 95, rfl⟩
abbrev main_call3_v14 : Ref sig .tc := ⟨.hbm, 96, rfl⟩
abbrev main_call3_cst : Ref sig .tc := ⟨.hbm, 97, rfl⟩
abbrev main_call3_v15 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩
abbrev main_v37 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_scratch0 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc4_stg4_0 : Ref sig .tc := ⟨.vmem, 38, rfl⟩
abbrev cc4_stg4_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem3_1 : DmaSem sig := 35
abbrev cc4_sem4_0 : DmaSem sig := 36
abbrev cc4_sem4_1 : DmaSem sig := 37

abbrev nD : Nat := 1
abbrev τ : Topo := Topo.v7x

variable {F : FTy → Type} [FloatOps F]

abbrev grid0 : Pipeline.Grid := ⟨1, ![2344], ![false]⟩

@[reducible] def k0_t1_loop : Scf.Loop 32 :=
  let c0_i32_6 : BitVec 32 := 0#32
  let c49_i32 : BitVec 32 := 49#32
  let v11 : BitVec 32 := Scalar.addi c0_i32_6 c49_i32
  let c1_i32 : BitVec 32 := 1#32
  ⟨c0_i32_6, v11, c1_i32⟩
def k0_mult1 (k0_t1 : Fin k0_t1_loop.trips) : BitVec 32 :=
  let c0_i32_15 : BitVec 32 := 0#32
  let c0_i32_6 : BitVec 32 := 0#32
  let c1_i32 : BitVec 32 := 1#32
  let arg6 : BitVec 32 := Scf.iv c0_i32_6 c1_i32 k0_t1
  let c1_i32_14 : BitVec 32 := 1#32
  let v15 : BitVec 32 := Scalar.muli arg6 c1_i32_14
  let v16 : BitVec 32 := Scalar.addi c0_i32_15 v15
  let c1024_i32 : BitVec 32 := 1024#32
  let v17 : BitVec 32 := Scalar.muli v16 c1024_i32
  v17
def k0_off1 (k0_t1 : Fin k0_t1_loop.trips) : Fin 2 → Nat :=
  let c0_i32_15 : BitVec 32 := 0#32
  let c0_i32_6 : BitVec 32 := 0#32
  let c1_i32 : BitVec 32 := 1#32
  let arg6 : BitVec 32 := Scf.iv c0_i32_6 c1_i32 k0_t1
  let c1_i32_14 : BitVec 32 := 1#32
  let v15 : BitVec 32 := Scalar.muli arg6 c1_i32_14
  let v16 : BitVec 32 := Scalar.addi c0_i32_15 v15
  let c1024_i32 : BitVec 32 := 1024#32
  let v17 : BitVec 32 := Scalar.muli v16 c1024_i32
  let v18 : BitVec 32 := v17
  let v19 : Index := Scalar.indexCast v18
  let c0_16 : Index := 0#32
  ![v19.toNat, 0]
@[reducible] def k0_t2_loop : Scf.Loop 32 :=
  let c0_i32_10 : BitVec 32 := 0#32
  let c49_i32_11 : BitVec 32 := 49#32
  let v14 : BitVec 32 := Scalar.addi c0_i32_10 c49_i32_11
  let c1_i32_12 : BitVec 32 := 1#32
  ⟨c0_i32_10, v14, c1_i32_12⟩
def k0_mult2 (k0_t2 : Fin k0_t2_loop.trips) : BitVec 32 :=
  let c0_i32_15 : BitVec 32 := 0#32
  let c0_i32_10 : BitVec 32 := 0#32
  let c1_i32_12 : BitVec 32 := 1#32
  let arg6 : BitVec 32 := Scf.iv c0_i32_10 c1_i32_12 k0_t2
  let c1_i32_14 : BitVec 32 := 1#32
  let v15 : BitVec 32 := Scalar.muli arg6 c1_i32_14
  let v16 : BitVec 32 := Scalar.addi c0_i32_15 v15
  let c1024_i32 : BitVec 32 := 1024#32
  let v17 : BitVec 32 := Scalar.muli v16 c1024_i32
  v17
def k0_off2 (k0_t2 : Fin k0_t2_loop.trips) : Fin 2 → Nat :=
  let c0_i32_15 : BitVec 32 := 0#32
  let c0_i32_10 : BitVec 32 := 0#32
  let c1_i32_12 : BitVec 32 := 1#32
  let arg6 : BitVec 32 := Scf.iv c0_i32_10 c1_i32_12 k0_t2
  let c1_i32_14 : BitVec 32 := 1#32
  let v15 : BitVec 32 := Scalar.muli arg6 c1_i32_14
  let v16 : BitVec 32 := Scalar.addi c0_i32_15 v15
  let c1024_i32 : BitVec 32 := 1024#32
  let v17 : BitVec 32 := Scalar.muli v16 c1024_i32
  let v18 : BitVec 32 := v17
  let v30 : Index := Scalar.indexCast v18
  let c0_19 : Index := 0#32
  ![v30.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S50176x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S50176x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![2344], ![false]⟩

@[reducible] def k2_t1_loop : Scf.Loop 32 :=
  let c0_i32_6 : BitVec 32 := 0#32
  let c49_i32 : BitVec 32 := 49#32
  let v11 : BitVec 32 := Scalar.addi c0_i32_6 c49_i32
  let c1_i32 : BitVec 32 := 1#32
  ⟨c0_i32_6, v11, c1_i32⟩
def k2_mult1 (k2_t1 : Fin k2_t1_loop.trips) : BitVec 32 :=
  let c0_i32_15 : BitVec 32 := 0#32
  let c0_i32_6 : BitVec 32 := 0#32
  let c1_i32 : BitVec 32 := 1#32
  let arg6 : BitVec 32 := Scf.iv c0_i32_6 c1_i32 k2_t1
  let c1_i32_14 : BitVec 32 := 1#32
  let v15 : BitVec 32 := Scalar.muli arg6 c1_i32_14
  let v16 : BitVec 32 := Scalar.addi c0_i32_15 v15
  let c1024_i32 : BitVec 32 := 1024#32
  let v17 : BitVec 32 := Scalar.muli v16 c1024_i32
  v17
def k2_off1 (k2_t1 : Fin k2_t1_loop.trips) : Fin 2 → Nat :=
  let c0_i32_15 : BitVec 32 := 0#32
  let c0_i32_6 : BitVec 32 := 0#32
  let c1_i32 : BitVec 32 := 1#32
  let arg6 : BitVec 32 := Scf.iv c0_i32_6 c1_i32 k2_t1
  let c1_i32_14 : BitVec 32 := 1#32
  let v15 : BitVec 32 := Scalar.muli arg6 c1_i32_14
  let v16 : BitVec 32 := Scalar.addi c0_i32_15 v15
  let c1024_i32 : BitVec 32 := 1024#32
  let v17 : BitVec 32 := Scalar.muli v16 c1024_i32
  let v18 : BitVec 32 := v17
  let v19 : Index := Scalar.indexCast v18
  let c0_16 : Index := 0#32
  ![v19.toNat, 0]
@[reducible] def k2_t2_loop : Scf.Loop 32 :=
  let c0_i32_10 : BitVec 32 := 0#32
  let c49_i32_11 : BitVec 32 := 49#32
  let v14 : BitVec 32 := Scalar.addi c0_i32_10 c49_i32_11
  let c1_i32_12 : BitVec 32 := 1#32
  ⟨c0_i32_10, v14, c1_i32_12⟩
def k2_mult2 (k2_t2 : Fin k2_t2_loop.trips) : BitVec 32 :=
  let c0_i32_15 : BitVec 32 := 0#32
  let c0_i32_10 : BitVec 32 := 0#32
  let c1_i32_12 : BitVec 32 := 1#32
  let arg6 : BitVec 32 := Scf.iv c0_i32_10 c1_i32_12 k2_t2
  let c1_i32_14 : BitVec 32 := 1#32
  let v15 : BitVec 32 := Scalar.muli arg6 c1_i32_14
  let v16 : BitVec 32 := Scalar.addi c0_i32_15 v15
  let c1024_i32 : BitVec 32 := 1024#32
  let v17 : BitVec 32 := Scalar.muli v16 c1024_i32
  v17
def k2_off2 (k2_t2 : Fin k2_t2_loop.trips) : Fin 2 → Nat :=
  let c0_i32_15 : BitVec 32 := 0#32
  let c0_i32_10 : BitVec 32 := 0#32
  let c1_i32_12 : BitVec 32 := 1#32
  let arg6 : BitVec 32 := Scf.iv c0_i32_10 c1_i32_12 k2_t2
  let c1_i32_14 : BitVec 32 := 1#32
  let v15 : BitVec 32 := Scalar.muli arg6 c1_i32_14
  let v16 : BitVec 32 := Scalar.addi c0_i32_15 v15
  let c1024_i32 : BitVec 32 := 1024#32
  let v17 : BitVec 32 := Scalar.muli v16 c1024_i32
  let v18 : BitVec 32 := v17
  let v30 : Index := Scalar.indexCast v18
  let c0_19 : Index := 0#32
  ![v30.toNat, 0]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S256x1 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S50176x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S50176x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x3 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128x3 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1000x3 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S1000x3 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

class Facts₀ : Prop where
  bcast_S_S64 : S_.BroadcastsInDim S64 (![] : Fin 0 → Fin S64.rank)
  concatenates_S600000_S64_S600064_d0 : Shape.Concatenates [S600000, S64] S600064 0
  shapeCasts_S600064_S600064x1 : S600064.ShapeCasts S600064x1
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  pads_S50000x128_S50176x128_01760_000 : S50000x128.Pads (![0, 0] : Fin 2 → Nat) ![176, 0] ![0, 0] S50176x128
  h_S_ : 0 < S_.numel
  bitsLt_bf16_f32 : FTy.bits .bf16 < FTy.bits .f32
  inb_S50176x128_S50176x128_0_0 : ∀ a, (![0, 0] : Fin 2 → Nat) a + S50176x128.size a ≤ S50176x128.size a
  h_S50176x128 : 0 < S50176x128.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  h_S1024x128 : 0 < S1024x128.numel
  shapeCasts_S1024x128_S1024x128 : S1024x128.ShapeCasts S1024x128
  iota_S1x1024_d1_w32 : S1x1024.Iotas .tc 32 [1]
  broadcasts_S256x1_S256x1024 : S256x1.Broadcasts S256x1024
  broadcasts_S1x1024_S256x1024 : S1x1024.Broadcasts S256x1024
  slices_S50176x128_S50000x128_0_0 : S50176x128.Slices ![0, 0] S50000x128
  bcast_S50000x1_S50000x128_0_1 : S50000x1.BroadcastsInDim S50000x128 (![0, 1] : Fin 2 → Fin S50000x128.rank)
  shapeCasts_S128_S1x128 : S128.ShapeCasts S1x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  slices_S256x3_S128x3_0_0 : S256x3.Slices ![0, 0] S128x3
  slices_S256x3_S128x3_128_0 : S256x3.Slices ![128, 0] S128x3
  inb_S128x3_S128x3_0_0 : ∀ a, (![0, 0] : Fin 2 → Nat) a + S128x3.size a ≤ S128x3.size a
  h_S128x3 : 0 < S128x3.numel
  shapeCasts_S128x3_S128x3 : S128x3.ShapeCasts S128x3
  inb_S1000x3_S1000x3_0_0 : ∀ a, (![0, 0] : Fin 2 → Nat) a + S1000x3.size a ≤ S1000x3.size a
  h_S1000x3 : 0 < S1000x3.numel
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  bcast_S600000_S600000x3_0 : S600000.BroadcastsInDim S600000x3 (![0] : Fin 1 → Fin S600000x3.rank)
  bcast_S_S600000x3 : S_.BroadcastsInDim S600000x3 (![] : Fin 0 → Fin S600000x3.rank)
  bcast_S3_S1x3_1 : S3.BroadcastsInDim S1x3 (![1] : Fin 1 → Fin S1x3.rank)
  bcast_S1x3_S600000x3_0_1 : S1x3.BroadcastsInDim S600000x3 (![0, 1] : Fin 2 → Fin S600000x3.rank)
  scatter_S50000_S600000x1_S600000_n_0_0_1_wf : ScatterDims.WF S50000 S600000x1 S600000 [] [0] [0] 1
  dot_S256x1024_S1024x128_S256x128_1_0_0_1_n_n_wf : DotDims.WF S256x1024 S1024x128 S256x128 [1] [0] [0] [1] [] []
  dot_S256x1024_S256x128_S1024x128_0_0_1_1_n_n_wf : DotDims.WF S256x1024 S256x128 S1024x128 [0] [0] [1] [1] [] []
  dot_S1000x128_S128x128_S1000x128_1_0_0_1_n_n_wf : DotDims.WF S1000x128 S128x128 S1000x128 [1] [0] [0] [1] [] []
  dot_S1000x128_S128x3_S1000x3_1_0_0_1_n_n_wf : DotDims.WF S1000x128 S128x3 S1000x3 [1] [0] [0] [1] [] []
  gather_S50000x3_S600000x1_S600000x3_1_0_n_n_0_1_13_wf : GatherDims.WF S50000x3 S600000x1 S600000x3 [1] [0] [] [0] [] 1 ![1, 3]
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1024x128.size a ≤ S50176x128.size a
  k0_t2_ok : k0_t2_loop.OK
  k0_mult2_dvd : ∀ k0_t2 : Fin k0_t2_loop.trips, 1024 ∣ (k0_mult2 k0_t2).toNat
  k0_off2_inb : ∀ k0_t2 : Fin k0_t2_loop.trips, ∀ a, (k0_off2 k0_t2) a + S1024x128.size a ≤ S50176x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1.size a ≤ S600064x1.size a
  hwx0_0 : ∀ i : grid0.Coords, EltTy.bits .i32 = 32 ∨ (Rect.block (s := S600064x1) S256x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S600064x1.size a
  hwx0_1 : ∀ i : grid0.Coords, EltTy.bits .i32 = 32 ∨ (Rect.block (s := S600064x1) S256x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S50176x128.size a ≤ S50176x128.size a
  hwx0_2 : ∀ i : grid0.Coords, EltTy.bits .bf16 = 32 ∨ (Rect.block (s := S50176x128) S50176x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S50176x128.size a ≤ S50176x128.size a
  hwx0_3 : ∀ i : grid0.Coords, EltTy.bits .f32 = 32 ∨ (Rect.block (s := S50176x128) S50176x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S50000x128.size a
  hwx1_0 : ∀ i : grid1.Coords, EltTy.bits .f32 = 32 ∨ (Rect.block (s := S50000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S50000x128.size a
  hwx1_1 : ∀ i : grid1.Coords, EltTy.bits .f32 = 32 ∨ (Rect.block (s := S50000x128) S1000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x128.size a ≤ S50000x128.size a
  hwx1_5 : ∀ i : grid1.Coords, EltTy.bits .f32 = 32 ∨ (Rect.block (s := S50000x128) S1000x128.size (cc1_transform_5 i) (hinb1_5 i)).WholeWords (EltTy.packing .f32)
  hrank2 : 0 < grid2.rank
  k2_t1_ok : k2_t1_loop.OK
  k2_mult1_dvd : ∀ k2_t1 : Fin k2_t1_loop.trips, 1024 ∣ (k2_mult1 k2_t1).toNat
  k2_off1_inb : ∀ k2_t1 : Fin k2_t1_loop.trips, ∀ a, (k2_off1 k2_t1) a + S1024x128.size a ≤ S50176x128.size a
  k2_t2_ok : k2_t2_loop.OK
  k2_mult2_dvd : ∀ k2_t2 : Fin k2_t2_loop.trips, 1024 ∣ (k2_mult2 k2_t2).toNat
  k2_off2_inb : ∀ k2_t2 : Fin k2_t2_loop.trips, ∀ a, (k2_off2 k2_t2) a + S1024x128.size a ≤ S50176x128.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x1.size a ≤ S600064x1.size a
  hwx2_0 : ∀ i : grid2.Coords, EltTy.bits .i32 = 32 ∨ (Rect.block (s := S600064x1) S256x1.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x1.size a ≤ S600064x1.size a
  hwx2_1 : ∀ i : grid2.Coords, EltTy.bits .i32 = 32 ∨ (Rect.block (s := S600064x1) S256x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S50176x128.size a ≤ S50176x128.size a
  hwx2_2 : ∀ i : grid2.Coords, EltTy.bits .bf16 = 32 ∨ (Rect.block (s := S50176x128) S50176x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S50176x128.size a ≤ S50176x128.size a
  hwx2_3 : ∀ i : grid2.Coords, EltTy.bits .f32 = 32 ∨ (Rect.block (s := S50176x128) S50176x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S50000x128.size a
  hwx3_0 : ∀ i : grid3.Coords, EltTy.bits .f32 = 32 ∨ (Rect.block (s := S50000x128) S1000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x128.size a ≤ S50000x128.size a
  hwx3_1 : ∀ i : grid3.Coords, EltTy.bits .f32 = 32 ∨ (Rect.block (s := S50000x128) S1000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1000x128.size a ≤ S50000x128.size a
  hwx3_5 : ∀ i : grid3.Coords, EltTy.bits .f32 = 32 ∨ (Rect.block (s := S50000x128) S1000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x128.size a ≤ S50000x128.size a
  hwx4_0 : ∀ i : grid4.Coords, EltTy.bits .f32 = 32 ∨ (Rect.block (s := S50000x128) S1000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x3.size a ≤ S128x3.size a
  hwx4_1 : ∀ i : grid4.Coords, EltTy.bits .f32 = 32 ∨ (Rect.block (s := S128x3) S128x3.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x3.size a ≤ S128x3.size a
  hwx4_2 : ∀ i : grid4.Coords, EltTy.bits .f32 = 32 ∨ (Rect.block (s := S128x3) S128x3.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1000x3.size a ≤ S50000x3.size a
  hwx4_3 : ∀ i : grid4.Coords, EltTy.bits .f32 = 32 ∨ (Rect.block (s := S50000x3) S1000x3.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1000x3.size a ≤ S50000x3.size a
  hwx4_4 : ∀ i : grid4.Coords, EltTy.bits .f32 = 32 ∨ (Rect.block (s := S50000x3) S1000x3.size (cc4_transform_4 i) (hinb4_4 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf
def dot_S256x1024_S256x128_S1024x128_0_0_1_1_n_n : DotDims S256x1024 S256x128 S1024x128 where
  lhsContracting := [0]
  rhsContracting := [0]
  lhsNonContracting := [1]
  rhsNonContracting := [1]
  lhsBatch := []
  rhsBatch := []
  wf := dot_S256x1024_S256x128_S1024x128_0_0_1_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x3_S1000x3_1_0_0_1_n_n : DotDims S1000x128 S128x3 S1000x3 where
  lhsContracting := [1]
  rhsContracting := [0]
  lhsNonContracting := [0]
  rhsNonContracting := [1]
  lhsBatch := []
  rhsBatch := []
  wf := dot_S1000x128_S128x3_S1000x3_1_0_0_1_n_n_wf
def gather_S50000x3_S600000x1_S600000x3_1_0_n_n_0_1_13 : GatherDims S50000x3 S600000x1 S600000x3 where
  offsetDims := [1]
  collapsedSliceDims := [0]
  operandBatchingDims := []
  startIndicesBatchingDims := []
  startIndexMap := [0]
  indexVectorDim := 1
  sliceSizes := ![1, 3]
  wf := gather_S50000x3_S600000x1_S600000x3_1_0_n_n_0_1_13_wf

abbrev win0_0 : Pipeline.Window sig grid0 :=
  Pipeline.Window.ofSpec (Memref.whole main_v2) S256x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S50176x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S50176x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S1000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v2) S256x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S256x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v22) S50176x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v23) S50176x128.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v20) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v26) S1000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v27) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v28) S1000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v28) S1000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v29) S128x3.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v30) S128x3.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v31_0) S1000x3.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v31_1) S1000x3.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S50000x128 : Shape := ⟨2, ![50000, 128]⟩
abbrev S600000x128 : Shape := ⟨2, ![600000, 128]⟩
abbrev S600000 : Shape := ⟨1, ![600000]⟩
abbrev S128x128 : Shape := ⟨2, ![128, 128]⟩
abbrev S128 : Shape := ⟨1, ![128]⟩
abbrev S256x3 : Shape := ⟨2, ![256, 3]⟩
abbrev S3 : Shape := ⟨1, ![3]⟩
abbrev S_ : Shape := ⟨0, ![]⟩
abbrev S600000x1 : Shape := ⟨2, ![600000, 1]⟩
abbrev S50000 : Shape := ⟨1, ![50000]⟩
abbrev S50000x1 : Shape := ⟨2, ![50000, 1]⟩
abbrev S1x128 : Shape := ⟨2, ![1, 128]⟩
abbrev S600000x256 : Shape := ⟨2, ![600000, 256]⟩
abbrev S600000x3 : Shape := ⟨2, ![600000, 3]⟩
abbrev S1x3 : Shape := ⟨2, ![1, 3]⟩

abbrev nBuf : Space → Nat
  | .hbm => 100
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S600000, .i32⟩
  | .hbm, ⟨3, _⟩ => ⟨S600000, .i32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S256x3, .f32⟩
  | .hbm, ⟨11, _⟩ => ⟨S3, .f32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S50000x128, .f32⟩
  | .hbm, ⟨23, _⟩ => ⟨S600000x1, .i32⟩
  | .hbm, ⟨24, _⟩ => ⟨S50000x128, .f32⟩
  | .hbm, ⟨25, _⟩ => ⟨S_, .f32⟩
  | .hbm, ⟨26, _⟩ => ⟨S600000, .f32⟩
  | .hbm, ⟨27, _⟩ => ⟨S_, .f32⟩
  | .hbm, ⟨28, _⟩ => ⟨S50000, .f32⟩
  | .hbm, ⟨29, _⟩ => ⟨S600000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S600000, .i32⟩
  | .hbm, ⟨48, _⟩ => ⟨S600000, .i1⟩
  | .hbm, ⟨49, _⟩ => ⟨S_, .i32⟩
  | .hbm, ⟨50, _⟩ => ⟨S600000, .i32⟩
  | .hbm, ⟨51, _⟩ => ⟨S600000, .i32⟩
  | .hbm, ⟨52, _⟩ => ⟨S600000, .i32⟩
  | .hbm, ⟨53, _⟩ => ⟨S600000x1, .i32⟩
  | .hbm, ⟨54, _⟩ => ⟨S600000x128, .f32⟩
  | .hbm, ⟨55, _⟩ => ⟨S_, .f32⟩
  | .hbm, ⟨56, _⟩ => ⟨S50000x128, .f32⟩
  | .hbm, ⟨57, _⟩ => ⟨S600000x1, .i32⟩
  | .hbm, ⟨58, _⟩ => ⟨S50000x128, .f32⟩
  | .hbm, ⟨59, _⟩ => ⟨S_, .f32⟩
  | .hbm, ⟨60, _⟩ => ⟨S600000, .f32⟩
  | .hbm, ⟨61, _⟩ => ⟨S_, .f32⟩
  | .hbm, ⟨62, _⟩ => ⟨S50000, .f32⟩
  | .hbm, ⟨63, _⟩ => ⟨S600000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S1x128, .f32⟩
  | .hbm, ⟨75, _⟩ => ⟨S50000x128, .f32⟩
  | .hbm, ⟨76, _⟩ => ⟨S50000x128, .f32⟩
  | .hbm, ⟨77, _⟩ => ⟨S_, .i32⟩
  | .hbm, ⟨78, _⟩ => ⟨S600000, .i32⟩
  | .hbm, ⟨79, _⟩ => ⟨S600000, .i1⟩
  | .hbm, ⟨80, _⟩ => ⟨S_, .i32⟩
  | .hbm, ⟨81, _⟩ => ⟨S600000, .i32⟩
  | .hbm, ⟨82, _⟩ => ⟨S600000, .i32⟩
  | .hbm, ⟨83, _⟩ => ⟨S600000, .i32⟩
  | .hbm, ⟨84, _⟩ => ⟨S600000x1, .i32⟩
  | .hbm, ⟨85, _⟩ => ⟨S600000x128, .f32⟩
  | .hbm, ⟨86, _⟩ => ⟨S_, .i32⟩
  | .hbm, ⟨87, _⟩ => ⟨S600000, .i32⟩
  | .hbm, ⟨88, _⟩ => ⟨S600000, .i1⟩
  | .hbm, ⟨89, _⟩ => ⟨S_, .i32⟩
  | .hbm, ⟨90, _⟩ => ⟨S600000, .i32⟩
  | .hbm, ⟨91, _⟩ => ⟨S600000, .i32⟩
  | .hbm, ⟨92, _⟩ => ⟨S600000, .i32⟩
  | .hbm, ⟨93, _⟩ => ⟨S600000x1, .i32⟩
  | .hbm, ⟨94, _⟩ => ⟨S600000x128, .f32⟩
  | .hbm, ⟨95, _⟩ => ⟨S600000x256, .f32⟩
  | .hbm, ⟨96, _⟩ => ⟨S600000x3, .f32⟩
  | .hbm, ⟨97, _⟩ => ⟨S1x3, .f32⟩
  | .hbm, ⟨98, _⟩ => ⟨S600000x3, .f32⟩
  | .hbm, ⟨99, _⟩ => ⟨S600000x3, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call0_cst : Ref sig .tc := ⟨.hbm, 43, rfl⟩
abbrev main_call0_v0 : Ref sig .tc := ⟨.hbm, 44, rfl⟩
abbrev main_v25 : Ref sig .tc := ⟨.hbm, 45, rfl⟩
abbrev main_c_4 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_7 : Ref sig .tc := ⟨.hbm, 59, rfl⟩
abbrev main_v36 : Ref sig .tc := ⟨.hbm, 60, rfl⟩
abbrev main_cst_8 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_c_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_c_12 : Ref sig .tc := ⟨.hbm, 86, rfl⟩
abbrev main_v58 : Ref sig .tc := ⟨.hbm, 87, rfl⟩
abbrev main_v59 : Ref sig .tc := ⟨.hbm, 88, rfl⟩
abbrev main_c_13 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S600000x128_S600000x128_S600000x256_d1 : Shape.Concatenates [S600000x128, S600000x128] S600000x256 1
  bcast_S3_S1x3_1 : S3.BroadcastsInDim S1x3 (![1] : Fin 1 → Fin S1x3.rank)
  bcast_S1x3_S600000x3_0_1 : S1x3.BroadcastsInDim S600000x3 (![0, 1] : Fin 2 → Fin S600000x3.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  dot_S600000x256_S256x3_S600000x3_1_0_0_1_n_n_wf : DotDims.WF S600000x256 S256x3 S600000x3 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S600000x256_S256x3_S600000x3_1_0_0_1_n_n : DotDims S600000x256 S256x3 S600000x3 where
  lhsContracting := [1]
  rhsContracting := [0]
  lhsNonContracting := [0]
  rhsNonContracting := [1]
  lhsBatch := []
  rhsBatch := []
  wf := dot_S600000x256_S256x3_S600000x3_1_0_0_1_n_n_wf

class Facts : Prop extends Facts₀ where

variable [Facts]
-- ==== Proof.Spec.lean ====
import Idealize.ShloMosaic.PureOps.Ideal
import Idealize.ShloMosaic.Lib.ValueIdx
import Mathlib.Algebra.BigOperators.Group.Finset.Basic
import Mathlib.Data.Fintype.BigOperators

noncomputable section

open scoped BigOperators

namespace Cert.Spec

open Idealize.ShloMosaic Idealize.ShloMosaic.ValueIdx

def mat {A B : ℕ} (a : (⟨2, ![A, B]⟩ : Shape).Idx → EReal) : Fin A → Fin B → EReal := fun i j => a (ix2 i j)
def vec {A : ℕ} (a : (⟨1, ![A]⟩ : Shape).Idx → EReal) : Fin A → EReal := fun i => a (ix1 i)
def words {A : ℕ} (a : (⟨1, ![A]⟩ : Shape).Idx → BitVec 32) : Fin A → BitVec 32 := fun i => a (ix1 i)

def InRange (s : Fin 600000 → BitVec 32) : Prop := ∀ e, 0 ≤ (s e).toInt ∧ (s e).toInt < 50000

def rowOf (w : BitVec 32) : Fin 50000 := ⟨w.toNat % 50000, Nat.mod_lt _ (by norm_num)⟩

theorem rowOf_val {w : BitVec 32} (h0 : 0 ≤ w.toInt) (h1 : w.toInt < 50000) : (w.toInt) = ((rowOf w).val : ℤ) := by
  have hw : w.toInt = (w.toNat : ℤ) := by
    rw [BitVec.toInt_eq_toNat_cond] at h0 ⊢
    split_ifs at h0 ⊢ with h
    · rfl
    · exfalso; omega
  have hlt : w.toNat < 50000 := by omega
  simp only [rowOf, Nat.mod_eq_of_lt hlt, hw]

abbrev one : EReal := Ideal.ofBits .f32 0x3F800000#32

section
variable (src dst : Fin 600000 → BitVec 32)

def aggSum (h : Fin 50000 → Fin 128 → EReal) (n : Fin 50000) (d : Fin 128) : EReal :=
  ∑ e ∈ Finset.univ.filter (fun e : Fin 600000 => (dst e).toInt = (n.val : ℤ)), h (rowOf (src e)) d

def degree (n : Fin 50000) : EReal :=
  ∑ e ∈ Finset.univ.filter (fun e : Fin 600000 => (dst e).toInt = (n.val : ℤ)), one

def meanAgg (h : Fin 50000 → Fin 128 → EReal) (n : Fin 50000) (d : Fin 128) : EReal :=
  Ideal.div (aggSum src dst h n d) (max (degree dst n) one)

def lin (h a : Fin 50000 → Fin 128 → EReal) (ws wn : Fin 128 → Fin 128 → EReal) (b : Fin 128 → EReal)
    (n : Fin 50000) (j : Fin 128) : EReal :=
  ((∑ k : Fin 128, h n k * ws k j) + (∑ k : Fin 128, a n k * wn k j)) + b j

variable (x : Fin 50000 → Fin 128 → EReal) (w1s w1n : Fin 128 → Fin 128 → EReal) (b1 : Fin 128 → EReal)
  (w2s w2n : Fin 128 → Fin 128 → EReal) (b2 : Fin 128 → EReal)

def h1 (n : Fin 50000) (j : Fin 128) : EReal := max (lin x (meanAgg src dst x) w1s w1n b1 n j) 0

def h2 (n : Fin 50000) (j : Fin 128) : EReal :=
  lin (h1 src dst x w1s w1n b1) (meanAgg src dst (h1 src dst x w1s w1n b1)) w2s w2n b2 n j

def wpTop (wp : Fin 256 → Fin 3 → EReal) : Fin 128 → Fin 3 → EReal := fun k c => wp ⟨k.val, by have := k.isLt; omega⟩ c
def wpBot (wp : Fin 256 → Fin 3 → EReal) : Fin 128 → Fin 3 → EReal := fun k c => wp ⟨128 + k.val, by have := k.isLt; omega⟩ c

def score (wp : Fin 256 → Fin 3 → EReal) (bp : Fin 3 → EReal) (e : Fin 600000) (c : Fin 3) : EReal :=
  ((∑ k : Fin 128, h2 src dst x w1s w1n b1 w2s w2n b2 (rowOf (src e)) k * wpTop wp k c)
    + (∑ k : Fin 128, h2 src dst x w1s w1n b1 w2s w2n b2 (rowOf (dst e)) k * wpBot wp k c)) + bp c

end

end Cert.Spec

end
-- ==== Proof.KI.R0.lean ====
import proofs.«404972_j68066641707582_3_alg».proof.Proof.Gen.KernelIdeal.Launch
import proofs.«404972_j68066641707582_3_alg».proof.Proof.Gen.KernelIdeal.Skeleton
import proofs.«404972_j68066641707582_3_alg».proof.Proof.Gen.KernelIdeal.Points
import proofs.«404972_j68066641707582_3_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev cond0 (i : grid0.Coords) : Prop := (Scalar.cmpi .ne (Scalar.extui (Scalar.cmpi .eq (BitVec.ofNat 32 (i 0).val) 0#32)) 0#32) = 1#1

theorem hcond0 : ∀ t : Fin cfg0.N, cond0 (grid0.coords t) ↔ t.val = 0 :=
  (by decide +kernel : ∀ t : Fin grid0.N, cond0 (grid0.coords t) ↔ t.val = 0)

abbrev m0_0 (t : Fin cfg0.N) : Memref sig .tc .vmem S256x1 .i32 := win0_0.stage (cfg0.slots t 0)
abbrev hm0_0 (t : Fin cfg0.N) : (m0_0 t).IsWhole := hstage0_0 ((cfg0.slots t 0).cast nbuf0_0)
abbrev m0_1 (t : Fin cfg0.N) : Memref sig .tc .vmem S256x1 .i32 := win0_1.stage (cfg0.slots t 1)
abbrev hm0_1 (t : Fin cfg0.N) : (m0_1 t).IsWhole := hstage0_1 ((cfg0.slots t 1).cast nbuf0_1)
abbrev m0_2 (t : Fin cfg0.N) : Memref sig .tc .vmem S50176x128 .bf16 := win0_2.stage (cfg0.slots t 2)
abbrev hm0_2 (t : Fin cfg0.N) : (m0_2 t).IsWhole := hstage0_2 ((cfg0.slots t 2).cast nbuf0_2)
abbrev m0_3 (t : Fin cfg0.N) : Memref sig .tc .vmem S50176x128 .f32 := win0_3.stage (cfg0.slots t 3)
abbrev hm0_3 (t : Fin cfg0.N) : (m0_3 t).IsWhole := hstage0_3 ((cfg0.slots t 3).cast nbuf0_3)
abbrev m0_s : Memref sig .tc .vmem S256x128 .f32 := Memref.whole cc0_scratch0
abbrev hm0_s : (m0_s).IsWhole := Memref.isWhole_whole _

set_option maxHeartbeats 4000000 in
noncomputable def run0_A (c : Dev nD) (i : grid0.Coords) (arg1 : Memref sig .tc .vmem S256x1 .i32) (harg1 : arg1.IsWhole) (arg2 : Memref sig .tc .vmem S256x1 .i32) (harg2 : arg2.IsWhole) (arg3 : Memref sig .tc .vmem S50176x128 .bf16) (harg3 : arg3.IsWhole) (arg4 : Memref sig .tc .vmem S50176x128 .f32) (harg4 : arg4.IsWhole) (arg5 : Memref sig .tc .vmem S256x128 .f32) (harg5 : arg5.IsWhole) (hc : cond0 i)
    (x0 x1 : Vec F S256x1 .i32) (x2 : Vec F S50176x128 .bf16) :
    { Z : arg4.view.ty.Contents (Elt F) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ (arg4.view.loc (c : Thread nD τ) ↦[arg4.view.set]{fullShare} Z) ∗ (∃ d, owns (c : Thread nD τ) arg5 fullShare d)) -∗ K ⟨⟩))
          ⊢ wp frame (wpE (defs₀ (F := F)) Variants.none c none) E (cc0__mean_agg_kernel i arg1 harg1 arg2 harg2 arg3 harg3 arg4 harg4 arg5 harg5) K } := by
  refine ⟨?_, fun E K => ?run⟩
  case run =>
    simp only [cc0__mean_agg_kernel_eq_skeleton]; unfold cc0__mean_agg_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexact H3
    iexists _; iexists _; isplitr
    swap; · iexact H4
    ipureintro; rfl

set_option maxHeartbeats 4000000 in
noncomputable def run0_B (c : Dev nD) (i : grid0.Coords) (arg1 : Memref sig .tc .vmem S256x1 .i32) (harg1 : arg1.IsWhole) (arg2 : Memref sig .tc .vmem S256x1 .i32) (harg2 : arg2.IsWhole) (arg3 : Memref sig .tc .vmem S50176x128 .bf16) (harg3 : arg3.IsWhole) (arg4 : Memref sig .tc .vmem S50176x128 .f32) (harg4 : arg4.IsWhole) (arg5 : Memref sig .tc .vmem S256x128 .f32) (harg5 : arg5.IsWhole) (hc : ¬cond0 i)
    (x0 x1 : Vec F S256x1 .i32) (x2 : Vec F S50176x128 .bf16) (o : Vec F S50176x128 .f32) :
    { Z : arg4.view.ty.Contents (Elt F) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare o ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ (arg4.view.loc (c : Thread nD τ) ↦[arg4.view.set]{fullShare} Z) ∗ (∃ d, owns (c : Thread nD τ) arg5 fullShare d)) -∗ K ⟨⟩))
          ⊢ wp frame (wpE (defs₀ (F := F)) Variants.none c none) E (cc0__mean_agg_kernel i arg1 harg1 arg2 harg2 arg3 harg3 arg4 harg4 arg5 harg5) K } := by
  refine ⟨?_, fun E K => ?run⟩
  case run =>
    simp only [cc0__mean_agg_kernel_eq_skeleton]; unfold cc0__mean_agg_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2
    obtain rfl := harg4.eq_unread hf3
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexact H3
    iexists _; iexists _; isplitr
    swap; · iexact H4
    ipureintro; rfl

def outA0 (c : Dev nD) (t : Fin cfg0.N) (h0 : t.val = 0) : Vec F S50176x128 .f32 :=
  (m0_3 t).view.read (Elt F)
    (run0_A c (grid0.coords t) (m0_0 t) (hm0_0 t) (m0_1 t) (hm0_1 t) (m0_2 t) (hm0_2 t) (m0_3 t) (hm0_3 t) m0_s hm0_s ((hcond0 t).mpr h0)
      (iblk0 V c 0 t) (iblk0 V c 1 t) (iblk0 V c 2 t)).1

def outB0 (c : Dev nD) (t : Fin cfg0.N) (h0 : t.val ≠ 0) (o : Vec F S50176x128 .f32) : Vec F S50176x128 .f32 :=
  (m0_3 t).view.read (Elt F)
    (run0_B c (grid0.coords t) (m0_0 t) (hm0_0 t) (m0_1 t) (hm0_1 t) (m0_2 t) (hm0_2 t) (m0_3 t) (hm0_3 t) m0_s hm0_s (fun h => h0 ((hcond0 t).mp h))
      (iblk0 V c 0 t) (iblk0 V c 1 t) (iblk0 V c 2 t) o).1

def outAt0 (c : Dev nD) : (n : ℕ) → n < cfg0.N → Vec F S50176x128 .f32
  | 0, hn => outA0 V c ⟨0, hn⟩ rfl
  | n + 1, hn => outB0 V c ⟨n + 1, hn⟩ (Nat.succ_ne_zero n) (outAt0 c n (Nat.lt_of_succ_lt hn))

theorem outAt0_zero (c : Dev nD) : ∀ (t : Fin cfg0.N) (h0 : t.val = 0), outAt0 V c t.val t.isLt = outA0 V c t h0
  | ⟨0, _⟩, _ => rfl
  | ⟨_ + 1, _⟩, h0 => absurd h0 (Nat.succ_ne_zero _)

theorem outAt0_pos (c : Dev nD) : ∀ (t : Fin cfg0.N) (h0 : t.val ≠ 0),
    outAt0 V c t.val t.isLt = outB0 V c t h0 (outAt0 V c (t.val - 1) (Nat.lt_of_le_of_lt (Nat.sub_le _ _) t.isLt))
  | ⟨0, _⟩, h0 => absurd rfl h0
  | ⟨_ + 1, _⟩, _ => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

theorem before0_3_zero (c : Dev nD) (t : Fin cfg0.N) (h0 : t.val = 0) (d) : (dat0 V c).before 3 t d = d :=
  Dat.before_out_reset _ 3 rfl t (Or.inl h0) d

theorem before0_3_pos (c : Dev nD) (t : Fin cfg0.N) (h0 : t.val ≠ 0) (d) :
    (dat0 V c).before 3 t d = outAt0 V c (t.val - 1) (Nat.lt_of_le_of_lt (Nat.sub_le _ _) t.isLt) := by
  have hN : t.val < 2344 := lt_of_lt_of_eq t.isLt (show cfg0.N = 2344 from N_0)
  rw [Dat.before_out_kept _ 3 rfl t h0 (Bool.eq_false_iff.mpr fun h => by have := (flush0_3 _).mp h; dsimp only at this; omega)
    (fun _ => rfl) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (m0_0 t) fullShare ((dat0 V c).before 0 t d))
    ∗ (∃ d, owns (c : Thread nD τ) (m0_1 t) fullShare ((dat0 V c).before 1 t d))
    ∗ (∃ d, owns (c : Thread nD τ) (m0_2 t) fullShare ((dat0 V c).before 2 t d))
    ∗ (∃ d, owns (c : Thread nD τ) (m0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (m0_0 t) fullShare ((dat0 V c).after 0 t)
    ∗ owns (c : Thread nD τ) (m0_1 t) fullShare ((dat0 V c).after 1 t)
    ∗ owns (c : Thread nD τ) (m0_2 t) fullShare ((dat0 V c).after 2 t)
    ∗ owns (c : Thread nD τ) (m0_3 t) fullShare ((dat0 V c).after 3 t))

set_option maxHeartbeats 1600000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  rw [show (dat0 V c).Φ t.castSucc = Pipeline.ΦA spec0 c from rfl]
  unfold Pipeline.ΦA
  rw [scopedRest0_split c]
  by_cases h0 : t.val = 0
  · rw [outAt0_zero V c t h0]
    simp only [before0_3_zero V c t h0]
    unfold outA0
    iintro ⟨⟨⟨⟨%f5, H5⟩, HR⟩, HP⟩, Ho, ⟨%d0, H0⟩, ⟨%d1, H1⟩, ⟨%d2, H2⟩, ⟨%d3, H3⟩⟩
    iapply ((run0_A c (grid0.coords t) (m0_0 t) (hm0_0 t) (m0_1 t) (hm0_1 t) (m0_2 t) (hm0_2 t) (m0_3 t) (hm0_3 t) m0_s hm0_s ((hcond0 t).mpr h0)
      (iblk0 V c 0 t) (iblk0 V c 1 t) (iblk0 V c 2 t)).2 Set.univ _)
    isplitl [H0]; · iexact H0
    isplitl [H1]; · iexact H1
    isplitl [H2]; · iexact H2
    isplitl [H3]; · iexists _; iexact H3
    isplitl [H5]
    · iexists f5; rw [owns_whole]; iexact H5
    iintro ⟨H0, H1, H2, H3, ⟨%e5, H5⟩⟩
    isplitl [H5 HR HP]
    · isplitl [H5 HR]
      · isplitl [H5]
        · iexists e5; rw [← owns_whole (c : Thread nD τ) cc0_scratch0 fullShare e5]; iexact H5
        · iexact HR
      · iexact HP
    isplitl [Ho]; · iexact Ho
    isplitl [H0]; · iexact H0
    isplitl [H1]; · iexact H1
    isplitl [H2]; · iexact H2
    iapply (owns_intro (c : Thread nD τ) (m0_3 t) fullShare _)
    iexact H3
  · rw [outAt0_pos V c t h0]
    simp only [before0_3_pos V c t h0]
    unfold outB0
    iintro ⟨⟨⟨⟨%f5, H5⟩, HR⟩, HP⟩, Ho, ⟨%d0, H0⟩, ⟨%d1, H1⟩, ⟨%d2, H2⟩, ⟨%d3, H3⟩⟩
    iapply ((run0_B c (grid0.coords t) (m0_0 t) (hm0_0 t) (m0_1 t) (hm0_1 t) (m0_2 t) (hm0_2 t) (m0_3 t) (hm0_3 t) m0_s hm0_s (fun h => h0 ((hcond0 t).mp h))
      (iblk0 V c 0 t) (iblk0 V c 1 t) (iblk0 V c 2 t) (outAt0 V c (t.val - 1) (Nat.lt_of_le_of_lt (Nat.sub_le _ _) t.isLt))).2 Set.univ _)
    isplitl [H0]; · iexact H0
    isplitl [H1]; · iexact H1
    isplitl [H2]; · iexact H2
    isplitl [H3]; · iexact H3
    isplitl [H5]
    · iexists f5; rw [owns_whole]; iexact H5
    iintro ⟨H0, H1, H2, H3, ⟨%e5, H5⟩⟩
    isplitl [H5 HR HP]
    · isplitl [H5 HR]
      · isplitl [H5]
        · iexists e5; rw [← owns_whole (c : Thread nD τ) cc0_scratch0 fullShare e5]; iexact H5
        · iexact HR
      · iexact HP
    isplitl [Ho]; · iexact Ho
    isplitl [H0]; · iexact H0
    isplitl [H1]; · iexact H1
    isplitl [H2]; · iexact H2
    iapply (owns_intro (c : Thread nD τ) (m0_3 t) fullShare _)
    iexact H3

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
import proofs.«404972_j68066641707582_3_alg».proof.Proof.Gen.KernelIdeal.Launch
import proofs.«404972_j68066641707582_3_alg».proof.Proof.Gen.KernelIdeal.Skeleton
import proofs.«404972_j68066641707582_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev r1_row : Rect S1000x128 := Rect.unit (s := S1000x128) ![0, 0] S1000x128.size inb_S1000x128_S1000x128_0_0
abbrev r1_mat : Rect S128x128 := Rect.unit (s := S128x128) ![0, 0] S128x128.size inb_S128x128_S128x128_0_0
abbrev r1_vec : Rect S1x128 := Rect.unit (s := S1x128) ![0, 0] S1x128.size inb_S1x128_S1x128_0_0

def out1_5 (x0 x1 : Vec F S1000x128 .f32) (x2 x3 : Vec F S128x128 .f32) (x4 : Vec F S1x128 .f32) : Vec F S1000x128 .f32 :=
  View.canon [⟨r1_row, k1_pay1 (View.ld x0 r1_row) (View.ld x1 r1_row) (View.ld x2 r1_mat) (View.ld x3 r1_mat) (View.ld x4 r1_vec)⟩]

theorem cover1_5 (p0 : Vec F S1000x128 .f32) (y : S1000x128.Idx) :
    ∃ pc ∈ ([⟨r1_row, p0⟩] : List (View.Piece (Elt F) S1000x128 .f32)), y ∈ pc.1.set :=
  View.cover_of_tiled [⟨r1_row, p0⟩] S1000x128.size (by rfl) y

set_option maxHeartbeats 1000000 in
theorem sound_kernel1 (c : Dev nD) (E : Set ℕ) (i : grid1.Coords)
    (arg1 : Memref sig .tc .vmem S1000x128 .f32) (harg1 : arg1.IsWhole) (arg2 : Memref sig .tc .vmem S1000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S1000x128 .f32) (harg6 : arg6.IsWhole)
    (x0 x1 : Vec F S1000x128 .f32) (x2 x3 : Vec F S128x128 .f32) (x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__combine_kernel i arg1 harg1 arg2 harg2 arg3 harg3 arg4 harg4 arg5 harg5 arg6 harg6) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
import proofs.«404972_j68066641707582_3_alg».proof.Proof.KI.R0
import proofs.«404972_j68066641707582_3_alg».proof.Proof.Gen.KernelIdeal.Launch
import proofs.«404972_j68066641707582_3_alg».proof.Proof.Gen.KernelIdeal.Skeleton
import proofs.«404972_j68066641707582_3_alg».proof.Proof.Gen.KernelIdeal.Points
import proofs.«404972_j68066641707582_3_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev cond2 (i : grid2.Coords) : Prop := (Scalar.cmpi .ne (Scalar.extui (Scalar.cmpi .eq (BitVec.ofNat 32 (i 0).val) 0#32)) 0#32) = 1#1

theorem hcond2 : ∀ t : Fin cfg2.N, cond2 (grid2.coords t) ↔ t.val = 0 :=
  (by decide +kernel : ∀ t : Fin grid2.N, cond2 (grid2.coords t) ↔ t.val = 0)

abbrev m2_0 (t : Fin cfg2.N) : Memref sig .tc .vmem S256x1 .i32 := win2_0.stage (cfg2.slots t 0)
abbrev hm2_0 (t : Fin cfg2.N) : (m2_0 t).IsWhole := hstage2_0 ((cfg2.slots t 0).cast nbuf2_0)
abbrev m2_1 (t : Fin cfg2.N) : Memref sig .tc .vmem S256x1 .i32 := win2_1.stage (cfg2.slots t 1)
abbrev hm2_1 (t : Fin cfg2.N) : (m2_1 t).IsWhole := hstage2_1 ((cfg2.slots t 1).cast nbuf2_1)
abbrev m2_2 (t : Fin cfg2.N) : Memref sig .tc .vmem S50176x128 .bf16 := win2_2.stage (cfg2.slots t 2)
abbrev hm2_2 (t : Fin cfg2.N) : (m2_2 t).IsWhole := hstage2_2 ((cfg2.slots t 2).cast nbuf2_2)
abbrev m2_3 (t : Fin cfg2.N) : Memref sig .tc .vmem S50176x128 .f32 := win2_3.stage (cfg2.slots t 3)
abbrev hm2_3 (t : Fin cfg2.N) : (m2_3 t).IsWhole := hstage2_3 ((cfg2.slots t 3).cast nbuf2_3)
abbrev m2_s : Memref sig .tc .vmem S256x128 .f32 := Memref.whole cc2_scratch0
abbrev hm2_s : (m2_s).IsWhole := Memref.isWhole_whole _

/-- The second mean-aggregate kernel is the first, as a function of the grid point and its memrefs. -/
theorem cc2_eq (i : grid2.Coords) (arg1 : Memref sig .tc .vmem S256x1 .i32) (harg1 : arg1.IsWhole)
    (arg2 : Memref sig .tc .vmem S256x1 .i32) (harg2 : arg2.IsWhole) (arg3 : Memref sig .tc .vmem S50176x128 .bf16) (harg3 : arg3.IsWhole)
    (arg4 : Memref sig .tc .vmem S50176x128 .f32) (harg4 : arg4.IsWhole) (arg5 : Memref sig .tc .vmem S256x128 .f32) (harg5 : arg5.IsWhole) :
    cc2__mean_agg_kernel (F := F) i arg1 harg1 arg2 harg2 arg3 harg3 arg4 harg4 arg5 harg5
      = cc0__mean_agg_kernel (F := F) i arg1 harg1 arg2 harg2 arg3 harg3 arg4 harg4 arg5 harg5 := by
  sl_kernel_rfl

def outA2 (c : Dev nD) (t : Fin cfg2.N) (h0 : t.val = 0) : Vec F S50176x128 .f32 :=
  (m2_3 t).view.read (Elt F)
    (run0_A c (grid2.coords t) (m2_0 t) (hm2_0 t) (m2_1 t) (hm2_1 t) (m2_2 t) (hm2_2 t) (m2_3 t) (hm2_3 t) m2_s hm2_s ((hcond2 t).mpr h0)
      (iblk2 V c 0 t) (iblk2 V c 1 t) (iblk2 V c 2 t)).1

def outB2 (c : Dev nD) (t : Fin cfg2.N) (h0 : t.val ≠ 0) (o : Vec F S50176x128 .f32) : Vec F S50176x128 .f32 :=
  (m2_3 t).view.read (Elt F)
    (run0_B c (grid2.coords t) (m2_0 t) (hm2_0 t) (m2_1 t) (hm2_1 t) (m2_2 t) (hm2_2 t) (m2_3 t) (hm2_3 t) m2_s hm2_s (fun h => h0 ((hcond2 t).mp h))
      (iblk2 V c 0 t) (iblk2 V c 1 t) (iblk2 V c 2 t) o).1

def outAt2 (c : Dev nD) : (n : ℕ) → n < cfg2.N → Vec F S50176x128 .f32
  | 0, hn => outA2 V c ⟨0, hn⟩ rfl
  | n + 1, hn => outB2 V c ⟨n + 1, hn⟩ (Nat.succ_ne_zero n) (outAt2 c n (Nat.lt_of_succ_lt hn))

theorem outAt2_zero (c : Dev nD) : ∀ (t : Fin cfg2.N) (h0 : t.val = 0), outAt2 V c t.val t.isLt = outA2 V c t h0
  | ⟨0, _⟩, _ => rfl
  | ⟨_ + 1, _⟩, h0 => absurd h0 (Nat.succ_ne_zero _)

theorem outAt2_pos (c : Dev nD) : ∀ (t : Fin cfg2.N) (h0 : t.val ≠ 0),
    outAt2 V c t.val t.isLt = outB2 V c t h0 (outAt2 V c (t.val - 1) (Nat.lt_of_le_of_lt (Nat.sub_le _ _) t.isLt))
  | ⟨0, _⟩, h0 => absurd rfl h0
  | ⟨_ + 1, _⟩, _ => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outAt2 V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outAt2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

theorem before2_3_zero (c : Dev nD) (t : Fin cfg2.N) (h0 : t.val = 0) (d) : (dat2 V c).before 3 t d = d :=
  Dat.before_out_reset _ 3 rfl t (Or.inl h0) d

theorem before2_3_pos (c : Dev nD) (t : Fin cfg2.N) (h0 : t.val ≠ 0) (d) :
    (dat2 V c).before 3 t d = outAt2 V c (t.val - 1) (Nat.lt_of_le_of_lt (Nat.sub_le _ _) t.isLt) := by
  have hN : t.val < 2344 := lt_of_lt_of_eq t.isLt (show cfg2.N = 2344 from N_2)
  rw [Dat.before_out_kept _ 3 rfl t h0 (Bool.eq_false_iff.mpr fun h => by have := (flush2_3 _).mp h; dsimp only at this; omega)
    (fun _ => rfl) (fun _ _ => rfl)]
  dsimp only [dat2]

def bodyPre2 (c : Dev nD) (t : Fin cfg2.N) : sProp 𝕄 :=
  iprop((dat2 V c).Φ t.castSucc ∗ (dat2 V c).owesAt () t.castSucc
    ∗ (∃ d, owns (c : Thread nD τ) (m2_0 t) fullShare ((dat2 V c).before 0 t d))
    ∗ (∃ d, owns (c : Thread nD τ) (m2_1 t) fullShare ((dat2 V c).before 1 t d))
    ∗ (∃ d, owns (c : Thread nD τ) (m2_2 t) fullShare ((dat2 V c).before 2 t d))
    ∗ (∃ d, owns (c : Thread nD τ) (m2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (m2_0 t) fullShare ((dat2 V c).after 0 t)
    ∗ owns (c : Thread nD τ) (m2_1 t) fullShare ((dat2 V c).after 1 t)
    ∗ owns (c : Thread nD τ) (m2_2 t) fullShare ((dat2 V c).after 2 t)
    ∗ owns (c : Thread nD τ) (m2_3 t) fullShare ((dat2 V c).after 3 t))

set_option maxHeartbeats 1600000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  rw [cc2_eq]
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  rw [show (dat2 V c).Φ t.castSucc = Pipeline.ΦA spec2 c from rfl]
  unfold Pipeline.ΦA
  rw [scopedRest2_split c]
  by_cases h0 : t.val = 0
  · rw [outAt2_zero V c t h0]
    simp only [before2_3_zero V c t h0]
    unfold outA2
    iintro ⟨⟨⟨⟨%f5, H5⟩, HR⟩, HP⟩, Ho, ⟨%d0, H0⟩, ⟨%d1, H1⟩, ⟨%d2, H2⟩, ⟨%d3, H3⟩⟩
    iapply ((run0_A c (grid2.coords t) (m2_0 t) (hm2_0 t) (m2_1 t) (hm2_1 t) (m2_2 t) (hm2_2 t) (m2_3 t) (hm2_3 t) m2_s hm2_s ((hcond2 t).mpr h0)
      (iblk2 V c 0 t) (iblk2 V c 1 t) (iblk2 V c 2 t)).2 Set.univ _)
    isplitl [H0]; · iexact H0
    isplitl [H1]; · iexact H1
    isplitl [H2]; · iexact H2
    isplitl [H3]; · iexists _; iexact H3
    isplitl [H5]
    · iexists f5; rw [owns_whole]; iexact H5
    iintro ⟨H0, H1, H2, H3, ⟨%e5, H5⟩⟩
    isplitl [H5 HR HP]
    · isplitl [H5 HR]
      · isplitl [H5]
        · iexists e5; rw [← owns_whole (c : Thread nD τ) cc2_scratch0 fullShare e5]; iexact H5
        · iexact HR
      · iexact HP
    isplitl [Ho]; · iexact Ho
    isplitl [H0]; · iexact H0
    isplitl [H1]; · iexact H1
    isplitl [H2]; · iexact H2
    iapply (owns_intro (c : Thread nD τ) (m2_3 t) fullShare _)
    iexact H3
  · rw [outAt2_pos V c t h0]
    simp only [before2_3_pos V c t h0]
    unfold outB2
    iintro ⟨⟨⟨⟨%f5, H5⟩, HR⟩, HP⟩, Ho, ⟨%d0, H0⟩, ⟨%d1, H1⟩, ⟨%d2, H2⟩, ⟨%d3, H3⟩⟩
    iapply ((run0_B c (grid2.coords t) (m2_0 t) (hm2_0 t) (m2_1 t) (hm2_1 t) (m2_2 t) (hm2_2 t) (m2_3 t) (hm2_3 t) m2_s hm2_s (fun h => h0 ((hcond2 t).mp h))
      (iblk2 V c 0 t) (iblk2 V c 1 t) (iblk2 V c 2 t) (outAt2 V c (t.val - 1) (Nat.lt_of_le_of_lt (Nat.sub_le _ _) t.isLt))).2 Set.univ _)
    isplitl [H0]; · iexact H0
    isplitl [H1]; · iexact H1
    isplitl [H2]; · iexact H2
    isplitl [H3]; · iexact H3
    isplitl [H5]
    · iexists f5; rw [owns_whole]; iexact H5
    iintro ⟨H0, H1, H2, H3, ⟨%e5, H5⟩⟩
    isplitl [H5 HR HP]
    · isplitl [H5 HR]
      · isplitl [H5]
        · iexists e5; rw [← owns_whole (c : Thread nD τ) cc2_scratch0 fullShare e5]; iexact H5
        · iexact HR
      · iexact HP
    isplitl [Ho]; · iexact Ho
    isplitl [H0]; · iexact H0
    isplitl [H1]; · iexact H1
    isplitl [H2]; · iexact H2
    iapply (owns_intro (c : Thread nD τ) (m2_3 t) fullShare _)
    iexact H3

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3.lean ====
import proofs.«404972_j68066641707582_3_alg».proof.Proof.Gen.KernelIdeal.Launch
import proofs.«404972_j68066641707582_3_alg».proof.Proof.Gen.KernelIdeal.Skeleton
import proofs.«404972_j68066641707582_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when region 3 is entered
variable (V : (c : Dev nD) → (b : Ref sig .tc) → Buf (Elt F) ((c : Thread nD τ).loc b))

/-! # Region 3: the dense combine over 50 row blocks, at the entry contents `V` -/

/-! ## The windows' blocks -/

/-- Window `w`'s block at grid point `t`, read off its array as the region finds it. Windows 0, 1 and 5 move with
    the point (rows `1000 t … 1000 t + 999`); windows 2, 3 and 4 are the whole of their arrays at every point. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether the pipeline fetched it there
    or not (an unfetched point has the block index of the point before it), for any proof data over the entry
    arrays (`hA`) whose body leaves the block in place (`hafter`). The window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, whether the pipeline fetched it there
    or not (an unfetched point has the block index of the point before it), for any proof data over the entry
    arrays (`hA`) whose body leaves the block in place (`hafter`). The window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, whether the pipeline fetched it there
    or not (an unfetched point has the block index of the point before it), for any proof data over the entry
    arrays (`hA`) whose body leaves the block in place (`hafter`). The window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, whether the pipeline fetched it there
    or not (an unfetched point has the block index of the point before it), for any proof data over the entry
    arrays (`hA`) whose body leaves the block in place (`hafter`). The window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, whether the pipeline fetched it there
    or not (an unfetched point has the block index of the point before it), for any proof data over the entry
    arrays (`hA`) whose body leaves the block in place (`hafter`). The window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the one store take a whole staging buffer -/

abbrev r3_row : Rect S1000x128 := Rect.unit (s := S1000x128) ![0, 0] S1000x128.size inb_S1000x128_S1000x128_0_0
abbrev r3_mat : Rect S128x128 := Rect.unit (s := S128x128) ![0, 0] S128x128.size inb_S128x128_S128x128_0_0
abbrev r3_vec : Rect S1x128 := Rect.unit (s := S1x128) ![0, 0] S1x128.size inb_S1x128_S1x128_0_0

/-! ## What the body leaves in the output window's buffer -/

/-- Window 5's staging buffer after the body, from the five input blocks: its one store, of the payload computed
    from the five loads, laid over the buffer. -/
def out3_5 (x0 x1 : Vec F S1000x128 .f32) (x2 x3 : Vec F S128x128 .f32) (x4 : Vec F S1x128 .f32) : Vec F S1000x128 .f32 :=
  View.canon [⟨r3_row, k3_pay1 (View.ld x0 r3_row) (View.ld x1 r3_row) (View.ld x2 r3_mat) (View.ld x3 r3_mat) (View.ld x4 r3_vec)⟩]

/-- The store's rectangle is the whole buffer, so it covers every index. -/
theorem cover3_5 (p0 : Vec F S1000x128 .f32) (y : S1000x128.Idx) :
    ∃ pc ∈ ([⟨r3_row, p0⟩] : List (View.Piece (Elt F) S1000x128 .f32)), y ∈ pc.1.set :=
  View.cover_of_tiled [⟨r3_row, p0⟩] S1000x128.size (by rfl) y

/-! ## The body's triple -/

set_option maxHeartbeats 1000000 in
/-- The kernel body on whole staging memrefs, the inputs' holding `x0 … x4` and the output's anything, runs to a
    state where the inputs' hold what they held and the output's holds `out3_5` of them: five loads, a load of the
    output buffer whose value is unused, and the store. -/
theorem sound_kernel3 (c : Dev nD) (E : Set ℕ) (i : grid3.Coords)
    (arg1 : Memref sig .tc .vmem S1000x128 .f32) (harg1 : arg1.IsWhole) (arg2 : Memref sig .tc .vmem S1000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S1000x128 .f32) (harg6 : arg6.IsWhole)
    (x0 x1 : Vec F S1000x128 .f32) (x2 x3 : Vec F S128x128 .f32) (x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__combine_kernel i arg1 harg1 arg2 harg2 arg3 harg3 arg4 harg4 arg5 harg5 arg6 harg6) K := by
  simp only [cc3__combine_kernel_eq_skeleton]; unfold cc3__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of this pipeline on core `c`: the arrays as the region finds them; after the body at point `t`
    each input's buffer holds its block and the output's holds `out3_5` of the five input blocks; the invariant is
    the scoped rest and the generator register, untouched; nothing is owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t
    = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`: the invariant, the core's debts, and each window's current staging
    buffer at what the pipeline left there, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns: the same, each buffer at what the proof data says the body leaves. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the body's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.R4.lean ====
import proofs.«404972_j68066641707582_3_alg».proof.Proof.Gen.KernelIdeal.Launch
import proofs.«404972_j68066641707582_3_alg».proof.Proof.Gen.KernelIdeal.Skeleton
import proofs.«404972_j68066641707582_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

abbrev r4_x : Rect S1000x128 := Rect.unit (s := S1000x128) ![0, 0] S1000x128.size inb_S1000x128_S1000x128_0_0
abbrev r4_w : Rect S128x3 := Rect.unit (s := S128x3) ![0, 0] S128x3.size inb_S128x3_S128x3_0_0
abbrev r4_y : Rect S1000x3 := Rect.unit (s := S1000x3) ![0, 0] S1000x3.size inb_S1000x3_S1000x3_0_0

def out4_3 (x0 : Vec F S1000x128 .f32) (x1 : Vec F S128x3 .f32) : Vec F S1000x3 .f32 :=
  View.canon [⟨r4_y, k4_pay2 (View.ld x0 r4_x) (View.ld x1 r4_w)⟩]

def out4_4 (x0 : Vec F S1000x128 .f32) (x2 : Vec F S128x3 .f32) : Vec F S1000x3 .f32 :=
  View.canon [⟨r4_y, k4_pay3 (View.ld x0 r4_x) (View.ld x2 r4_w)⟩]

theorem cover4_y (p0 : Vec F S1000x3 .f32) (y : S1000x3.Idx) :
    ∃ pc ∈ ([⟨r4_y, p0⟩] : List (View.Piece (Elt F) S1000x3 .f32)), y ∈ pc.1.set :=
  View.cover_of_tiled [⟨r4_y, p0⟩] S1000x3.size (by rfl) y

set_option maxHeartbeats 1000000 in
theorem sound_kernel4 (c : Dev nD) (E : Set ℕ) (i : grid4.Coords)
    (arg1 : Memref sig .tc .vmem S1000x128 .f32) (harg1 : arg1.IsWhole) (arg2 : Memref sig .tc .vmem S128x3 .f32) (harg2 : arg2.IsWhole)
    (arg3 : Memref sig .tc .vmem S128x3 .f32) (harg3 : arg3.IsWhole) (arg4 : Memref sig .tc .vmem S1000x3 .f32) (harg4 : arg4.IsWhole)
    (arg5 : Memref sig .tc .vmem S1000x3 .f32) (harg5 : arg5.IsWhole)
    (x0 : Vec F S1000x128 .f32) (x1 x2 : Vec F S128x3 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1) ∗ owns (c : Thread nD τ) arg5 fullShare (out4_4 x0 x2)) -∗ K ⟨⟩))
      ⊢ wp frame (wpE (defs₀ (F := F)) Variants.none c none) E (cc4__score_proj_kernel i arg1 harg1 arg2 harg2 arg3 harg3 arg4 harg4 arg5 harg5) K := by
  simp only [cc4__score_proj_kernel_eq_skeleton]; unfold cc4__score_proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover4_y _)
  iexists _; isplitr
  swap; · iexact H4
  ipureintro
  exact View.read_writes_eq_canon _ _ _ (cover4_y _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t)
    | ⟨4, _⟩ => out4_4 (iblk4 V c 0 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) := by dsimp only [dat4]
theorem after4_4 (c : Dev nD) (t : Fin cfg4.N) : (dat4 V c).after 4 t = out4_4 (iblk4 V c 0 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Run.lean ====
import proofs.«404972_j68066641707582_3_alg».proof.Proof.KI.R0
import proofs.«404972_j68066641707582_3_alg».proof.Proof.KI.R1
import proofs.«404972_j68066641707582_3_alg».proof.Proof.KI.R2
import proofs.«404972_j68066641707582_3_alg».proof.Proof.KI.R3
import proofs.«404972_j68066641707582_3_alg».proof.Proof.KI.R4
import proofs.«404972_j68066641707582_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 (c : Dev nD) : Valuation τ sig (Elt F) := fun b => m (c, b)
abbrev W1 (c : Dev nD) : Valuation τ sig (Elt F) := StableHlo.after hostOps0 (W0 m c)
abbrev W2 (c : Dev nD) : Valuation τ sig (Elt F) := StableHlo.after hostOps0_1 (W1 m c)
abbrev W3 (c : Dev nD) : Valuation τ sig (Elt F) := StableHlo.after hostOps0_2 (W2 m c)
abbrev U3 : (c : Dev nD) → (b : Ref sig .tc) → Buf (Elt F) ((c : Thread nD τ).loc b) := fun c b => W3 m c b
def W4 (c : Dev nD) : Valuation τ sig (Elt F) :=
  Pipeline.withArrays spec0 c (W3 m c) fun w => (dat0 (U3 m) c).arrAt w cfg0.N
theorem W4_arr (c : Dev nD) (w : Fin cfg0.W) :
    W4 m c (Proc.devRef .tc (Pipeline.arrRef spec0 w)) = (dat0 (U3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev W5 (c : Dev nD) : Valuation τ sig (Elt F) := StableHlo.after hostOps1 (W4 m c)
abbrev U5 : (c : Dev nD) → (b : Ref sig .tc) → Buf (Elt F) ((c : Thread nD τ).loc b) := fun c b => W5 m c b
def W6 (c : Dev nD) : Valuation τ sig (Elt F) :=
  Pipeline.withArrays spec1 c (W5 m c) fun w => (dat1 (U5 m) c).arrAt w cfg1.N
theorem W6_arr (c : Dev nD) (w : Fin cfg1.W) :
    W6 m c (Proc.devRef .tc (Pipeline.arrRef spec1 w)) = (dat1 (U5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev W7 (c : Dev nD) : Valuation τ sig (Elt F) := StableHlo.after hostOps2 (W6 m c)
abbrev W8 (c : Dev nD) : Valuation τ sig (Elt F) := StableHlo.after hostOps2_1 (W7 m c)
abbrev W9 (c : Dev nD) : Valuation τ sig (Elt F) := StableHlo.after hostOps2_2 (W8 m c)
abbrev U9 : (c : Dev nD) → (b : Ref sig .tc) → Buf (Elt F) ((c : Thread nD τ).loc b) := fun c b => W9 m c b
def W10 (c : Dev nD) : Valuation τ sig (Elt F) :=
  Pipeline.withArrays spec2 c (W9 m c) fun w => (dat2 (U9 m) c).arrAt w cfg2.N
theorem W10_arr (c : Dev nD) (w : Fin cfg2.W) :
    W10 m c (Proc.devRef .tc (Pipeline.arrRef spec2 w)) = (dat2 (U9 m) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m c (Proc.devRef .tc b) = W9 m c (Proc.devRef .tc b) := by
  unfold W10; exact Pipeline.withArrays_of_ne spec2 c _ _ b hb
abbrev W11 (c : Dev nD) : Valuation τ sig (Elt F) := StableHlo.after hostOps3 (W10 m c)
abbrev U11 : (c : Dev nD) → (b : Ref sig .tc) → Buf (Elt F) ((c : Thread nD τ).loc b) := fun c b => W11 m c b
def W12 (c : Dev nD) : Valuation τ sig (Elt F) :=
  Pipeline.withArrays spec3 c (W11 m c) fun w => (dat3 (U11 m) c).arrAt w cfg3.N
theorem W12_arr (c : Dev nD) (w : Fin cfg3.W) :
    W12 m c (Proc.devRef .tc (Pipeline.arrRef spec3 w)) = (dat3 (U11 m) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m c (Proc.devRef .tc b) = W11 m c (Proc.devRef .tc b) := by
  unfold W12; exact Pipeline.withArrays_of_ne spec3 c _ _ b hb
abbrev W13 (c : Dev nD) : Valuation τ sig (Elt F) := StableHlo.after hostOps4 (W12 m c)
abbrev U13 : (c : Dev nD) → (b : Ref sig .tc) → Buf (Elt F) ((c : Thread nD τ).loc b) := fun c b => W13 m c b
def W14 (c : Dev nD) : Valuation τ sig (Elt F) :=
  Pipeline.withArrays spec4 c (W13 m c) fun w => (dat4 (U13 m) c).arrAt w cfg4.N
theorem W14_arr (c : Dev nD) (w : Fin cfg4.W) :
    W14 m c (Proc.devRef .tc (Pipeline.arrRef spec4 w)) = (dat4 (U13 m) c).arrAt w cfg4.N := by
  unfold W14; exact Pipeline.withArrays_arr spec4 launch4.win.arr_inj c _ _ w
theorem W14_of_ne (c : Dev nD) (b : Ref sig .tc) (hb : ∀ w, Pipeline.arrRef spec4 w ≠ b) :
    W14 m c (Proc.devRef .tc b) = W13 m c (Proc.devRef .tc b) := by
  unfold W14; exact Pipeline.withArrays_of_ne spec4 c _ _ b hb
abbrev W15 (c : Dev nD) : Valuation τ sig (Elt F) := StableHlo.after hostOps5 (W14 m c)
abbrev W16 (c : Dev nD) : Valuation τ sig (Elt F) := StableHlo.after hostOps5_1 (W15 m c)
abbrev W17 (c : Dev nD) : Valuation τ sig (Elt F) := StableHlo.after hostOps5_2 (W16 m c)

abbrev adm : (p : Fin 5) → (pcfgs (F := F) p).Adm := fun p => (cfgs p).toPCfg_adm
def pdats : (p : Fin 5) → (c : Dev nD) → Dat τ (Elt F) Unit ℕ (UR sig nD τ) ℕ (Pipeline.pin (pcfgs (F := F)) adm p) c
  | ⟨0, _⟩ => fun c => dat0 (U3 m) c
  | ⟨1, _⟩ => fun c => dat1 (U5 m) c
  | ⟨2, _⟩ => fun c => dat2 (U9 m) c
  | ⟨3, _⟩ => fun c => dat3 (U11 m) c
  | ⟨4, _⟩ => fun c => dat4 (U13 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W17 m c) ∗ ∃ r, prngReg c r)

set_option backward.isDefEq.respectTransparency.types false in
/-- One record for all five kernel regions: region `p` takes the unscoped buffers from the contents `Win` to `Wout`,
    which agree off the region's arrays; on those `Wout` holds what the region's data say is left. -/
def reg (p : Fin 5) (lf : Pipeline.LaunchFacts (nD := nD) (τ := τ) cfgs p) (Win Wout : Dev nD → Valuation τ sig (Elt F))
    (hΦ : ∀ c t, (pdats m p c).Φ t = Pipeline.ΦA (cfgs p).spec c)
    (hq : ∀ c w, (pdats m p c).q w = fullShare)
    (howed : ∀ c t, (pdats m p c).owed t = 0)
    (hrec : ∀ c t, (pdats m p c).recorded t = Set.univ)
    (hA : ∀ c w, (pdats m p c).A w = Win c (Pipeline.arrRef (cfgs p).spec w))
    (hbody : ∀ c, BodyObligation (pdats m p c) (defs₀ (F := F)) Variants.none () Set.univ)
    (hF : ∀ c w, Wout c (Proc.devRef .tc (Pipeline.arrRef (cfgs p).spec w)) = (pdats m p c).arrAt w (cfgs p).N)
    (hrest : ∀ c (b : Ref sig .tc), (∀ w, Pipeline.arrRef (cfgs p).spec w ≠ b) →
      Wout c (Proc.devRef .tc b) = Win c (Proc.devRef .tc b)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Win c b)
  hentry c := by
    rw [Pipeline.ownSems0_none]
    have hsplit := Pipeline.arrays_of_unscopedBufs (p := p) (pcfgs (F := F)) adm (pdats m) lf.win lf.arr_whole c
      ((pdats m p c).share_full (hq c)) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (by rw [hrec c 0]; trivial)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => Win c b) (fun b => Wout c b) ((pdats m p c).arrAt · (cfgs p).N) (fun w => (hF c w).symm)
      (fun b hb => hrest c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg m 0 launch0 (W3 m) (W4 m) (fun _ _ => rfl) (fun _ _ => rfl) (fun _ _ => rfl) (fun _ _ => rfl) (fun _ _ => rfl)
      (body_obligation0 (U3 m)) (W4_arr m) (W4_of_ne m)),
    .host (hseg hostOps1 hostOps1_sub hostOps1_fresh (W4 m)),
    .region (reg m 1 launch1 (W5 m) (W6 m) (fun _ _ => rfl) (fun _ _ => rfl) (fun _ _ => rfl) (fun _ _ => rfl) (fun _ _ => rfl)
      (body_obligation1 (U5 m)) (W6_arr m) (W6_of_ne m)),
    .host (hseg hostOps2 hostOps2_sub hostOps2_fresh (W6 m)),
    .host (hseg hostOps2_1 hostOps2_1_sub hostOps2_1_fresh (W7 m)),
    .host (hseg hostOps2_2 hostOps2_2_sub hostOps2_2_fresh (W8 m)),
    .region (reg m 2 launch2 (W9 m) (W10 m) (fun _ _ => rfl) (fun _ _ => rfl) (fun _ _ => rfl) (fun _ _ => rfl) (fun _ _ => rfl)
      (body_obligation2 (U9 m)) (W10_arr m) (W10_of_ne m)),
    .host (hseg hostOps3 hostOps3_sub hostOps3_fresh (W10 m)),
    .region (reg m 3 launch3 (W11 m) (W12 m) (fun _ _ => rfl) (fun _ _ => rfl) (fun _ _ => rfl) (fun _ _ => rfl) (fun _ _ => rfl)
      (body_obligation3 (U11 m)) (W12_arr m) (W12_of_ne m)),
    .host (hseg hostOps4 hostOps4_sub hostOps4_fresh (W12 m)),
    .region (reg m 4 launch4 (W13 m) (W14 m) (fun _ _ => rfl) (fun _ _ => rfl) (fun _ _ => rfl) (fun _ _ => rfl) (fun _ _ => rfl)
      (body_obligation4 (U13 m)) (W14_arr m) (W14_of_ne m)),
    .host (hseg hostOps5 hostOps5_sub hostOps5_fresh (W14 m)),
    .host (hseg hostOps5_1 hostOps5_1_sub hostOps5_1_fresh (W15 m)),
    .host (hseg hostOps5_2 hostOps5_2_sub hostOps5_2_fresh (W16 m)) ]

theorem main_run (c : Dev nD) : main (F := F) c = Pipeline.Seg.run (segs m) := (main_chain c).trans (by chain_rfl)

set_option backward.isDefEq.respectTransparency.types false in
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W17 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W17 m c) ∗ R c) : sProp 𝕄) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m c b)
    (hfin := fun c s' => by
      iintro ⟨⟨Hh, -⟩, HSI⟩
      unfold StableHlo.held
      imodintro
      iapply (pointsTo_read_all (Pipeline.ucRefs τ sig) (fun b => (((c : Thread nD τ)).1, b)) (W17 m c) s')
      isplitl [Hh] <;> iassumption)
    (hQ := fun s h => h)

end Cert.KernelIdeal.Hand

end
-- ==== Proof.KI.Args.lean ====
import proofs.«404972_j68066641707582_3_alg».proof.Proof.KI.Run

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

theorem W4_keep (c : Dev nD) (r : Ref sig .tc) (h : r ≠ main_v15) :
    W4 m c (Proc.devRef .tc r) = W3 m c (Proc.devRef .tc r) := by
  by_cases hw : ∃ w, Pipeline.arrRef spec0 w = r
  · obtain ⟨w, rfl⟩ := hw
    rw [W4_arr]
    match w, h with
    | ⟨0, _⟩, _ => exact ((dat0 (U3 m) c).arrAt_in 0 rfl _).trans (A_eq0 (U3 m) c 0)
    | ⟨1, _⟩, _ => exact ((dat0 (U3 m) c).arrAt_in 1 rfl _).trans (A_eq0 (U3 m) c 1)
    | ⟨2, _⟩, _ => exact ((dat0 (U3 m) c).arrAt_in 2 rfl _).trans (A_eq0 (U3 m) c 2)
    | ⟨3, _⟩, h => exact absurd rfl h
  · exact W4_of_ne m c r fun w e => hw ⟨w, e⟩

theorem W6_keep (c : Dev nD) (r : Ref sig .tc) (h : r ≠ main_v20) :
    W6 m c (Proc.devRef .tc r) = W5 m c (Proc.devRef .tc r) := by
  by_cases hw : ∃ w, Pipeline.arrRef spec1 w = r
  · obtain ⟨w, rfl⟩ := hw
    rw [W6_arr]
    match w, h with
    | ⟨0, _⟩, _ => exact ((dat1 (U5 m) c).arrAt_in 0 rfl _).trans (A_eq1 (U5 m) c 0)
    | ⟨1, _⟩, _ => exact ((dat1 (U5 m) c).arrAt_in 1 rfl _).trans (A_eq1 (U5 m) c 1)
    | ⟨2, _⟩, _ => exact ((dat1 (U5 m) c).arrAt_in 2 rfl _).trans (A_eq1 (U5 m) c 2)
    | ⟨3, _⟩, _ => exact ((dat1 (U5 m) c).arrAt_in 3 rfl _).trans (A_eq1 (U5 m) c 3)
    | ⟨4, _⟩, _ => exact ((dat1 (U5 m) c).arrAt_in 4 rfl _).trans (A_eq1 (U5 m) c 4)
    | ⟨5, _⟩, h => exact absurd rfl h
  · exact W6_of_ne m c r fun w e => hw ⟨w, e⟩

theorem W10_keep (c : Dev nD) (r : Ref sig .tc) (h : r ≠ main_v23) :
    W10 m c (Proc.devRef .tc r) = W9 m c (Proc.devRef .tc r) := by
  by_cases hw : ∃ w, Pipeline.arrRef spec2 w = r
  · obtain ⟨w, rfl⟩ := hw
    rw [W10_arr]
    match w, h with
    | ⟨0, _⟩, _ => exact ((dat2 (U9 m) c).arrAt_in 0 rfl _).trans (A_eq2 (U9 m) c 0)
    | ⟨1, _⟩, _ => exact ((dat2 (U9 m) c).arrAt_in 1 rfl _).trans (A_eq2 (U9 m) c 1)
    | ⟨2, _⟩, _ => exact ((dat2 (U9 m) c).arrAt_in 2 rfl _).trans (A_eq2 (U9 m) c 2)
    | ⟨3, _⟩, h => exact absurd rfl h
  · exact W10_of_ne m c r fun w e => hw ⟨w, e⟩

theorem W12_keep (c : Dev nD) (r : Ref sig .tc) (h : r ≠ main_v28) :
    W12 m c (Proc.devRef .tc r) = W11 m c (Proc.devRef .tc r) := by
  by_cases hw : ∃ w, Pipeline.arrRef spec3 w = r
  · obtain ⟨w, rfl⟩ := hw
    rw [W12_arr]
    match w, h with
    | ⟨0, _⟩, _ => exact ((dat3 (U11 m) c).arrAt_in 0 rfl _).trans (A_eq3 (U11 m) c 0)
    | ⟨1, _⟩, _ => exact ((dat3 (U11 m) c).arrAt_in 1 rfl _).trans (A_eq3 (U11 m) c 1)
    | ⟨2, _⟩, _ => exact ((dat3 (U11 m) c).arrAt_in 2 rfl _).trans (A_eq3 (U11 m) c 2)
    | ⟨3, _⟩, _ => exact ((dat3 (U11 m) c).arrAt_in 3 rfl _).trans (A_eq3 (U11 m) c 3)
    | ⟨4, _⟩, _ => exact ((dat3 (U11 m) c).arrAt_in 4 rfl _).trans (A_eq3 (U11 m) c 4)
    | ⟨5, _⟩, h => exact absurd rfl h
  · exact W12_of_ne m c r fun w e => hw ⟨w, e⟩

theorem W14_keep (c : Dev nD) (r : Ref sig .tc) (h : r ≠ main_v31_0 ∧ r ≠ main_v31_1) :
    W14 m c (Proc.devRef .tc r) = W13 m c (Proc.devRef .tc r) := by
  by_cases hw : ∃ w, Pipeline.arrRef spec4 w = r
  · obtain ⟨w, rfl⟩ := hw
    rw [W14_arr]
    match w, h with
    | ⟨0, _⟩, _ => exact ((dat4 (U13 m) c).arrAt_in 0 rfl _).trans (A_eq4 (U13 m) c 0)
    | ⟨1, _⟩, _ => exact ((dat4 (U13 m) c).arrAt_in 1 rfl _).trans (A_eq4 (U13 m) c 1)
    | ⟨2, _⟩, _ => exact ((dat4 (U13 m) c).arrAt_in 2 rfl _).trans (A_eq4 (U13 m) c 2)
    | ⟨3, _⟩, h => exact absurd rfl h.1
    | ⟨4, _⟩, h => exact absurd rfl h.2
  · exact W14_of_ne m c r fun w e => hw ⟨w, e⟩

theorem W3_of_W0 (c : Dev nD) (r : Ref sig .tc) (h1 : r ∉ hostOps0_W) (h2 : r ∉ hostOps0_1_W) (h3 : r ∉ hostOps0_2_W) :
    W3 m c (Proc.devRef .tc r) = m ((c : Thread nD τ).loc r) :=
  (StableHlo.after_of_writes_sub hostOps0_2 _ hostOps0_2_writes h3).trans <| (StableHlo.after_of_writes_sub hostOps0_1 _ hostOps0_1_writes h2).trans (StableHlo.after_of_writes_sub hostOps0 _ hostOps0_writes h1)

theorem W5_of_W3 (c : Dev nD) (r : Ref sig .tc) (g4 : r ≠ main_v15) (h5 : r ∉ hostOps1_W) :
    W5 m c (Proc.devRef .tc r) = W3 m c (Proc.devRef .tc r) :=
  (StableHlo.after_of_writes_sub hostOps1 _ hostOps1_writes h5).trans (W4_keep m c r g4)

theorem W9_of_W6 (c : Dev nD) (r : Ref sig .tc) (h7 : r ∉ hostOps2_W) (h8 : r ∉ hostOps2_1_W) (h9 : r ∉ hostOps2_2_W) :
    W9 m c (Proc.devRef .tc r) = W6 m c (Proc.devRef .tc r) :=
  (StableHlo.after_of_writes_sub hostOps2_2 _ hostOps2_2_writes h9).trans <| (StableHlo.after_of_writes_sub hostOps2_1 _ hostOps2_1_writes h8).trans (StableHlo.after_of_writes_sub hostOps2 _ hostOps2_writes h7)

theorem W5_of_unwritten (c : Dev nD) (r : Ref sig .tc) (h1 : r ∉ hostOps0_W) (h2 : r ∉ hostOps0_1_W) (h3 : r ∉ hostOps0_2_W)
    (g4 : r ≠ main_v15) (h5 : r ∉ hostOps1_W) : W5 m c (Proc.devRef .tc r) = m ((c : Thread nD τ).loc r) :=
  (W5_of_W3 m c r g4 h5).trans (W3_of_W0 m c r h1 h2 h3)

theorem W9_of_W3 (c : Dev nD) (r : Ref sig .tc) (g4 : r ≠ main_v15) (h5 : r ∉ hostOps1_W) (g6 : r ≠ main_v20)
    (h7 : r ∉ hostOps2_W) (h8 : r ∉ hostOps2_1_W) (h9 : r ∉ hostOps2_2_W) : W9 m c (Proc.devRef .tc r) = W3 m c (Proc.devRef .tc r) :=
  (W9_of_W6 m c r h7 h8 h9).trans <| (W6_keep m c r g6).trans (W5_of_W3 m c r g4 h5)

theorem W11_of_W6 (c : Dev nD) (r : Ref sig .tc) (h7 : r ∉ hostOps2_W) (h8 : r ∉ hostOps2_1_W) (h9 : r ∉ hostOps2_2_W)
    (g10 : r ≠ main_v23) (h11 : r ∉ hostOps3_W) : W11 m c (Proc.devRef .tc r) = W6 m c (Proc.devRef .tc r) :=
  (StableHlo.after_of_writes_sub hostOps3 _ hostOps3_writes h11).trans <| (W10_keep m c r g10).trans (W9_of_W6 m c r h7 h8 h9)

theorem W11_of_unwritten (c : Dev nD) (r : Ref sig .tc) (h1 : r ∉ hostOps0_W) (h2 : r ∉ hostOps0_1_W) (h3 : r ∉ hostOps0_2_W)
    (g4 : r ≠ main_v15) (h5 : r ∉ hostOps1_W) (g6 : r ≠ main_v20) (h7 : r ∉ hostOps2_W) (h8 : r ∉ hostOps2_1_W)
    (h9 : r ∉ hostOps2_2_W) (g10 : r ≠ main_v23) (h11 : r ∉ hostOps3_W) : W11 m c (Proc.devRef .tc r) = m ((c : Thread nD τ).loc r) :=
  (W11_of_W6 m c r h7 h8 h9 g10 h11).trans <| (W6_keep m c r g6).trans (W5_of_unwritten m c r h1 h2 h3 g4 h5)

theorem W13_of_unwritten (c : Dev nD) (r : Ref sig .tc) (h1 : r ∉ hostOps0_W) (h2 : r ∉ hostOps0_1_W) (h3 : r ∉ hostOps0_2_W)
    (g4 : r ≠ main_v15) (h5 : r ∉ hostOps1_W) (g6 : r ≠ main_v20) (h7 : r ∉ hostOps2_W) (h8 : r ∉ hostOps2_1_W)
    (h9 : r ∉ hostOps2_2_W) (g10 : r ≠ main_v23) (h11 : r ∉ hostOps3_W) (g12 : r ≠ main_v28) (h13 : r ∉ hostOps4_W) :
    W13 m c (Proc.devRef .tc r) = m ((c : Thread nD τ).loc r) :=
  (StableHlo.after_of_writes_sub hostOps4 _ hostOps4_writes h13).trans <| (W12_keep m c r g12).trans (W11_of_unwritten m c r h1 h2 h3 g4 h5 g6 h7 h8 h9 g10 h11)

theorem W17_of_unwritten (c : Dev nD) (r : Ref sig .tc) (h1 : r ∉ hostOps0_W) (h2 : r ∉ hostOps0_1_W) (h3 : r ∉ hostOps0_2_W)
    (h5 : r ∉ hostOps1_W) (h7 : r ∉ hostOps2_W) (h8 : r ∉ hostOps2_1_W) (h9 : r ∉ hostOps2_2_W) (h11 : r ∉ hostOps3_W)
    (h13 : r ∉ hostOps4_W) (h15 : r ∉ hostOps5_W) (h16 : r ∉ hostOps5_1_W) (h17 : r ∉ hostOps5_2_W)
    (ho : r ≠ main_v15 ∧ r ≠ main_v20 ∧ r ≠ main_v23 ∧ r ≠ main_v28 ∧ r ≠ main_v31_0 ∧ r ≠ main_v31_1) :
    W17 m c (Proc.devRef .tc r) = m ((c : Thread nD τ).loc r) :=
  (StableHlo.after_of_writes_sub hostOps5_2 _ hostOps5_2_writes h17).trans <| (StableHlo.after_of_writes_sub hostOps5_1 _ hostOps5_1_writes h16).trans <|
    (StableHlo.after_of_writes_sub hostOps5 _ hostOps5_writes h15).trans <| (W14_keep m c r ho.2.2.2.2).trans
      (W13_of_unwritten m c r h1 h2 h3 ho.1 h5 ho.2.1 h7 h8 h9 ho.2.2.1 h11 ho.2.2.2.1 h13)

abbrev argRefs : List (Ref sig .tc) :=
  [main_arg0, main_arg1, main_arg2, main_arg3, main_arg4, main_arg5, main_arg6, main_arg7, main_arg8, main_arg9, main_arg10, main_arg11]

/-- No item of the entry function writes an argument array. -/
theorem W17_arg (c : Dev nD) (a : Ref sig .tc) (ha : a ∈ argRefs) : W17 m c (Proc.devRef .tc a) = m ((c : Thread nD τ).loc a) :=
  W17_of_unwritten m c a
    ((by decide : ∀ a ∈ argRefs, a ∉ hostOps0_W) a ha) ((by decide : ∀ a ∈ argRefs, a ∉ hostOps0_1_W) a ha)
    ((by decide : ∀ a ∈ argRefs, a ∉ hostOps0_2_W) a ha) ((by decide : ∀ a ∈ argRefs, a ∉ hostOps1_W) a ha)
    ((by decide : ∀ a ∈ argRefs, a ∉ hostOps2_W) a ha) ((by decide : ∀ a ∈ argRefs, a ∉ hostOps2_1_W) a ha)
    ((by decide : ∀ a ∈ argRefs, a ∉ hostOps2_2_W) a ha) ((by decide : ∀ a ∈ argRefs, a ∉ hostOps3_W) a ha)
    ((by decide : ∀ a ∈ argRefs, a ∉ hostOps4_W) a ha) ((by decide : ∀ a ∈ argRefs, a ∉ hostOps5_W) a ha)
    ((by decide : ∀ a ∈ argRefs, a ∉ hostOps5_1_W) a ha) ((by decide : ∀ a ∈ argRefs, a ∉ hostOps5_2_W) a ha)
    ((by decide : ∀ a ∈ argRefs, a ≠ main_v15 ∧ a ≠ main_v20 ∧ a ≠ main_v23 ∧ a ≠ main_v28 ∧ a ≠ main_v31_0 ∧ a ≠ main_v31_1) a ha)

/-- From any memory the entry function runs to the end, at any float instance: the result array ends at the last
    boundary's contents and every argument array as launched. -/
theorem run_kept (ρ : Dev nD → PrngReg) :
    θ_run (defs (F := F)) (onTc (τ := τ) (main (F := F))) ⟨m, fun _ => 0, ρ⟩ (fun r => ∀ c : Dev nD,
      r.2.mem ((c : Thread nD τ).loc main_v37) = W17 m c (Proc.devRef .tc main_v37)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)) :=
  (θ_run defs _ _).mono (fun r h c =>
    have k (a : Ref sig .tc) (ha : a ∈ argRefs) : r.2.mem ((c : Thread nD τ).loc a) = m ((c : Thread nD τ).loc a) :=
      (h c _ (mem_uc a ((by decide : ∀ a ∈ argRefs, ¬ (Proc.devRef .tc a : DevRef τ sig).isScoped) a ha))).trans (W17_arg m c a ha)
    ⟨h c _ (mem_uc main_v37 (by decide)), k main_arg0 (by decide), k main_arg1 (by decide), k main_arg2 (by decide), k main_arg3 (by decide), k main_arg4 (by decide), k main_arg5 (by decide), k main_arg6 (by decide), k main_arg7 (by decide), k main_arg8 (by decide), k main_arg9 (by decide), k main_arg10 (by decide), k main_arg11 (by decide)⟩)
    (run_all m ρ)

/-- The frame, at any float instance. -/
theorem frame (ρ : Dev nD → PrngReg) :
    θ_run (defs (F := F)) (onTc (τ := τ) (main (F := F))) ⟨m, fun _ => 0, ρ⟩ (fun r => ∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)) :=
  (θ_run defs _ _).mono (fun _ h c => (h c).2) (run_kept m ρ)

end Cert.KernelIdeal.Hand

end
-- ==== Proof.KI.PreRange.lean ====
import proofs.«404972_j68066641707582_3_alg».proof.Defs
import proofs.«404972_j68066641707582_3_alg».proof.Proof.Spec
import proofs.«404972_j68066641707582_3_alg».proof.Proof.Gen.Pre_finite_inputs
import Idealize.ShloMosaic.Lib.ReduceAll
import Idealize.ShloMosaic.Lib.ValueIdx

set_option maxRecDepth 16384

noncomputable section

namespace Cert.KernelIdeal.Hand

open Idealize.ShloMosaic Idealize.ShloMosaic.ValueIdx Idealize.SL.Sem

private theorem range_of_cmp (w : BitVec 32) (h0 : IntOp.cmpi .sge w 0#32 = 1#1) (h1 : IntOp.cmpi .slt w 50000#32 = 1#1) :
    0 ≤ w.toInt ∧ w.toInt < 50000 := by
  have z : (0#32 : BitVec 32).toInt = 0 := by decide
  have n : (50000#32 : BitVec 32).toInt = 50000 := by decide
  have a := IntOp.cmpi_sge.1 h0
  have b := IntOp.cmpi_slt.1 h1
  rw [z] at a
  rw [n] at b
  exact ⟨a, b⟩

private theorem pre_words [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.Pre_finite_inputs.S600000.Idx) :
    (0 ≤ ((m ((c.tc : Thread Cert.KernelIdeal.nD Cert.KernelIdeal.τ).loc Cert.KernelIdeal.main_arg2) : Cert.Pre_finite_inputs.S600000.Idx → BitVec 32) i).toInt
      ∧ ((m ((c.tc : Thread Cert.KernelIdeal.nD Cert.KernelIdeal.τ).loc Cert.KernelIdeal.main_arg2) : Cert.Pre_finite_inputs.S600000.Idx → BitVec 32) i).toInt < 50000)
    ∧ (0 ≤ ((m ((c.tc : Thread Cert.KernelIdeal.nD Cert.KernelIdeal.τ).loc Cert.KernelIdeal.main_arg3) : Cert.Pre_finite_inputs.S600000.Idx → BitVec 32) i).toInt
      ∧ ((m ((c.tc : Thread Cert.KernelIdeal.nD Cert.KernelIdeal.τ).loc Cert.KernelIdeal.main_arg3) : Cert.Pre_finite_inputs.S600000.Idx → BitVec 32) i).toInt < 50000) := by
  haveI : Subsingleton Cert.Pre_finite_inputs.S_.Idx := ⟨fun a b => funext fun d => d.elim0⟩
  have e := congrFun (h c) ix0
  unfold Cert.Pre_finite_inputs.fn Cert.Pre_finite_inputs.fn_part1 Cert.Pre_finite_inputs.fn_part2 Cert.Pre_finite_inputs.fn_part3 at e
  simp only [andi, IntOp.andi_eq_one] at e
  obtain ⟨⟨⟨⟨-, hs0⟩, hs1⟩, hd0⟩, hd1⟩ := e
  have gs0 := Host.reduce_andi_all _ _ _ _ _ hs0 i
  have gs1 := Host.reduce_andi_all _ _ _ _ _ hs1 i
  have gd0 := Host.reduce_andi_all _ _ _ _ _ hd0 i
  have gd1 := Host.reduce_andi_all _ _ _ _ _ hd1 i
  exact ⟨range_of_cmp _ gs0 gs1, range_of_cmp _ gd0 gd1⟩

theorem src_inRange [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.InRange (Cert.Spec.words (m ((c.tc : Thread _ _).loc Cert.KernelIdeal.main_arg2))) :=
  fun e => (pre_words m h c (ix1 e)).1

theorem dst_inRange [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.InRange (Cert.Spec.words (m ((c.tc : Thread _ _).loc Cert.KernelIdeal.main_arg3))) :=
  fun e => (pre_words m h c (ix1 e)).2

end Cert.KernelIdeal.Hand

end
-- ==== Proof.LibIndex.lean ====
import Idealize.ShloMosaic.PureOps.Ideal
import Idealize.ShloMosaic.PureOps.Ideal.Laws
import Idealize.ShloMosaic.Lib.ValueIdx

noncomputable section

open scoped BigOperators

namespace Cert.LibIndex

open Idealize.ShloMosaic Idealize.ShloMosaic.ValueIdx

theorem resultIdx?_eq_some_iff {s si u : Shape} (d : ScatterDims s si u) {w : ℕ} (j : u.Idx) (idx : IVec si w) (t : s.Idx) :
    d.resultIdx? j idx = some t ↔ ∀ a, d.start j idx a + (d.window j a : ℤ) = ((t a).val : ℤ) := by
  unfold ScatterDims.resultIdx?
  split
  next h =>
    constructor
    · intro heq a
      have ht := congrArg (fun f : s.Idx => (f a).val) (Option.some.inj heq)
      simp only at ht
      have := (h a).1
      omega
    · intro heq
      refine congrArg some (funext fun a => Fin.ext ?_)
      have := heq a
      simp only
      omega
  next h =>
    constructor
    · intro heq; exact absurd heq (by simp)
    · intro heq
      exact absurd (fun a => by have := heq a; have := (t a).isLt; constructor <;> omega) h

theorem mem_sKept {s si u : Shape} (d : ScatterDims s si u) (a : Fin s.rank) : a ∈ d.sKept ↔ a ∉ d.insertedWindowDims := by
  simp [ScatterDims.sKept, Shape.kept, List.mem_filter, List.mem_finRange]

theorem window_of_inserted {s si u : Shape} (d : ScatterDims s si u) (j : u.Idx) (a : Fin s.rank)
    (ha : a ∈ d.insertedWindowDims) : d.window j a = 0 := by
  unfold ScatterDims.window
  rw [dif_neg (fun h => (mem_sKept d a).mp h ha)]

theorem resultIdx_vec {M E w : ℕ} (d : ScatterDims ⟨1, ![M]⟩ ⟨2, ![E, 1]⟩ ⟨1, ![E]⟩)
    (h1 : d.updateWindowDims = []) (h2 : d.insertedWindowDims = [0]) (h3 : d.scatterDimsToOperandDims = [0])
    (h4 : d.indexVectorDim = 1)
    (idx : IVec ⟨2, ![E, 1]⟩ w) (e : Fin E) (i : Fin M) :
    d.resultIdx? (ix1 e) idx = some (ix1 i) ↔ (idx (ix2 e (0 : Fin 1))).toInt = (i.val : ℤ) := by
  obtain ⟨uwd, iwd, sd, ivd, wf⟩ := d
  dsimp only at h1 h2 h3 h4
  subst h1 h2 h3 h4
  rw [resultIdx?_eq_some_iff]
  have hs : ScatterDims.start (⟨[], [0], [0], 1, wf⟩ : ScatterDims ⟨1, ![M]⟩ ⟨2, ![E, 1]⟩ ⟨1, ![E]⟩) (ix1 e) idx 0
      = (idx (ix2 e (0 : Fin 1))).toInt := by
    unfold ScatterDims.start
    rw [dif_pos (List.mem_singleton.mpr rfl)]
    congr 2
    funext b; refine Fin.ext ?_
    match b with
    | ⟨0, _⟩ => rfl
    | ⟨1, _⟩ => rfl
  have hw : ScatterDims.window (⟨[], [0], [0], 1, wf⟩ : ScatterDims ⟨1, ![M]⟩ ⟨2, ![E, 1]⟩ ⟨1, ![E]⟩) (ix1 e) 0 = 0 :=
    window_of_inserted _ _ _ (List.mem_singleton.mpr rfl)
  constructor
  · intro h
    have := h 0
    rw [hs, hw, Nat.cast_zero, add_zero] at this
    exact this
  · intro h a
    match a with
    | ⟨0, _⟩ =>
      show ScatterDims.start _ (ix1 e) idx 0 + ((ScatterDims.window _ (ix1 e) 0 : ℕ) : ℤ) = (i.val : ℤ)
      rw [hs, hw, h, Nat.cast_zero, add_zero]

theorem resultIdx_rows {M C E w : ℕ} (d : ScatterDims ⟨2, ![M, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (idx : IVec ⟨2, ![E, 1]⟩ w) (e : Fin E) (c' : Fin C) (i : Fin M) (c : Fin C) :
    d.resultIdx? (ix2 e c') idx = some (ix2 i c) ↔ (idx (ix2 e (0 : Fin 1))).toInt = (i.val : ℤ) ∧ c' = c := by
  obtain ⟨uwd, iwd, sd, ivd, wf⟩ := d
  dsimp only at h1 h2 h3 h4
  subst h1 h2 h3 h4
  rw [resultIdx?_eq_some_iff]
  have hs0 : ScatterDims.start (⟨[1], [0], [0], 1, wf⟩ : ScatterDims ⟨2, ![M, C]⟩ ⟨2, ![E, 1]⟩ ⟨2, ![E, C]⟩) (ix2 e c') idx 0
      = (idx (ix2 e (0 : Fin 1))).toInt := by
    unfold ScatterDims.start
    rw [dif_pos (List.mem_singleton.mpr rfl)]
    congr 2
    funext b; refine Fin.ext ?_
    match b with
    | ⟨0, _⟩ => rfl
    | ⟨1, _⟩ => rfl
  have hw0 : ScatterDims.window (⟨[1], [0], [0], 1, wf⟩ : ScatterDims ⟨2, ![M, C]⟩ ⟨2, ![E, 1]⟩ ⟨2, ![E, C]⟩) (ix2 e c') 0 = 0 :=
    window_of_inserted _ _ _ (List.mem_singleton.mpr rfl)
  have hs1 : ScatterDims.start (⟨[1], [0], [0], 1, wf⟩ : ScatterDims ⟨2, ![M, C]⟩ ⟨2, ![E, 1]⟩ ⟨2, ![E, C]⟩) (ix2 e c') idx 1 = 0 := by
    unfold ScatterDims.start
    rw [dif_neg (show (1 : Fin 2) ∉ ([0] : List (Fin 2)) by decide)]
  have hw1 : ScatterDims.window (⟨[1], [0], [0], 1, wf⟩ : ScatterDims ⟨2, ![M, C]⟩ ⟨2, ![E, 1]⟩ ⟨2, ![E, C]⟩) (ix2 e c') 1 = c'.val := by
    unfold ScatterDims.window
    rw [dif_pos ((mem_sKept _ _).mpr (show (1 : Fin 2) ∉ ([0] : List (Fin 2)) by decide))]
    rfl
  constructor
  · intro h
    have e0 := h 0
    have e1 := h 1
    rw [hs0, hw0, Nat.cast_zero, add_zero] at e0
    rw [hs1, hw1, zero_add] at e1
    exact ⟨e0, Fin.ext (Nat.cast_injective (R := ℤ) e1)⟩
  · rintro ⟨h, rfl⟩ a
    match a with
    | ⟨0, _⟩ =>
      show ScatterDims.start _ (ix2 e c') idx 0 + ((ScatterDims.window _ (ix2 e c') 0 : ℕ) : ℤ) = (i.val : ℤ)
      rw [hs0, hw0, h, Nat.cast_zero, add_zero]
    | ⟨1, _⟩ =>
      show ScatterDims.start _ (ix2 e c') idx 1 + ((ScatterDims.window _ (ix2 e c') 1 : ℕ) : ℤ) = (c'.val : ℤ)
      rw [hs1, hw1, zero_add]

theorem resultIdx_points {M E w : ℕ} (d : ScatterDims ⟨2, ![M, M]⟩ ⟨2, ![E, 2]⟩ ⟨1, ![E]⟩)
    (h1 : d.updateWindowDims = []) (h2 : d.insertedWindowDims = [0, 1]) (h3 : d.scatterDimsToOperandDims = [0, 1])
    (h4 : d.indexVectorDim = 1)
    (idx : IVec ⟨2, ![E, 2]⟩ w) (e : Fin E) (r k : Fin M) :
    d.resultIdx? (ix1 e) idx = some (ix2 r k)
      ↔ (idx (ix2 e (0 : Fin 2))).toInt = (r.val : ℤ) ∧ (idx (ix2 e (1 : Fin 2))).toInt = (k.val : ℤ) := by
  obtain ⟨uwd, iwd, sd, ivd, wf⟩ := d
  dsimp only at h1 h2 h3 h4
  subst h1 h2 h3 h4
  rw [resultIdx?_eq_some_iff]
  have hs0 : ScatterDims.start (⟨[], [0, 1], [0, 1], 1, wf⟩ : ScatterDims ⟨2, ![M, M]⟩ ⟨2, ![E, 2]⟩ ⟨1, ![E]⟩) (ix1 e) idx 0
      = (idx (ix2 e (0 : Fin 2))).toInt := by
    unfold ScatterDims.start
    rw [dif_pos (show (0 : Fin 2) ∈ ([0, 1] : List (Fin 2)) by decide)]
    congr 2
    funext b; refine Fin.ext ?_
    match b with
    | ⟨0, _⟩ => rfl
    | ⟨1, _⟩ => rfl
  have hs1 : ScatterDims.start (⟨[], [0, 1], [0, 1], 1, wf⟩ : ScatterDims ⟨2, ![M, M]⟩ ⟨2, ![E, 2]⟩ ⟨1, ![E]⟩) (ix1 e) idx 1
      = (idx (ix2 e (1 : Fin 2))).toInt := by
    unfold ScatterDims.start
    rw [dif_pos (show (1 : Fin 2) ∈ ([0, 1] : List (Fin 2)) by decide)]
    congr 2
    funext b; refine Fin.ext ?_
    match b with
    | ⟨0, _⟩ => rfl
    | ⟨1, _⟩ => rfl
  have hw0 : ScatterDims.window (⟨[], [0, 1], [0, 1], 1, wf⟩ : ScatterDims ⟨2, ![M, M]⟩ ⟨2, ![E, 2]⟩ ⟨1, ![E]⟩) (ix1 e) 0 = 0 :=
    window_of_inserted _ _ _ (show (0 : Fin 2) ∈ ([0, 1] : List (Fin 2)) by decide)
  have hw1 : ScatterDims.window (⟨[], [0, 1], [0, 1], 1, wf⟩ : ScatterDims ⟨2, ![M, M]⟩ ⟨2, ![E, 2]⟩ ⟨1, ![E]⟩) (ix1 e) 1 = 0 :=
    window_of_inserted _ _ _ (show (1 : Fin 2) ∈ ([0, 1] : List (Fin 2)) by decide)
  constructor
  · intro h
    have e0 := h 0
    have e1 := h 1
    rw [hs0, hw0, Nat.cast_zero, add_zero] at e0
    rw [hs1, hw1, Nat.cast_zero, add_zero] at e1
    exact ⟨e0, e1⟩
  · rintro ⟨h0, h1⟩ a
    match a with
    | ⟨0, _⟩ =>
      show ScatterDims.start _ (ix1 e) idx 0 + ((ScatterDims.window _ (ix1 e) 0 : ℕ) : ℤ) = (r.val : ℤ)
      rw [hs0, hw0, h0, Nat.cast_zero, add_zero]
    | ⟨1, _⟩ =>
      show ScatterDims.start _ (ix1 e) idx 1 + ((ScatterDims.window _ (ix1 e) 1 : ℕ) : ℤ) = (k.val : ℤ)
      rw [hs1, hw1, h1, Nat.cast_zero, add_zero]

theorem scatterAdd_vec_apply {M E w : ℕ} (d : ScatterDims ⟨1, ![M]⟩ ⟨2, ![E, 1]⟩ ⟨1, ![E]⟩)
    (h1 : d.updateWindowDims = []) (h2 : d.insertedWindowDims = [0]) (h3 : d.scatterDimsToOperandDims = [0])
    (h4 : d.indexVectorDim = 1)
    (x : (⟨1, ![M]⟩ : Shape).Idx → EReal) (idx : IVec ⟨2, ![E, 1]⟩ w) (upd : (⟨1, ![E]⟩ : Shape).Idx → EReal) (i : Fin M) :
    Ideal.hostScatterAdd d x idx upd (ix1 i)
      = x (ix1 i) + ∑ e ∈ Finset.univ.filter (fun e : Fin E => (idx (ix2 e (0 : Fin 1))).toInt = (i.val : ℤ)), upd (ix1 e) := by
  unfold Ideal.hostScatterAdd
  refine congrArg (x (ix1 i) + ·) ?_
  refine Finset.sum_nbij' (fun j => (j 0 : Fin E)) (fun e => ix1 e) ?_ ?_ ?_ ?_ ?_
  · intro j hj
    obtain ⟨a, rfl⟩ : ∃ a : Fin E, j = ix1 a := ⟨j 0, eq_ix1 j⟩
    show a ∈ _
    exact Finset.mem_filter.mpr ⟨Finset.mem_univ _, (resultIdx_vec d h1 h2 h3 h4 idx a i).mp (Finset.mem_filter.mp hj).2⟩
  · intro e he
    exact Finset.mem_filter.mpr ⟨Finset.mem_univ _, (resultIdx_vec d h1 h2 h3 h4 idx e i).mpr (Finset.mem_filter.mp he).2⟩
  · intro j _
    obtain ⟨a, rfl⟩ : ∃ a : Fin E, j = ix1 a := ⟨j 0, eq_ix1 j⟩
    rfl
  · intro e _; rfl
  · intro j _
    obtain ⟨a, rfl⟩ : ∃ a : Fin E, j = ix1 a := ⟨j 0, eq_ix1 j⟩
    rfl

theorem scatterAdd_rows_apply {M C E w : ℕ} (d : ScatterDims ⟨2, ![M, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (x : (⟨2, ![M, C]⟩ : Shape).Idx → EReal) (idx : IVec ⟨2, ![E, 1]⟩ w) (upd : (⟨2, ![E, C]⟩ : Shape).Idx → EReal)
    (i : Fin M) (c : Fin C) :
    Ideal.hostScatterAdd d x idx upd (ix2 i c)
      = x (ix2 i c) + ∑ e ∈ Finset.univ.filter (fun e : Fin E => (idx (ix2 e (0 : Fin 1))).toInt = (i.val : ℤ)), upd (ix2 e c) := by
  unfold Ideal.hostScatterAdd
  refine congrArg (x (ix2 i c) + ·) ?_
  refine Finset.sum_nbij' (fun j => (j 0 : Fin E)) (fun e => ix2 e c) ?_ ?_ ?_ ?_ ?_
  · intro j hj
    obtain ⟨a, b, rfl⟩ : ∃ (a : Fin E) (b : Fin C), j = ix2 a b := ⟨j 0, j 1, eq_ix2 j⟩
    show a ∈ _
    exact Finset.mem_filter.mpr
      ⟨Finset.mem_univ _, ((resultIdx_rows d h1 h2 h3 h4 idx a b i c).mp (Finset.mem_filter.mp hj).2).1⟩
  · intro e he
    exact Finset.mem_filter.mpr
      ⟨Finset.mem_univ _, (resultIdx_rows d h1 h2 h3 h4 idx e c i c).mpr ⟨(Finset.mem_filter.mp he).2, rfl⟩⟩
  · intro j hj
    obtain ⟨a, b, rfl⟩ : ∃ (a : Fin E) (b : Fin C), j = ix2 a b := ⟨j 0, j 1, eq_ix2 j⟩
    obtain rfl : b = c := ((resultIdx_rows d h1 h2 h3 h4 idx a b i c).mp (Finset.mem_filter.mp hj).2).2
    rfl
  · intro e _; rfl
  · intro j hj
    obtain ⟨a, b, rfl⟩ : ∃ (a : Fin E) (b : Fin C), j = ix2 a b := ⟨j 0, j 1, eq_ix2 j⟩
    obtain rfl : b = c := ((resultIdx_rows d h1 h2 h3 h4 idx a b i c).mp (Finset.mem_filter.mp hj).2).2
    rfl

theorem gather_rows_apply {α : Type} {M C E w : ℕ} (d : GatherDims ⟨2, ![M, C]⟩ ⟨2, ![E, 1]⟩ ⟨2, ![E, C]⟩)
    (h1 : d.offsetDims = [1]) (h2 : d.collapsedSliceDims = [0]) (h3 : d.operandBatchingDims = [])
    (h4 : d.startIndicesBatchingDims = [])
    (h5 : d.startIndexMap = [0]) (h6 : d.indexVectorDim = 1) (h7 : d.sliceSizes = ![1, C])
    (x : (⟨2, ![M, C]⟩ : Shape).Idx → α) (idx : IVec ⟨2, ![E, 1]⟩ w) (e : Fin E) (c : Fin C) (i : Fin M)
    (hi : (idx (ix2 e (0 : Fin 1))).toInt = (i.val : ℤ)) :
    Host.gather d x idx (ix2 e c) = x (ix2 i c) := by
  obtain ⟨od, cd, ob, sb, sm, iv, ss, wf⟩ := d
  dsimp only at h1 h2 h3 h4 h5 h6 h7
  subst h1 h2 h3 h4 h5 h6 h7
  unfold Host.gather
  congr 1
  funext a
  refine Fin.ext ?_
  match a with
  | ⟨0, _⟩ =>
    show GatherDims.start _ (ix2 e c) idx 0 + GatherDims.batchCoord _ (ix2 e c) 0 + GatherDims.offCoord _ (ix2 e c) 0 = i.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[1], [0], [], [], [0], 1, ![1, C], wf⟩ : GatherDims ⟨2, ![M, C]⟩ ⟨2, ![E, 1]⟩ ⟨2, ![E, C]⟩)
        (ix2 e c) ⟨List.idxOf (0 : Fin 2) [0], List.idxOf_lt_length_iff.2 (List.mem_singleton.mpr rfl)⟩ = ix2 e (0 : Fin 1) := by
      funext b; refine Fin.ext ?_
      match b with
      | ⟨0, _⟩ => rfl
      | ⟨1, _⟩ => rfl
    rw [hsi, hi, Int.toNat_natCast]
    show min i.val (M - 1) = i.val
    exact min_eq_left (by have := i.isLt; omega)
  | ⟨1, _⟩ =>
    show GatherDims.start _ (ix2 e c) idx 1 + GatherDims.batchCoord _ (ix2 e c) 1 + GatherDims.offCoord _ (ix2 e c) 1 = c.val
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept _ _).mpr ⟨show (1 : Fin 2) ∉ ([0] : List (Fin 2)) by decide, List.not_mem_nil⟩)]
    rfl

theorem foldl_addi_one {s si u : Shape} (d : ScatterDims s si u) {w v : ℕ} (idx : IVec si w) (upd : u.Idx → BitVec v)
    (hupd : ∀ j, upd j = 1) (L : List (Fin u.numel)) (r0 : s.Idx → BitVec v) (t : s.Idx) :
    L.foldl (fun r n =>
        match d.resultIdx? (u.rowMajor.symm n) idx with
        | some i => fun i' => if i' = i then IntOp.addi (r i) (upd (u.rowMajor.symm n)) else r i'
        | none => r) r0 t
      = r0 t + BitVec.ofNat v (L.countP (fun n => d.resultIdx? (u.rowMajor.symm n) idx = some t)) := by
  induction L generalizing r0 with
  | nil => simp
  | cons n L ih =>
    rw [List.foldl_cons, ih, List.countP_cons]
    cases hres : d.resultIdx? (u.rowMajor.symm n) idx with
    | none => simp
    | some i =>
      by_cases hi : t = i
      · subst hi
        simp [IntOp.addi, hupd, BitVec.ofNat_add]
        ac_rfl
      · have hi' : ¬ (i = t) := fun h => hi h.symm
        simp [hi, hi']

theorem scatter_points_count {M E : ℕ} (hE : E < 2 ^ 31) (d : ScatterDims ⟨2, ![M, M]⟩ ⟨2, ![E, 2]⟩ ⟨1, ![E]⟩)
    (h1 : d.updateWindowDims = []) (h2 : d.insertedWindowDims = [0, 1]) (h3 : d.scatterDimsToOperandDims = [0, 1])
    (h4 : d.indexVectorDim = 1)
    (idx : IVec ⟨2, ![E, 2]⟩ 32) (r k : Fin M) :
    (Host.scatter d IntOp.addi (fun _ => (0 : BitVec 32)) idx (fun _ => (1 : BitVec 32)) (ix2 r k)).toInt
      = ((Finset.univ.filter (fun e : Fin E =>
          (idx (ix2 e (0 : Fin 2))).toInt = (r.val : ℤ) ∧ (idx (ix2 e (1 : Fin 2))).toInt = (k.val : ℤ))).card : ℤ) := by
  unfold Host.scatter
  refine (congrArg BitVec.toInt (foldl_addi_one d idx (fun _ => (1 : BitVec 32)) (fun _ => rfl) _ (fun _ => (0 : BitVec 32)) (ix2 r k))).trans ?_
  have h0 : ∀ y : BitVec 32, (0 : BitVec 32) + y = y := fun y => BitVec.zero_add y
  rw [h0]
  have hcount : (List.finRange (⟨1, ![E]⟩ : Shape).numel).countP
        (fun n => d.resultIdx? ((⟨1, ![E]⟩ : Shape).rowMajor.symm n) idx = some (ix2 r k))
      = (Finset.univ.filter (fun e : Fin E =>
          (idx (ix2 e (0 : Fin 2))).toInt = (r.val : ℤ) ∧ (idx (ix2 e (1 : Fin 2))).toInt = (k.val : ℤ))).card := by
    rw [← List.Nodup.card_eq_countP (List.nodup_finRange _), List.toFinset_finRange]
    refine Finset.card_nbij' (fun n => (((⟨1, ![E]⟩ : Shape).rowMajor.symm n) 0 : Fin E))
      (fun e => (⟨1, ![E]⟩ : Shape).rowMajor (ix1 e)) ?_ ?_ ?_ ?_
    · intro n hn
      obtain ⟨a, ha⟩ : ∃ a : Fin E, (⟨1, ![E]⟩ : Shape).rowMajor.symm n = ix1 a := ⟨_, eq_ix1 _⟩
      have hn' := (Finset.mem_filter.mp hn).2
      rw [ha] at hn'
      show (((⟨1, ![E]⟩ : Shape).rowMajor.symm n) 0 : Fin E) ∈ _
      rw [ha]
      exact Finset.mem_filter.mpr ⟨Finset.mem_univ _, (resultIdx_points d h1 h2 h3 h4 idx a r k).mp hn'⟩
    · intro e he
      refine Finset.mem_filter.mpr ⟨Finset.mem_univ _, ?_⟩
      show d.resultIdx? ((⟨1, ![E]⟩ : Shape).rowMajor.symm ((⟨1, ![E]⟩ : Shape).rowMajor (ix1 e))) idx = _
      rw [Equiv.symm_apply_apply]
      exact (resultIdx_points d h1 h2 h3 h4 idx e r k).mpr (Finset.mem_filter.mp he).2
    · intro n _
      obtain ⟨a, ha⟩ : ∃ a : Fin E, (⟨1, ![E]⟩ : Shape).rowMajor.symm n = ix1 a := ⟨_, eq_ix1 _⟩
      show (⟨1, ![E]⟩ : Shape).rowMajor (ix1 (((⟨1, ![E]⟩ : Shape).rowMajor.symm n) 0 : Fin E)) = n
      rw [ha]
      show (⟨1, ![E]⟩ : Shape).rowMajor (ix1 a) = n
      rw [← ha, Equiv.apply_symm_apply]
    · intro e _
      show (((⟨1, ![E]⟩ : Shape).rowMajor.symm ((⟨1, ![E]⟩ : Shape).rowMajor (ix1 e))) 0 : Fin E) = e
      rw [Equiv.symm_apply_apply]
      rfl
  rw [hcount]
  have hle : (Finset.univ.filter (fun e : Fin E =>
      (idx (ix2 e (0 : Fin 2))).toInt = (r.val : ℤ) ∧ (idx (ix2 e (1 : Fin 2))).toInt = (k.val : ℤ))).card ≤ E :=
    (Finset.card_filter_le _ _).trans (by simp)
  generalize (Finset.univ.filter (fun e : Fin E =>
      (idx (ix2 e (0 : Fin 2))).toInt = (r.val : ℤ) ∧ (idx (ix2 e (1 : Fin 2))).toInt = (k.val : ℤ))).card = c at hle ⊢
  have hc : (BitVec.ofNat 32 c).toNat = c := by
    rw [BitVec.toNat_ofNat]; exact Nat.mod_eq_of_lt (by omega)
  rw [BitVec.toInt_eq_toNat_of_lt (by rw [hc]; omega), hc]

end Cert.LibIndex

end
-- ==== Proof.LibTakeFill.lean ====
import Idealize.ShloMosaic.Lib.ReduceAll
import Idealize.ShloMosaic.Lib.StableHlo.Predicate
import Idealize.ShloMosaic.Lib.ValueIdx

namespace Cert.Lib.TakeFill

open Idealize.ShloMosaic
open Idealize.ShloMosaic.StableHlo.Predicate (ixP)
open Idealize.ShloMosaic.ValueIdx (ix1)

private theorem bmod_self {m : Int} (h₁ : -2 ^ 31 ≤ m) (h₂ : m < 2 ^ 31) : m.bmod (2 ^ 32) = m :=
  Int.bmod_eq_of_le (by omega) (by omega)

private theorem toInt_extent (N : Nat) (hN : N < 2 ^ 31) : (BitVec.ofNat 32 N).toInt = (N : Int) := by
  rw [BitVec.toInt_ofNat']
  exact bmod_self (by omega) (by omega)

theorem wrap_in_range (N : Nat) (hN : 0 < N) (hN' : N < 2 ^ 30) (x : BitVec 32) (hlo : -(N : Int) ≤ x.toInt)
    (hhi : x.toInt < (N : Int)) :
    0 ≤ (Scalar.select (IntOp.cmpi .slt x 0#32) (IntOp.addi x (BitVec.ofNat 32 N)) x).toInt ∧
      (Scalar.select (IntOp.cmpi .slt x 0#32) (IntOp.addi x (BitVec.ofNat 32 N)) x).toInt ≤ (N : Int) - 1 := by
  have h0 : (0#32).toInt = 0 := rfl
  by_cases h : x.toInt < 0
  · have hc : IntOp.cmpi .slt x 0#32 = (1 : BitVec 1) := IntOp.cmpi_slt.2 (by rw [h0]; exact h)
    have hn : (BitVec.ofNat 32 N).toInt = (N : Int) := toInt_extent N (by omega)
    have hs : (IntOp.addi x (BitVec.ofNat 32 N)).toInt = x.toInt + (N : Int) := by
      rw [IntOp.addi, BitVec.toInt_add, hn]
      exact bmod_self (by omega) (by omega)
    rw [Scalar.select, if_pos hc, hs]
    omega
  · have hc : ¬ IntOp.cmpi .slt x 0#32 = (1 : BitVec 1) := fun e => h (by have := IntOp.cmpi_slt.1 e; rwa [h0] at this)
    rw [Scalar.select, if_neg hc]
    omega

theorem wrap_of_nonneg (N : Nat) (x : BitVec 32) (h : 0 ≤ x.toInt) :
    Scalar.select (IntOp.cmpi .slt x 0#32) (IntOp.addi x (BitVec.ofNat 32 N)) x = x := by
  have h0 : (0#32).toInt = 0 := rfl
  have hc : ¬ IntOp.cmpi .slt x 0#32 = (1 : BitVec 1) := fun e => by
    have := IntOp.cmpi_slt.1 e
    rw [h0] at this
    omega
  rw [Scalar.select, if_neg hc]

theorem foldl_andi_of_all_one {ι : Type} (f : ι → BitVec 1) :
    ∀ l : List ι, (∀ i ∈ l, f i = 1#1) → l.foldl (fun r i => IntOp.andi r (f i)) 1#1 = 1#1
  | [], _ => rfl
  | a :: l, h => by
    have ha : IntOp.andi 1#1 (f a) = 1#1 := IntOp.andi_eq_one.2 ⟨rfl, h a List.mem_cons_self⟩
    rw [List.foldl_cons, ha]
    exact foldl_andi_of_all_one f l fun i hi => h i (List.mem_cons_of_mem _ hi)

theorem fill_mask_eq_one {n : Nat} {u : Shape} (hred : (⟨2, ![n, 1]⟩ : Shape).ReducesTo [1] ⟨1, ![n]⟩)
    (hu : 0 < u.numel) (init : u.Idx → BitVec 1) (hinit : init (Shape.Idx.first hu) = 1#1)
    (col lo hi : IVec ⟨2, ![n, 1]⟩ 32) (p : Fin n)
    (hx : (lo (ixP p)).toInt ≤ (col (ixP p)).toInt ∧ (col (ixP p)).toInt ≤ (hi (ixP p)).toInt) :
    Host.reduce IntOp.andi (andi (cmpi .sge col lo) (cmpi .sle col hi)) init hred hu (ix1 p) = 1#1 := by
  rw [Host.reduce_eq_foldl, hinit]
  refine foldl_andi_of_all_one _ _ fun i hmem => ?_
  have hd : hred.drop i = ix1 p := of_decide_eq_true (List.mem_filter.1 hmem).2
  have hv : (hred.drop i 0 : Nat) = i 0 := Shape.ReducesTo.drop_apply_val hred i 0
  have hr : (i 0 : Nat) = p := by rw [← hv, hd]; rfl
  have hip : i = ixP p := by
    funext b
    match b with
    | ⟨0, _⟩ => exact Fin.ext hr
    | ⟨1, _⟩ => exact Subsingleton.elim (α := Fin 1) _ _
  subst hip
  exact IntOp.andi_eq_one.2 ⟨IntOp.cmpi_sge.2 hx.1, IntOp.cmpi_sle.2 hx.2⟩

end Cert.Lib.TakeFill
-- ==== Proof.KI.Host.lean ====
import proofs.«404972_j68066641707582_3_alg».proof.Proof.KI.Run
import proofs.«404972_j68066641707582_3_alg».proof.Proof.Spec
import proofs.«404972_j68066641707582_3_alg».proof.Proof.LibIndex
import proofs.«404972_j68066641707582_3_alg».proof.Proof.LibTakeFill
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open scoped BigOperators

section Kept

variable {F : FTy → Type} [FloatOps F]
variable (m : (ℓ : Loc nD τ sig) → Buf (Elt F) ℓ)

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ hostOps0_1_W) : W2 m c r = W1 m c r :=
  StableHlo.after_of_writes_sub hostOps0_1 _ hostOps0_1_writes h
theorem W3_of (c : Dev nD) (r : Ref sig .tc) (h : r ∉ hostOps0_2_W) : W3 m c r = W2 m c r :=
  StableHlo.after_of_writes_sub hostOps0_2 _ hostOps0_2_writes h
theorem W5_of (c : Dev nD) (r : Ref sig .tc) (h : r ∉ hostOps1_W) : W5 m c r = W4 m c r :=
  StableHlo.after_of_writes_sub hostOps1 _ hostOps1_writes h
theorem W7_of (c : Dev nD) (r : Ref sig .tc) (h : r ∉ hostOps2_W) : W7 m c r = W6 m c r :=
  StableHlo.after_of_writes_sub hostOps2 _ hostOps2_writes h
theorem W8_of (c : Dev nD) (r : Ref sig .tc) (h : r ∉ hostOps2_1_W) : W8 m c r = W7 m c r :=
  StableHlo.after_of_writes_sub hostOps2_1 _ hostOps2_1_writes h
theorem W9_of (c : Dev nD) (r : Ref sig .tc) (h : r ∉ hostOps2_2_W) : W9 m c r = W8 m c r :=
  StableHlo.after_of_writes_sub hostOps2_2 _ hostOps2_2_writes h
theorem W11_of (c : Dev nD) (r : Ref sig .tc) (h : r ∉ hostOps3_W) : W11 m c r = W10 m c r :=
  StableHlo.after_of_writes_sub hostOps3 _ hostOps3_writes h
theorem W13_of (c : Dev nD) (r : Ref sig .tc) (h : r ∉ hostOps4_W) : W13 m c r = W12 m c r :=
  StableHlo.after_of_writes_sub hostOps4 _ hostOps4_writes h
theorem W15_of (c : Dev nD) (r : Ref sig .tc) (h : r ∉ hostOps5_W) : W15 m c r = W14 m c r :=
  StableHlo.after_of_writes_sub hostOps5 _ hostOps5_writes h
theorem W16_of (c : Dev nD) (r : Ref sig .tc) (h : r ∉ hostOps5_1_W) : W16 m c r = W15 m c r :=
  StableHlo.after_of_writes_sub hostOps5_1 _ hostOps5_1_writes h
theorem W17_of (c : Dev nD) (r : Ref sig .tc) (h : r ∉ hostOps5_2_W) : W17 m c r = W16 m c r :=
  StableHlo.after_of_writes_sub hostOps5_2 _ hostOps5_2_writes h

theorem W1_arg0 (c : Dev nD) : W1 m c main_arg0 = m ((c : Thread nD τ).loc main_arg0) :=
  (W1_of m c main_arg0 (by decide)).trans rfl

theorem W4_arg6 (c : Dev nD) : W4 m c main_arg6 = m ((c : Thread nD τ).loc main_arg6) :=
  (W4_of_ne m c main_arg6 (by decide)).trans <| (W3_of m c main_arg6 (by decide)).trans <|
    (W2_of m c main_arg6 (by decide)).trans <| (W1_of m c main_arg6 (by decide)).trans rfl

theorem W10_arg9 (c : Dev nD) : W10 m c main_arg9 = m ((c : Thread nD τ).loc main_arg9) :=
  (W10_of_ne m c main_arg9 (by decide)).trans <| (W9_of m c main_arg9 (by decide)).trans <|
    (W8_of m c main_arg9 (by decide)).trans <| (W7_of m c main_arg9 (by decide)).trans <|
    (W6_of_ne m c main_arg9 (by decide)).trans <| (W5_of m c main_arg9 (by decide)).trans <|
    (W4_of_ne m c main_arg9 (by decide)).trans <| (W3_of m c main_arg9 (by decide)).trans <|
    (W2_of m c main_arg9 (by decide)).trans <| (W1_of m c main_arg9 (by decide)).trans rfl

theorem W12_arg10 (c : Dev nD) : W12 m c main_arg10 = m ((c : Thread nD τ).loc main_arg10) :=
  (W12_of_ne m c main_arg10 (by decide)).trans <| (W11_of m c main_arg10 (by decide)).trans <|
    (W10_of_ne m c main_arg10 (by decide)).trans <| (W9_of m c main_arg10 (by decide)).trans <|
    (W8_of m c main_arg10 (by decide)).trans <| (W7_of m c main_arg10 (by decide)).trans <|
    (W6_of_ne m c main_arg10 (by decide)).trans <| (W5_of m c main_arg10 (by decide)).trans <|
    (W4_of_ne m c main_arg10 (by decide)).trans <| (W3_of m c main_arg10 (by decide)).trans <|
    (W2_of m c main_arg10 (by decide)).trans <| (W1_of m c main_arg10 (by decide)).trans rfl

theorem W14_arg2 (c : Dev nD) : W14 m c main_arg2 = m ((c : Thread nD τ).loc main_arg2) :=
  (W14_of_ne m c main_arg2 (by decide)).trans <| (W13_of m c main_arg2 (by decide)).trans <|
    (W12_of_ne m c main_arg2 (by decide)).trans <| (W11_of m c main_arg2 (by decide)).trans <|
    (W10_of_ne m c main_arg2 (by decide)).trans <| (W9_of m c main_arg2 (by decide)).trans <|
    (W8_of m c main_arg2 (by decide)).trans <| (W7_of m c main_arg2 (by decide)).trans <|
    (W6_of_ne m c main_arg2 (by decide)).trans <| (W5_of m c main_arg2 (by decide)).trans <|
    (W4_of_ne m c main_arg2 (by decide)).trans <| (W3_of m c main_arg2 (by decide)).trans <|
    (W2_of m c main_arg2 (by decide)).trans <| (W1_of m c main_arg2 (by decide)).trans rfl

theorem W14_arg3 (c : Dev nD) : W14 m c main_arg3 = m ((c : Thread nD τ).loc main_arg3) :=
  (W14_of_ne m c main_arg3 (by decide)).trans <| (W13_of m c main_arg3 (by decide)).trans <|
    (W12_of_ne m c main_arg3 (by decide)).trans <| (W11_of m c main_arg3 (by decide)).trans <|
    (W10_of_ne m c main_arg3 (by decide)).trans <| (W9_of m c main_arg3 (by decide)).trans <|
    (W8_of m c main_arg3 (by decide)).trans <| (W7_of m c main_arg3 (by decide)).trans <|
    (W6_of_ne m c main_arg3 (by decide)).trans <| (W5_of m c main_arg3 (by decide)).trans <|
    (W4_of_ne m c main_arg3 (by decide)).trans <| (W3_of m c main_arg3 (by decide)).trans <|
    (W2_of m c main_arg3 (by decide)).trans <| (W1_of m c main_arg3 (by decide)).trans rfl

theorem W15_arg3 (c : Dev nD) : W15 m c main_arg3 = m ((c : Thread nD τ).loc main_arg3) :=
  (W15_of m c main_arg3 (by decide)).trans (W14_arg3 m c)

theorem W14_arg11 (c : Dev nD) : W14 m c main_arg11 = m ((c : Thread nD τ).loc main_arg11) :=
  (W14_of_ne m c main_arg11 (by decide)).trans <| (W13_of m c main_arg11 (by decide)).trans <|
    (W12_of_ne m c main_arg11 (by decide)).trans <| (W11_of m c main_arg11 (by decide)).trans <|
    (W10_of_ne m c main_arg11 (by decide)).trans <| (W9_of m c main_arg11 (by decide)).trans <|
    (W8_of m c main_arg11 (by decide)).trans <| (W7_of m c main_arg11 (by decide)).trans <|
    (W6_of_ne m c main_arg11 (by decide)).trans <| (W5_of m c main_arg11 (by decide)).trans <|
    (W4_of_ne m c main_arg11 (by decide)).trans <| (W3_of m c main_arg11 (by decide)).trans <|
    (W2_of m c main_arg11 (by decide)).trans <| (W1_of m c main_arg11 (by decide)).trans rfl

theorem W16_arg11 (c : Dev nD) : W16 m c main_arg11 = m ((c : Thread nD τ).loc main_arg11) :=
  (W16_of m c main_arg11 (by decide)).trans <| (W15_of m c main_arg11 (by decide)).trans (W14_arg11 m c)

theorem W4_v12 (c : Dev nD) : W4 m c main_v12 = W1 m c main_v12 :=
  (W4_of_ne m c main_v12 (by decide)).trans <| (W3_of m c main_v12 (by decide)).trans (W2_of m c main_v12 (by decide))

theorem W10_v12 (c : Dev nD) : W10 m c main_v12 = W1 m c main_v12 :=
  (W10_of_ne m c main_v12 (by decide)).trans <| (W9_of m c main_v12 (by decide)).trans <|
    (W8_of m c main_v12 (by decide)).trans <| (W7_of m c main_v12 (by decide)).trans <|
    (W6_of_ne m c main_v12 (by decide)).trans <| (W5_of m c main_v12 (by decide)).trans (W4_v12 m c)

end Kept

section Layout

variable {α : Type}

private theorem col_lo {A B C : ℕ} (x : (⟨1, ![A]⟩ : Shape).Idx → α) (y : (⟨1, ![B]⟩ : Shape).Idx → α)
    (hc : Shape.Concatenates [(⟨1, ![A]⟩ : Shape), ⟨1, ![B]⟩] ⟨1, ![C]⟩ 0)
    (hs : (⟨1, ![C]⟩ : Shape).ShapeCasts ⟨2, ![C, 1]⟩) (e : Fin C) (h : e.val < A) :
    shapeCast ⟨2, ![C, 1]⟩ (concatenate ⟨1, ![C]⟩ 0 [⟨⟨1, ![A]⟩, x⟩, ⟨⟨1, ![B]⟩, y⟩] hc) hs (ix2 e (0 : Fin 1))
      = x (ix1 ⟨e.val, h⟩) := by
  refine (shapeCast_apply _ hs (ix2 e (0 : Fin 1)) (ix1 e) ?_).trans ?_
  · rw [Shape.rowMajor_val_one, Shape.rowMajor_val_two]
    show e.val = e.val * 1 + 0
    omega
  · exact concatenate_pair_apply_left _ x y hc (ix1 e) rfl (ix1 ⟨e.val, h⟩) (fun b => by
      match b with
      | ⟨0, _⟩ => rfl)

private theorem col_hi {A B C : ℕ} (x : (⟨1, ![A]⟩ : Shape).Idx → α) (y : (⟨1, ![B]⟩ : Shape).Idx → α)
    (hc : Shape.Concatenates [(⟨1, ![A]⟩ : Shape), ⟨1, ![B]⟩] ⟨1, ![C]⟩ 0)
    (hs : (⟨1, ![C]⟩ : Shape).ShapeCasts ⟨2, ![C, 1]⟩) (e : Fin C) (h : A ≤ e.val) (h' : e.val - A < B) :
    shapeCast ⟨2, ![C, 1]⟩ (concatenate ⟨1, ![C]⟩ 0 [⟨⟨1, ![A]⟩, x⟩, ⟨⟨1, ![B]⟩, y⟩] hc) hs (ix2 e (0 : Fin 1))
      = y (ix1 ⟨e.val - A, h'⟩) := by
  refine (shapeCast_apply _ hs (ix2 e (0 : Fin 1)) (ix1 e) ?_).trans ?_
  · rw [Shape.rowMajor_val_one, Shape.rowMajor_val_two]
    show e.val = e.val * 1 + 0
    omega
  · exact concatenate_pair_apply_right _ x y hc (ix1 e) rfl rfl (ix1 ⟨e.val - A, h'⟩)
      (fun b hb => absurd (Subsingleton.elim (α := Fin 1) _ _) hb)
      (by
        show (e.val - A) + A = e.val
        omega)

private theorem pad_rows_lo {A B C : ℕ} (x : (⟨2, ![A, B]⟩ : Shape).Idx → α) {u : Shape} (v : u.Idx → α) (hi : Fin 2 → ℕ)
    (hp : (⟨2, ![A, B]⟩ : Shape).Pads ![0, 0] hi ![0, 0] ⟨2, ![C, B]⟩) (hu : 0 < u.numel)
    (n : Fin C) (d : Fin B) (h : n.val < A) :
    pad ⟨2, ![C, B]⟩ ![0, 0] hi ![0, 0] x v hp hu (ix2 n d) = x (ix2 ⟨n.val, h⟩ d) :=
  pad_apply_of_inside _ _ _ x v hp hu (ix2 n d) (ix2 ⟨n.val, h⟩ d) (fun a => by
    match a with
    | ⟨0, _⟩ =>
      show n.val = 0 + n.val * (0 + 1)
      omega
    | ⟨1, _⟩ =>
      show d.val = 0 + d.val * (0 + 1)
      omega)

private theorem pad_rows_hi {A B C : ℕ} (x : (⟨2, ![A, B]⟩ : Shape).Idx → α) {u : Shape} (v : u.Idx → α) (hi : Fin 2 → ℕ)
    (hp : (⟨2, ![A, B]⟩ : Shape).Pads ![0, 0] hi ![0, 0] ⟨2, ![C, B]⟩) (hu : 0 < u.numel)
    (n : Fin C) (d : Fin B) (h : A ≤ n.val) :
    pad ⟨2, ![C, B]⟩ ![0, 0] hi ![0, 0] x v hp hu (ix2 n d) = v (Shape.Idx.first hu) :=
  pad_apply_of_not_inside _ _ _ x v hp hu (ix2 n d) (0 : Fin 2) (by
    show ¬(0 ≤ n.val ∧ (n.val - 0) % (0 + 1) = 0 ∧ (n.val - 0) / (0 + 1) < A)
    omega)

end Layout

section Values

variable (m : (ℓ : Loc nD τ sig) → Buf (Elt Ideal) ℓ)

private theorem ofBits_zero : Ideal.ofBits .f32 0x00000000#32 = 0 := by
  simp [Ideal.ofBits, Ideal.ieee]

private theorem sitofp_zero_apply (z : S_.Idx → BitVec 32) (hz : z = constantI S_ 32 0#32) (i : S_.Idx) :
    (sitofp (F := Ideal) .f32 z : S_.Idx → EReal) i = 0 := by
  subst hz
  show (((0#32 : BitVec 32).toInt : ℝ) : EReal) = 0
  have h0 : (0#32 : BitVec 32).toInt = 0 := by decide
  rw [h0]
  simp

private theorem W1_v2_term_at (V : Valuation τ sig (Elt Ideal)) : (StableHlo.after hostOps0 V main_v2 : S600064x1.Idx → BitVec 32)
    = shapeCast S600064x1
        (concatenate S600064 0
          [⟨S600000, (V main_arg2 : S600000.Idx → BitVec 32)⟩,
           ⟨S64, broadcastInDim S64 ![] bcast_S_S64 (constantI S_ 32 50000#32)⟩]
          concatenates_S600000_S64_S600064_d0)
        shapeCasts_S600064_S600064x1 := by
  show StableHlo.after hostOps0 V (Proc.devRef .tc main_v2) = _
  after_results <;> rfl

theorem W1_v2_term (c : Dev nD) : (W1 m c main_v2 : S600064x1.Idx → BitVec 32)
    = shapeCast S600064x1
        (concatenate S600064 0
          [⟨S600000, (W0 m c main_arg2 : S600000.Idx → BitVec 32)⟩,
           ⟨S64, broadcastInDim S64 ![] bcast_S_S64 (constantI S_ 32 50000#32)⟩]
          concatenates_S600000_S64_S600064_d0)
        shapeCasts_S600064_S600064x1 :=
  W1_v2_term_at (W0 m c)

private theorem W1_v5_term_at (V : Valuation τ sig (Elt Ideal)) : (StableHlo.after hostOps0 V main_v5 : S600064x1.Idx → BitVec 32)
    = shapeCast S600064x1
        (concatenate S600064 0
          [⟨S600000, (V main_arg3 : S600000.Idx → BitVec 32)⟩,
           ⟨S64, broadcastInDim S64 ![] bcast_S_S64 (constantI S_ 32 50000#32)⟩]
          concatenates_S600000_S64_S600064_d0)
        shapeCasts_S600064_S600064x1 := by
  show StableHlo.after hostOps0 V (Proc.devRef .tc main_v5) = _
  after_results <;> rfl

theorem W1_v5_term (c : Dev nD) : (W1 m c main_v5 : S600064x1.Idx → BitVec 32)
    = shapeCast S600064x1
        (concatenate S600064 0
          [⟨S600000, (W0 m c main_arg3 : S600000.Idx → BitVec 32)⟩,
           ⟨S64, broadcastInDim S64 ![] bcast_S_S64 (constantI S_ 32 50000#32)⟩]
          concatenates_S600000_S64_S600064_d0)
        shapeCasts_S600064_S600064x1 :=
  W1_v5_term_at (W0 m c)

theorem U3_v2_eq (c : Dev nD) : (U3 m c main_v2 : S600064x1.Idx → BitVec 32) = (W1 m c main_v2 : S600064x1.Idx → BitVec 32) :=
  (W3_of m c main_v2 (by decide)).trans (W2_of m c main_v2 (by decide))

theorem U3_v5_eq (c : Dev nD) : (U3 m c main_v5 : S600064x1.Idx → BitVec 32) = (W1 m c main_v5 : S600064x1.Idx → BitVec 32) :=
  (W3_of m c main_v5 (by decide)).trans (W2_of m c main_v5 (by decide))

theorem U3_v2_lo (c : Dev nD) (e : Fin 600064) (h : e.val < 600000) :
    (U3 m c main_v2 : S600064x1.Idx → BitVec 32) (ix2 e (0 : Fin 1))
      = Cert.Spec.words (m ((c : Thread nD τ).loc main_arg2)) ⟨e.val, h⟩ := by
  refine (congrFun ((U3_v2_eq m c).trans (W1_v2_term m c)) (ix2 e (0 : Fin 1))).trans ?_
  exact col_lo _ _ concatenates_S600000_S64_S600064_d0 shapeCasts_S600064_S600064x1 e h

theorem U3_v2_hi (c : Dev nD) (e : Fin 600064) (h : 600000 ≤ e.val) :
    (U3 m c main_v2 : S600064x1.Idx → BitVec 32) (ix2 e (0 : Fin 1)) = 50000#32 := by
  have h' : e.val - 600000 < 64 := by
    have := e.isLt
    omega
  refine (congrFun ((U3_v2_eq m c).trans (W1_v2_term m c)) (ix2 e (0 : Fin 1))).trans ?_
  exact col_hi _ _ concatenates_S600000_S64_S600064_d0 shapeCasts_S600064_S600064x1 e h h'

theorem U3_v5_lo (c : Dev nD) (e : Fin 600064) (h : e.val < 600000) :
    (U3 m c main_v5 : S600064x1.Idx → BitVec 32) (ix2 e (0 : Fin 1))
      = Cert.Spec.words (m ((c : Thread nD τ).loc main_arg3)) ⟨e.val, h⟩ := by
  refine (congrFun ((U3_v5_eq m c).trans (W1_v5_term m c)) (ix2 e (0 : Fin 1))).trans ?_
  exact col_lo _ _ concatenates_S600000_S64_S600064_d0 shapeCasts_S600064_S600064x1 e h

theorem U3_v5_hi (c : Dev nD) (e : Fin 600064) (h : 600000 ≤ e.val) :
    (U3 m c main_v5 : S600064x1.Idx → BitVec 32) (ix2 e (0 : Fin 1)) = 50000#32 := by
  have h' : e.val - 600000 < 64 := by
    have := e.isLt
    omega
  refine (congrFun ((U3_v5_eq m c).trans (W1_v5_term m c)) (ix2 e (0 : Fin 1))).trans ?_
  exact col_hi _ _ concatenates_S600000_S64_S600064_d0 shapeCasts_S600064_S600064x1 e h h'

theorem W1_c3_term (c : Dev nD) : (W1 m c main_c_3 : S_.Idx → BitVec 32) = constantI S_ 32 0#32 := by
  show StableHlo.after hostOps0 (W0 m c) (Proc.devRef .tc main_c_3) = _
  after_results <;> rfl

private theorem W2_v13_term_at (V : Valuation τ sig (Elt Ideal)) : (StableHlo.after hostOps0_1 V main_v13 : S50176x128.Idx → EReal)
    = pad S50176x128 ![0, 0] ![176, 0] ![0, 0] (V main_arg0 : S50000x128.Idx → EReal)
        (sitofp (F := Ideal) .f32 (V main_c_3 : S_.Idx → BitVec 32) : S_.Idx → EReal)
        pads_S50000x128_S50176x128_01760_000 h_S_ := by
  show StableHlo.after hostOps0_1 V (Proc.devRef .tc main_v13) = _
  after_results <;> (try simp only [StableHlo.TRef.ofBuf, StableHlo.TRef.toBuf, cast_eq]) <;> rfl

theorem W2_v13_term (c : Dev nD) : (W2 m c main_v13 : S50176x128.Idx → EReal)
    = pad S50176x128 ![0, 0] ![176, 0] ![0, 0] (W1 m c main_arg0 : S50000x128.Idx → EReal)
        (sitofp (F := Ideal) .f32 (W1 m c main_c_3 : S_.Idx → BitVec 32) : S_.Idx → EReal)
        pads_S50000x128_S50176x128_01760_000 h_S_ :=
  W2_v13_term_at (W1 m c)

private theorem W3_v14_term_at (V : Valuation τ sig (Elt Ideal)) : (StableHlo.after hostOps0_2 V main_v14 : S50176x128.Idx → EReal)
    = (truncf (F := Ideal) .bf16 (V main_v13 : S50176x128.Idx → EReal) bitsLt_bf16_f32 : S50176x128.Idx → EReal) := by
  show StableHlo.after hostOps0_2 V (Proc.devRef .tc main_v14) = _
  after_results <;> rfl

theorem W3_v14_term (c : Dev nD) : (W3 m c main_v14 : S50176x128.Idx → EReal)
    = (truncf (F := Ideal) .bf16 (W2 m c main_v13 : S50176x128.Idx → EReal) bitsLt_bf16_f32 : S50176x128.Idx → EReal) :=
  W3_v14_term_at (W2 m c)

theorem U3_v14_lo (c : Dev nD) (n : Fin 50176) (d : Fin 128) (h : n.val < 50000) :
    (U3 m c main_v14 : S50176x128.Idx → EReal) (ix2 n d)
      = Cert.Spec.mat (m ((c : Thread nD τ).loc main_arg0)) ⟨n.val, h⟩ d := by
  refine ((congrFun (W3_v14_term m c) (ix2 n d)).trans (truncf_apply _ _ _)).trans ?_
  refine (congrFun (W2_v13_term m c) (ix2 n d)).trans ?_
  refine (pad_rows_lo _ _ _ pads_S50000x128_S50176x128_01760_000 h_S_ n d h).trans ?_
  exact congrFun (show (W1 m c main_arg0 : S50000x128.Idx → EReal) = (m ((c : Thread nD τ).loc main_arg0) : S50000x128.Idx → EReal) from W1_arg0 m c) (ix2 ⟨n.val, h⟩ d)

theorem U3_v14_hi (c : Dev nD) (n : Fin 50176) (d : Fin 128) (h : 50000 ≤ n.val) :
    (U3 m c main_v14 : S50176x128.Idx → EReal) (ix2 n d) = (0 : EReal) := by
  refine ((congrFun (W3_v14_term m c) (ix2 n d)).trans (truncf_apply _ _ _)).trans ?_
  refine (congrFun (W2_v13_term m c) (ix2 n d)).trans ?_
  refine (pad_rows_hi _ _ _ pads_S50000x128_S50176x128_01760_000 h_S_ n d h).trans ?_
  exact sitofp_zero_apply _ (W1_c3_term m c) _

theorem W7_c4_term (c : Dev nD) : (W7 m c main_c_4 : S_.Idx → BitVec 32) = constantI S_ 32 0#32 := by
  show StableHlo.after hostOps2 (W6 m c) (Proc.devRef .tc main_c_4) = _
  after_results <;> rfl

private theorem W8_v21_term_at (V : Valuation τ sig (Elt Ideal)) : (StableHlo.after hostOps2_1 V main_v21 : S50176x128.Idx → EReal)
    = pad S50176x128 ![0, 0] ![176, 0] ![0, 0] (V main_v20 : S50000x128.Idx → EReal)
        (sitofp (F := Ideal) .f32 (V main_c_4 : S_.Idx → BitVec 32) : S_.Idx → EReal)
        pads_S50000x128_S50176x128_01760_000 h_S_ := by
  show StableHlo.after hostOps2_1 V (Proc.devRef .tc main_v21) = _
  after_results <;> (try simp only [StableHlo.TRef.ofBuf, StableHlo.TRef.toBuf, cast_eq]) <;> rfl

theorem W8_v21_term (c : Dev nD) : (W8 m c main_v21 : S50176x128.Idx → EReal)
    = pad S50176x128 ![0, 0] ![176, 0] ![0, 0] (W7 m c main_v20 : S50000x128.Idx → EReal)
        (sitofp (F := Ideal) .f32 (W7 m c main_c_4 : S_.Idx → BitVec 32) : S_.Idx → EReal)
        pads_S50000x128_S50176x128_01760_000 h_S_ :=
  W8_v21_term_at (W7 m c)

private theorem W9_v22_term_at (V : Valuation τ sig (Elt Ideal)) : (StableHlo.after hostOps2_2 V main_v22 : S50176x128.Idx → EReal)
    = (truncf (F := Ideal) .bf16 (V main_v21 : S50176x128.Idx → EReal) bitsLt_bf16_f32 : S50176x128.Idx → EReal) := by
  show StableHlo.after hostOps2_2 V (Proc.devRef .tc main_v22) = _
  after_results <;> rfl

theorem W9_v22_term (c : Dev nD) : (W9 m c main_v22 : S50176x128.Idx → EReal)
    = (truncf (F := Ideal) .bf16 (W8 m c main_v21 : S50176x128.Idx → EReal) bitsLt_bf16_f32 : S50176x128.Idx → EReal) :=
  W9_v22_term_at (W8 m c)

theorem U9_v22_lo (c : Dev nD) (n : Fin 50176) (d : Fin 128) (h : n.val < 50000) :
    (U9 m c main_v22 : S50176x128.Idx → EReal) (ix2 n d)
      = (W6 m c main_v20 : S50000x128.Idx → EReal) (ix2 ⟨n.val, h⟩ d) := by
  refine ((congrFun (W9_v22_term m c) (ix2 n d)).trans (truncf_apply _ _ _)).trans ?_
  refine (congrFun (W8_v21_term m c) (ix2 n d)).trans ?_
  refine (pad_rows_lo _ _ _ pads_S50000x128_S50176x128_01760_000 h_S_ n d h).trans ?_
  exact congrFun (show (W7 m c main_v20 : S50000x128.Idx → EReal) = (W6 m c main_v20 : S50000x128.Idx → EReal) from W7_of m c main_v20 (by decide)) (ix2 ⟨n.val, h⟩ d)

theorem U9_v22_hi (c : Dev nD) (n : Fin 50176) (d : Fin 128) (h : 50000 ≤ n.val) :
    (U9 m c main_v22 : S50176x128.Idx → EReal) (ix2 n d) = (0 : EReal) := by
  refine ((congrFun (W9_v22_term m c) (ix2 n d)).trans (truncf_apply _ _ _)).trans ?_
  refine (congrFun (W8_v21_term m c) (ix2 n d)).trans ?_
  refine (pad_rows_hi _ _ _ pads_S50000x128_S50176x128_01760_000 h_S_ n d h).trans ?_
  exact sitofp_zero_apply _ (W7_c4_term m c) _

private theorem scatterAdd_eq {s si u : Shape} {w : ℕ} (d : ScatterDims s si u) (x : s.Idx → EReal) (idx : IVec si w)
    (upd : u.Idx → EReal) :
    Host.scatterAdd (F := Ideal) (φ := .f32) d x idx upd = Ideal.hostScatterAdd d x idx upd := rfl

private theorem degree_eq (dst : Fin 600000 → BitVec 32) (n : Fin 50000) :
    Cert.Spec.degree dst n
      = ∑ e ∈ Finset.univ.filter (fun e : Fin 600000 => (dst e).toInt = (n.val : ℤ)), Cert.Spec.one := rfl

private theorem zero_add_sum_ones {ι : Type} (U : Finset ι) (P Q : ι → Prop) {dP : DecidablePred P} [dQ : DecidablePred Q]
    (hPQ : ∀ e, P e ↔ Q e) (z : EReal) (hz : z = 0) (o : ι → EReal) (v : EReal) (ho : ∀ e, o e = v) :
    z + ∑ e ∈ U.filter P, o e = ∑ e ∈ U.filter Q, v := by
  subst hz
  rw [zero_add, Finset.filter_congr (fun e _ => hPQ e)]
  exact Finset.sum_congr rfl (fun e _ => ho e)

private theorem degree_apply (d : ScatterDims S50000 S600000x1 S600000)
    (h1 : d.updateWindowDims = []) (h2 : d.insertedWindowDims = [0]) (h3 : d.scatterDimsToOperandDims = [0])
    (h4 : d.indexVectorDim = 1) (a : S600000.Idx → BitVec 32) (n : Fin 50000) :
    (Host.scatterAdd (F := Ideal) (φ := .f32) d
        (broadcastInDim S50000 ![] bcast_S_S50000 (constant (F := Ideal) S_ .f32 0x00000000#32))
        (broadcastInDim S600000x1 ![0] bcast_S600000_S600000x1_0 a)
        (broadcastInDim S600000 ![] bcast_S_S600000 (constant (F := Ideal) S_ .f32 0x3F800000#32)) : S50000.Idx → EReal) (ix1 n)
      = Cert.Spec.degree (Cert.Spec.words a) n := by
  have hidx : ∀ e : Fin 600000,
      broadcastInDim S600000x1 ![0] bcast_S600000_S600000x1_0 a (ix2 e (0 : Fin 1)) = a (ix1 e) := fun e =>
    broadcastInDim_apply _ bcast_S600000_S600000x1_0 a (ix2 e (0 : Fin 1)) (ix1 e) (fun b => by
      match b with
      | ⟨0, _⟩ => rfl)
  refine (congrFun (scatterAdd_eq d _ _ _) (ix1 n)).trans ?_
  refine (Cert.LibIndex.scatterAdd_vec_apply d h1 h2 h3 h4 _ _ _ n).trans ?_
  refine (zero_add_sum_ones Finset.univ _ (fun e : Fin 600000 => (Cert.Spec.words a e).toInt = (n.val : ℤ))
    (fun e => iff_of_eq (congrArg (fun w : BitVec 32 => w.toInt = (n.val : ℤ)) (hidx e)))
    (broadcastInDim S50000 ![] bcast_S_S50000 (constant (F := Ideal) S_ .f32 0x00000000#32) (ix1 n)) ofBits_zero
    (fun e : Fin 600000 => broadcastInDim S600000 ![] bcast_S_S600000 (constant (F := Ideal) S_ .f32 0x3F800000#32) (ix1 e))
    Cert.Spec.one (fun e => rfl)).trans ?_
  exact (degree_eq (Cert.Spec.words a) n).symm

private theorem maxCol_apply (X : S50000.Idx → EReal) (n : Fin 50000) (z : Fin 1) :
    (broadcastInDim S50000x1 ![0] bcast_S50000_S50000x1_0
        (maximumf (F := Ideal) (φ := .f32) X
          (broadcastInDim S50000 ![] bcast_S_S50000 (constant (F := Ideal) S_ .f32 0x3F800000#32))) : S50000x1.Idx → EReal)
        (ix2 n z)
      = max (X (ix1 n)) Cert.Spec.one :=
  broadcastInDim_apply _ bcast_S50000_S50000x1_0 _ (ix2 n z) (ix1 n) (fun b => by
    match b with
    | ⟨0, _⟩ => rfl)

private theorem degCol_apply (d : ScatterDims S50000 S600000x1 S600000)
    (h1 : d.updateWindowDims = []) (h2 : d.insertedWindowDims = [0]) (h3 : d.scatterDimsToOperandDims = [0])
    (h4 : d.indexVectorDim = 1) (a : S600000.Idx → BitVec 32) (n : Fin 50000) (z : Fin 1) :
    (broadcastInDim S50000x1 ![0] bcast_S50000_S50000x1_0
        (maximumf (F := Ideal) (φ := .f32)
          (Host.scatterAdd (F := Ideal) (φ := .f32) d
            (broadcastInDim S50000 ![] bcast_S_S50000 (constant (F := Ideal) S_ .f32 0x00000000#32))
            (broadcastInDim S600000x1 ![0] bcast_S600000_S600000x1_0 a)
            (broadcastInDim S600000 ![] bcast_S_S600000 (constant (F := Ideal) S_ .f32 0x3F800000#32)))
          (broadcastInDim S50000 ![] bcast_S_S50000 (constant (F := Ideal) S_ .f32 0x3F800000#32))) : S50000x1.Idx → EReal)
        (ix2 n z)
      = max (Cert.Spec.degree (Cert.Spec.words a) n) Cert.Spec.one :=
  (maxCol_apply _ n z).trans (congrArg (fun t => max t Cert.Spec.one) (degree_apply d h1 h2 h3 h4 a n))

private theorem W1_v12_term_at (V : Valuation τ sig (Elt Ideal)) : (StableHlo.after hostOps0 V main_v12 : S50000x1.Idx → EReal)
    = broadcastInDim S50000x1 ![0] bcast_S50000_S50000x1_0
        (maximumf (F := Ideal) (φ := .f32)
          (Host.scatterAdd (F := Ideal) (φ := .f32) scatter_S50000_S600000x1_S600000_n_0_0_1
            (broadcastInDim S50000 ![] bcast_S_S50000 (constant (F := Ideal) S_ .f32 0x00000000#32))
            (broadcastInDim S600000x1 ![0] bcast_S600000_S600000x1_0 (V main_arg3 : S600000.Idx → BitVec 32))
            (broadcastInDim S600000 ![] bcast_S_S600000 (constant (F := Ideal) S_ .f32 0x3F800000#32)))
          (broadcastInDim S50000 ![] bcast_S_S50000 (constant (F := Ideal) S_ .f32 0x3F800000#32))) := by
  show StableHlo.after hostOps0 V (Proc.devRef .tc main_v12) = _
  after_results <;> rfl

theorem W1_v12_term (c : Dev nD) : (W1 m c main_v12 : S50000x1.Idx → EReal)
    = broadcastInDim S50000x1 ![0] bcast_S50000_S50000x1_0
        (maximumf (F := Ideal) (φ := .f32)
          (Host.scatterAdd (F := Ideal) (φ := .f32) scatter_S50000_S600000x1_S600000_n_0_0_1
            (broadcastInDim S50000 ![] bcast_S_S50000 (constant (F := Ideal) S_ .f32 0x00000000#32))
            (broadcastInDim S600000x1 ![0] bcast_S600000_S600000x1_0 (W0 m c main_arg3 : S600000.Idx → BitVec 32))
            (broadcastInDim S600000 ![] bcast_S_S600000 (constant (F := Ideal) S_ .f32 0x3F800000#32)))
          (broadcastInDim S50000 ![] bcast_S_S50000 (constant (F := Ideal) S_ .f32 0x3F800000#32))) :=
  W1_v12_term_at (W0 m c)

theorem W1_v12_apply (c : Dev nD) (n : Fin 50000) (z : Fin 1) :
    (W1 m c main_v12 : S50000x1.Idx → EReal) (ix2 n z)
      = max (Cert.Spec.degree (Cert.Spec.words (m ((c : Thread nD τ).loc main_arg3))) n) Cert.Spec.one := by
  refine (congrFun (W1_v12_term m c) (ix2 n z)).trans ?_
  exact degCol_apply scatter_S50000_S600000x1_S600000_n_0_0_1 rfl rfl rfl rfl _ n z

private theorem mean_apply {R : ℕ} (X : (⟨2, ![R, 128]⟩ : Shape).Idx → EReal) (D : S50000x1.Idx → EReal)
    (hsl : (⟨2, ![R, 128]⟩ : Shape).Slices ![0, 0] S50000x128) (n : Fin 50000) (d : Fin 128) (n' : Fin R) (hn : n'.val = n.val) :
    (Host.divf (F := Ideal) (φ := .f32) (extractStridedSlice S50000x128 ![0, 0] X hsl)
        (broadcastInDim S50000x128 ![0, 1] bcast_S50000x1_S50000x128_0_1 D) : S50000x128.Idx → EReal) (ix2 n d)
      = Ideal.div (X (ix2 n' d)) (D (ix2 n (0 : Fin 1))) := by
  have hA : extractStridedSlice S50000x128 ![0, 0] X hsl (ix2 n d) = X (ix2 n' d) :=
    slice2_axis0_apply 0 X hsl n d n' (by rw [hn, Nat.zero_add])
  have hB : broadcastInDim S50000x128 ![0, 1] bcast_S50000x1_S50000x128_0_1 D (ix2 n d) = D (ix2 n (0 : Fin 1)) :=
    broadcastInDim_apply _ bcast_S50000x1_S50000x128_0_1 D (ix2 n d) (ix2 n (0 : Fin 1)) (fun b => by
      match b with
      | ⟨0, _⟩ => rfl
      | ⟨1, _⟩ => rfl)
  show Ideal.div (extractStridedSlice S50000x128 ![0, 0] X hsl (ix2 n d))
      (broadcastInDim S50000x128 ![0, 1] bcast_S50000x1_S50000x128_0_1 D (ix2 n d)) = _
  rw [hA, hB]

private theorem W5_v18_term_at (V : Valuation τ sig (Elt Ideal)) : (StableHlo.after hostOps1 V main_v18 : S50000x128.Idx → EReal)
    = Host.divf (F := Ideal) (φ := .f32)
        (extractStridedSlice S50000x128 ![0, 0] (V main_v15 : S50176x128.Idx → EReal) slices_S50176x128_S50000x128_0_0)
        (broadcastInDim S50000x128 ![0, 1] bcast_S50000x1_S50000x128_0_1 (V main_v12 : S50000x1.Idx → EReal)) := by
  show StableHlo.after hostOps1 V (Proc.devRef .tc main_v18) = _
  after_results <;> rfl

theorem W5_v18_term (c : Dev nD) : (W5 m c main_v18 : S50000x128.Idx → EReal)
    = Host.divf (F := Ideal) (φ := .f32)
        (extractStridedSlice S50000x128 ![0, 0] (W4 m c main_v15 : S50176x128.Idx → EReal) slices_S50176x128_S50000x128_0_0)
        (broadcastInDim S50000x128 ![0, 1] bcast_S50000x1_S50000x128_0_1 (W4 m c main_v12 : S50000x1.Idx → EReal)) :=
  W5_v18_term_at (W4 m c)

theorem U5_v18 (c : Dev nD) (n : Fin 50000) (d : Fin 128) :
    (U5 m c main_v18 : S50000x128.Idx → EReal) (ix2 n d)
      = Ideal.div ((W4 m c main_v15 : S50176x128.Idx → EReal) (ix2 (Fin.castLE (by decide) n) d))
          (max (Cert.Spec.degree (Cert.Spec.words (m ((c : Thread nD τ).loc main_arg3))) n) Cert.Spec.one) := by
  refine (congrFun (W5_v18_term m c) (ix2 n d)).trans ?_
  refine (mean_apply _ _ slices_S50176x128_S50000x128_0_0 n d (Fin.castLE (by decide) n) rfl).trans ?_
  refine congrArg (Ideal.div _) ?_
  refine (congrFun (show (W4 m c main_v12 : S50000x1.Idx → EReal) = (W1 m c main_v12 : S50000x1.Idx → EReal) from W4_v12 m c) (ix2 n (0 : Fin 1))).trans ?_
  exact W1_v12_apply m c n 0

private theorem W5_v19_term_at (V : Valuation τ sig (Elt Ideal)) : (StableHlo.after hostOps1 V main_v19 : S1x128.Idx → EReal)
    = shapeCast S1x128 (V main_arg6 : S128.Idx → EReal) shapeCasts_S128_S1x128 := by
  show StableHlo.after hostOps1 V (Proc.devRef .tc main_v19) = _
  after_results <;> rfl

theorem W5_v19_term (c : Dev nD) : (W5 m c main_v19 : S1x128.Idx → EReal)
    = shapeCast S1x128 (W4 m c main_arg6 : S128.Idx → EReal) shapeCasts_S128_S1x128 :=
  W5_v19_term_at (W4 m c)

theorem U5_v19 (c : Dev nD) (u : Fin 1) (j : Fin 128) :
    (U5 m c main_v19 : S1x128.Idx → EReal) (ix2 u j) = Cert.Spec.vec (m ((c : Thread nD τ).loc main_arg6)) j := by
  refine (congrFun (W5_v19_term m c) (ix2 u j)).trans ?_
  refine (shapeCast_a_1a_apply _ shapeCasts_S128_S1x128 u j).trans ?_
  exact congrFun (show (W4 m c main_arg6 : S128.Idx → EReal) = (m ((c : Thread nD τ).loc main_arg6) : S128.Idx → EReal) from W4_arg6 m c) (ix1 j)

private theorem W11_v26_term_at (V : Valuation τ sig (Elt Ideal)) : (StableHlo.after hostOps3 V main_v26 : S50000x128.Idx → EReal)
    = Host.divf (F := Ideal) (φ := .f32)
        (extractStridedSlice S50000x128 ![0, 0] (V main_v23 : S50176x128.Idx → EReal) slices_S50176x128_S50000x128_0_0)
        (broadcastInDim S50000x128 ![0, 1] bcast_S50000x1_S50000x128_0_1 (V main_v12 : S50000x1.Idx → EReal)) := by
  show StableHlo.after hostOps3 V (Proc.devRef .tc main_v26) = _
  after_results <;> rfl

theorem W11_v26_term (c : Dev nD) : (W11 m c main_v26 : S50000x128.Idx → EReal)
    = Host.divf (F := Ideal) (φ := .f32)
        (extractStridedSlice S50000x128 ![0, 0] (W10 m c main_v23 : S50176x128.Idx → EReal) slices_S50176x128_S50000x128_0_0)
        (broadcastInDim S50000x128 ![0, 1] bcast_S50000x1_S50000x128_0_1 (W10 m c main_v12 : S50000x1.Idx → EReal)) :=
  W11_v26_term_at (W10 m c)

theorem U11_v26 (c : Dev nD) (n : Fin 50000) (d : Fin 128) :
    (U11 m c main_v26 : S50000x128.Idx → EReal) (ix2 n d)
      = Ideal.div ((W10 m c main_v23 : S50176x128.Idx → EReal) (ix2 (Fin.castLE (by decide) n) d))
          (max (Cert.Spec.degree (Cert.Spec.words (m ((c : Thread nD τ).loc main_arg3))) n) Cert.Spec.one) := by
  refine (congrFun (W11_v26_term m c) (ix2 n d)).trans ?_
  refine (mean_apply _ _ slices_S50176x128_S50000x128_0_0 n d (Fin.castLE (by decide) n) rfl).trans ?_
  refine congrArg (Ideal.div _) ?_
  refine (congrFun (show (W10 m c main_v12 : S50000x1.Idx → EReal) = (W1 m c main_v12 : S50000x1.Idx → EReal) from W10_v12 m c) (ix2 n (0 : Fin 1))).trans ?_
  exact W1_v12_apply m c n 0

private theorem W11_v27_term_at (V : Valuation τ sig (Elt Ideal)) : (StableHlo.after hostOps3 V main_v27 : S1x128.Idx → EReal)
    = shapeCast S1x128 (V main_arg9 : S128.Idx → EReal) shapeCasts_S128_S1x128 := by
  show StableHlo.after hostOps3 V (Proc.devRef .tc main_v27) = _
  after_results <;> rfl

theorem W11_v27_term (c : Dev nD) : (W11 m c main_v27 : S1x128.Idx → EReal)
    = shapeCast S1x128 (W10 m c main_arg9 : S128.Idx → EReal) shapeCasts_S128_S1x128 :=
  W11_v27_term_at (W10 m c)

theorem U11_v27 (c : Dev nD) (u : Fin 1) (j : Fin 128) :
    (U11 m c main_v27 : S1x128.Idx → EReal) (ix2 u j) = Cert.Spec.vec (m ((c : Thread nD τ).loc main_arg9)) j := by
  refine (congrFun (W11_v27_term m c) (ix2 u j)).trans ?_
  refine (shapeCast_a_1a_apply _ shapeCasts_S128_S1x128 u j).trans ?_
  exact congrFun (show (W10 m c main_arg9 : S128.Idx → EReal) = (m ((c : Thread nD τ).loc main_arg9) : S128.Idx → EReal) from W10_arg9 m c) (ix1 j)

private theorem W13_v29_term_at (V : Valuation τ sig (Elt Ideal)) : (StableHlo.after hostOps4 V main_v29 : S128x3.Idx → EReal)
    = extractStridedSlice S128x3 ![0, 0] (V main_arg10 : S256x3.Idx → EReal) slices_S256x3_S128x3_0_0 := by
  show StableHlo.after hostOps4 V (Proc.devRef .tc main_v29) = _
  after_results <;> rfl

theorem W13_v29_term (c : Dev nD) : (W13 m c main_v29 : S128x3.Idx → EReal)
    = extractStridedSlice S128x3 ![0, 0] (W12 m c main_arg10 : S256x3.Idx → EReal) slices_S256x3_S128x3_0_0 :=
  W13_v29_term_at (W12 m c)

private theorem W13_v30_term_at (V : Valuation τ sig (Elt Ideal)) : (StableHlo.after hostOps4 V main_v30 : S128x3.Idx → EReal)
    = extractStridedSlice S128x3 ![128, 0] (V main_arg10 : S256x3.Idx → EReal) slices_S256x3_S128x3_128_0 := by
  show StableHlo.after hostOps4 V (Proc.devRef .tc main_v30) = _
  after_results <;> rfl

theorem W13_v30_term (c : Dev nD) : (W13 m c main_v30 : S128x3.Idx → EReal)
    = extractStridedSlice S128x3 ![128, 0] (W12 m c main_arg10 : S256x3.Idx → EReal) slices_S256x3_S128x3_128_0 :=
  W13_v30_term_at (W12 m c)

theorem U13_v29 (c : Dev nD) (k : Fin 128) (q : Fin 3) :
    (U13 m c main_v29 : S128x3.Idx → EReal) (ix2 k q)
      = Cert.Spec.wpTop (Cert.Spec.mat (m ((c : Thread nD τ).loc main_arg10))) k q := by
  refine (congrFun (W13_v29_term m c) (ix2 k q)).trans ?_
  refine (slice2_axis0_apply 0 _ slices_S256x3_S128x3_0_0 k q
    (⟨k.val, by have := k.isLt; omega⟩ : Fin 256) (Nat.zero_add _).symm).trans ?_
  exact congrFun (show (W12 m c main_arg10 : S256x3.Idx → EReal) = (m ((c : Thread nD τ).loc main_arg10) : S256x3.Idx → EReal) from W12_arg10 m c) (ix2 (⟨k.val, by have := k.isLt; omega⟩ : Fin 256) q)

theorem U13_v30 (c : Dev nD) (k : Fin 128) (q : Fin 3) :
    (U13 m c main_v30 : S128x3.Idx → EReal) (ix2 k q)
      = Cert.Spec.wpBot (Cert.Spec.mat (m ((c : Thread nD τ).loc main_arg10))) k q := by
  refine (congrFun (W13_v30_term m c) (ix2 k q)).trans ?_
  refine (slice2_axis0_apply 128 _ slices_S256x3_S128x3_128_0 k q
    (⟨128 + k.val, by have := k.isLt; omega⟩ : Fin 256) rfl).trans ?_
  exact congrFun (show (W12 m c main_arg10 : S256x3.Idx → EReal) = (m ((c : Thread nD τ).loc main_arg10) : S256x3.Idx → EReal) from W12_arg10 m c) (ix2 (⟨128 + k.val, by have := k.isLt; omega⟩ : Fin 256) q)

private abbrev wrapCol (a : S600000.Idx → BitVec 32) : S600000x1.Idx → BitVec 32 :=
  broadcastInDim S600000x1 ![0] bcast_S600000_S600000x1_0
    (select (cmpi .slt a (broadcastInDim S600000 ![] bcast_S_S600000 (constantI S_ 32 0#32)))
      (addi a (broadcastInDim S600000 ![] bcast_S_S600000 (constantI S_ 32 50000#32))) a)

private abbrev fillMask (a : S600000.Idx → BitVec 32) : S600000.Idx → BitVec 1 :=
  Host.reduce IntOp.andi
    (andi (cmpi .sge (wrapCol a) (broadcastInDim S600000x1 ![] bcast_S_S600000x1 (constantI S_ 32 0#32)))
      (cmpi .sle (wrapCol a)
        (broadcastInDim S600000x1 ![0, 1] bcast_S1x1_S600000x1_0_1
          (broadcastInDim S1x1 ![1] bcast_S1_S1x1_1 (constantI S1 32 49999#32)))))
    (constantI S_ 1 1#1) reducesTo_S600000x1_S600000_d1 h_S_

private abbrev takeFill (tbl : S50000x3.Idx → EReal) (a : S600000.Idx → BitVec 32) : S600000x3.Idx → EReal :=
  select (broadcastInDim S600000x3 ![0] bcast_S600000_S600000x3_0 (fillMask a))
    (Host.gather gather_S50000x3_S600000x1_S600000x3_1_0_n_n_0_1_13 tbl (wrapCol a))
    (broadcastInDim S600000x3 ![] bcast_S_S600000x3 (constant (F := Ideal) S_ .f32 0x7FC00000#32))

private theorem select_row {A : Type} (M : S600000.Idx → BitVec 1) (G Fl : S600000x3.Idx → A) (e : Fin 600000) (k : Fin 3)
    (hM : M (ix1 e) = 1#1) :
    select (broadcastInDim S600000x3 ![0] bcast_S600000_S600000x3_0 M) G Fl (ix2 e k) = G (ix2 e k) := by
  have hb : broadcastInDim S600000x3 ![0] bcast_S600000_S600000x3_0 M (ix2 e k) = M (ix1 e) :=
    broadcastInDim_apply _ bcast_S600000_S600000x3_0 _ (ix2 e k) (ix1 e) (fun b => by
      match b with
      | ⟨0, _⟩ => rfl)
  show Scalar.select (broadcastInDim S600000x3 ![0] bcast_S600000_S600000x3_0 M (ix2 e k)) (G (ix2 e k)) (Fl (ix2 e k)) = _
  rw [hb, hM]
  exact select_one _ _

private theorem takeFill_apply (tbl : S50000x3.Idx → EReal) (a : S600000.Idx → BitVec 32) (e : Fin 600000) (k : Fin 3)
    (h0 : 0 ≤ (Cert.Spec.words a e).toInt) (h1 : (Cert.Spec.words a e).toInt < 50000) :
    takeFill tbl a (ix2 e k) = tbl (ix2 (Cert.Spec.rowOf (Cert.Spec.words a e)) k) := by
  have hw2 : wrapCol a (ix2 e (0 : Fin 1)) = Cert.Spec.words a e := by
    refine (broadcastInDim_apply _ bcast_S600000_S600000x1_0 _ (ix2 e (0 : Fin 1)) (ix1 e) (fun b => by
      match b with
      | ⟨0, _⟩ => rfl)).trans ?_
    exact Cert.Lib.TakeFill.wrap_of_nonneg 50000 (a (ix1 e)) h0
  have hwP : wrapCol a (StableHlo.Predicate.ixP e) = Cert.Spec.words a e := by
    refine (broadcastInDim_apply _ bcast_S600000_S600000x1_0 _ (StableHlo.Predicate.ixP e) (ix1 e) (fun b => by
      match b with
      | ⟨0, _⟩ => rfl)).trans ?_
    exact Cert.Lib.TakeFill.wrap_of_nonneg 50000 (a (ix1 e)) h0
  have hz : (0#32 : BitVec 32).toInt = 0 := by decide
  have hn : (49999#32 : BitVec 32).toInt = 49999 := by decide
  have hmask : fillMask a (ix1 e) = 1#1 := by
    refine Cert.Lib.TakeFill.fill_mask_eq_one reducesTo_S600000x1_S600000_d1 h_S_ (constantI S_ 1 1#1) rfl (wrapCol a) _ _ e ?_
    show (0#32 : BitVec 32).toInt ≤ (wrapCol a (StableHlo.Predicate.ixP e)).toInt
        ∧ (wrapCol a (StableHlo.Predicate.ixP e)).toInt ≤ (49999#32 : BitVec 32).toInt
    rw [hwP, hz, hn]
    omega
  have hg : Host.gather gather_S50000x3_S600000x1_S600000x3_1_0_n_n_0_1_13 tbl (wrapCol a) (ix2 e k)
      = tbl (ix2 (Cert.Spec.rowOf (Cert.Spec.words a e)) k) :=
    Cert.LibIndex.gather_rows_apply gather_S50000x3_S600000x1_S600000x3_1_0_n_n_0_1_13 rfl rfl rfl rfl rfl rfl rfl tbl (wrapCol a) e k
      (Cert.Spec.rowOf (Cert.Spec.words a e)) (by rw [hw2]; exact Cert.Spec.rowOf_val h0 h1)
  exact (select_row (fillMask a) _ _ e k hmask).trans hg

set_option maxHeartbeats 1000000 in
private theorem W15_v32_term_at (V : Valuation τ sig (Elt Ideal)) : (StableHlo.after hostOps5 V main_v32 : S600000x3.Idx → EReal)
    = takeFill (V main_v31_0 : S50000x3.Idx → EReal) (V main_arg2 : S600000.Idx → BitVec 32) := by
  show StableHlo.after hostOps5 V (Proc.devRef .tc main_v32) = _
  after_results_simp
  simp only [StableHlo.TRef.ofBuf, StableHlo.TRef.toBuf, cast_eq]

theorem W15_v32_term (c : Dev nD) : (W15 m c main_v32 : S600000x3.Idx → EReal)
    = takeFill (W14 m c main_v31_0 : S50000x3.Idx → EReal) (W14 m c main_arg2 : S600000.Idx → BitVec 32) :=
  W15_v32_term_at (W14 m c)

set_option maxHeartbeats 1000000 in
private theorem W16_v33_term_at (V : Valuation τ sig (Elt Ideal)) : (StableHlo.after hostOps5_1 V main_v33 : S600000x3.Idx → EReal)
    = takeFill (V main_v31_1 : S50000x3.Idx → EReal) (V main_arg3 : S600000.Idx → BitVec 32) := by
  show StableHlo.after hostOps5_1 V (Proc.devRef .tc main_v33) = _
  after_results_simp
  simp only [StableHlo.TRef.ofBuf, StableHlo.TRef.toBuf, cast_eq]

theorem W16_v33_term (c : Dev nD) : (W16 m c main_v33 : S600000x3.Idx → EReal)
    = takeFill (W15 m c main_v31_1 : S50000x3.Idx → EReal) (W15 m c main_arg3 : S600000.Idx → BitVec 32) :=
  W16_v33_term_at (W15 m c)

private theorem W17_v37_term_at (V : Valuation τ sig (Elt Ideal)) : (StableHlo.after hostOps5_2 V main_v37 : S600000x3.Idx → EReal)
    = addf (F := Ideal) (φ := .f32)
        (addf (F := Ideal) (φ := .f32) (V main_v32 : S600000x3.Idx → EReal) (V main_v33 : S600000x3.Idx → EReal))
        (broadcastInDim S600000x3 ![0, 1] bcast_S1x3_S600000x3_0_1
          (broadcastInDim S1x3 ![1] bcast_S3_S1x3_1 (V main_arg11 : S3.Idx → EReal))) := by
  show StableHlo.after hostOps5_2 V (Proc.devRef .tc main_v37) = _
  after_results <;> rfl

theorem W17_v37_term (c : Dev nD) : (W17 m c main_v37 : S600000x3.Idx → EReal)
    = addf (F := Ideal) (φ := .f32)
        (addf (F := Ideal) (φ := .f32) (W16 m c main_v32 : S600000x3.Idx → EReal) (W16 m c main_v33 : S600000x3.Idx → EReal))
        (broadcastInDim S600000x3 ![0, 1] bcast_S1x3_S600000x3_0_1
          (broadcastInDim S1x3 ![1] bcast_S3_S1x3_1 (W16 m c main_arg11 : S3.Idx → EReal))) :=
  W17_v37_term_at (W16 m c)

/-- The two projected node tables the last region leaves: what the takes read. -/
abbrev proj0 (c : Dev nD) : S50000x3.Idx → EReal := W14 m c main_v31_0
@[inherit_doc proj0]
abbrev proj1 (c : Dev nD) : S50000x3.Idx → EReal := W14 m c main_v31_1

theorem W15_v32_apply (c : Dev nD) (hs : Cert.Spec.InRange (Cert.Spec.words (m ((c : Thread nD τ).loc main_arg2))))
    (e : Fin 600000) (k : Fin 3) :
    (W15 m c main_v32 : S600000x3.Idx → EReal) (ix2 e k)
      = proj0 m c (ix2 (Cert.Spec.rowOf (Cert.Spec.words (m ((c : Thread nD τ).loc main_arg2)) e)) k) := by
  have ea : (W14 m c main_arg2 : S600000.Idx → BitVec 32) = (m ((c : Thread nD τ).loc main_arg2) : S600000.Idx → BitVec 32) :=
    W14_arg2 m c
  refine (congrFun (W15_v32_term m c) (ix2 e k)).trans ?_
  rw [ea]
  exact takeFill_apply (proj0 m c) _ e k (hs e).1 (hs e).2

theorem W16_v33_apply (c : Dev nD) (hd : Cert.Spec.InRange (Cert.Spec.words (m ((c : Thread nD τ).loc main_arg3))))
    (e : Fin 600000) (k : Fin 3) :
    (W16 m c main_v33 : S600000x3.Idx → EReal) (ix2 e k)
      = proj1 m c (ix2 (Cert.Spec.rowOf (Cert.Spec.words (m ((c : Thread nD τ).loc main_arg3)) e)) k) := by
  have ea : (W15 m c main_arg3 : S600000.Idx → BitVec 32) = (m ((c : Thread nD τ).loc main_arg3) : S600000.Idx → BitVec 32) :=
    W15_arg3 m c
  have et : (W15 m c main_v31_1 : S50000x3.Idx → EReal) = proj1 m c :=
    W15_of m c main_v31_1 (by decide)
  refine (congrFun (W16_v33_term m c) (ix2 e k)).trans ?_
  rw [ea, et]
  exact takeFill_apply (proj1 m c) _ e k (hd e).1 (hd e).2

private theorem add3_apply (A B C : S600000x3.Idx → EReal) (i : S600000x3.Idx) :
    addf (F := Ideal) (φ := .f32) (addf (F := Ideal) (φ := .f32) A B) C i = (A i + B i) + C i := rfl

private theorem biasRows_apply (b : S3.Idx → EReal) (e : Fin 600000) (k : Fin 3) :
    broadcastInDim S600000x3 ![0, 1] bcast_S1x3_S600000x3_0_1 (broadcastInDim S1x3 ![1] bcast_S3_S1x3_1 b) (ix2 e k)
      = b (ix1 k) := by
  refine (broadcastInDim_apply _ bcast_S1x3_S600000x3_0_1 _ (ix2 e k) (ix2 (0 : Fin 1) k) (fun a => by
    match a with
    | ⟨0, _⟩ => rfl
    | ⟨1, _⟩ => rfl)).trans ?_
  exact broadcastInDim_apply _ bcast_S3_S1x3_1 _ (ix2 (0 : Fin 1) k) (ix1 k) (fun a => by
    match a with
    | ⟨0, _⟩ => rfl)

theorem W17_v37 (c : Dev nD) (hs : Cert.Spec.InRange (Cert.Spec.words (m ((c : Thread nD τ).loc main_arg2))))
    (hd : Cert.Spec.InRange (Cert.Spec.words (m ((c : Thread nD τ).loc main_arg3)))) (e : Fin 600000) (k : Fin 3) :
    (W17 m c main_v37 : S600000x3.Idx → EReal) (ix2 e k)
      = (proj0 m c (ix2 (Cert.Spec.rowOf (Cert.Spec.words (m ((c : Thread nD τ).loc main_arg2)) e)) k)
          + proj1 m c (ix2 (Cert.Spec.rowOf (Cert.Spec.words (m ((c : Thread nD τ).loc main_arg3)) e)) k))
        + Cert.Spec.vec (m ((c : Thread nD τ).loc main_arg11)) k := by
  have e32 : (W16 m c main_v32 : S600000x3.Idx → EReal) = (W15 m c main_v32 : S600000x3.Idx → EReal) :=
    W16_of m c main_v32 (by decide)
  have eb : (W16 m c main_arg11 : S3.Idx → EReal) = (m ((c : Thread nD τ).loc main_arg11) : S3.Idx → EReal) :=
    W16_arg11 m c
  have h32 := (congrFun e32 (ix2 e k)).trans (W15_v32_apply m c hs e k)
  have h33 := W16_v33_apply m c hd e k
  have hbias := (biasRows_apply (W16 m c main_arg11 : S3.Idx → EReal) e k).trans (congrFun eb (ix1 k))
  refine (congrFun (W17_v37_term m c) (ix2 e k)).trans ?_
  refine (add3_apply _ _ _ _).trans ?_
  exact congrArg₂ (fun x y : EReal => x + y) (congrArg₂ (fun x y : EReal => x + y) h32 h33) hbias

end Values

end Cert.KernelIdeal.Hand

end
-- ==== Proof.SpecK.lean ====
import proofs.«404972_j68066641707582_3_alg».proof.Proof.Spec

noncomputable section

open scoped BigOperators

namespace Cert.SpecK

open Idealize.ShloMosaic Idealize.ShloMosaic.ValueIdx Cert.Spec

def edgeAt (t : Fin 2344) (r : Fin 256) : Fin 600064 := ⟨256 * t.val + r.val, by have := t.isLt; have := r.isLt; omega⟩
def rowAt (j : Fin 49) (q : Fin 1024) : Fin 50176 := ⟨1024 * j.val + q.val, by have := j.isLt; have := q.isLt; omega⟩

def picked (w : BitVec 32) (T : (⟨2, ![50176, 128]⟩ : Shape).Idx → EReal) (d : Fin 128) : EReal :=
  ∑ j : Fin 49, ∑ q : Fin 1024, (if w.toNat = (rowAt j q).val then one else 0) * T (ix2 (rowAt j q) d)

def aggOut (srcp dstp : (⟨2, ![600064, 1]⟩ : Shape).Idx → BitVec 32) (T : (⟨2, ![50176, 128]⟩ : Shape).Idx → EReal)
    (n : Fin 50176) (d : Fin 128) : EReal :=
  ∑ t : Fin 2344, ∑ r : Fin 256,
    (if (dstp (ix2 (edgeAt t r) (0 : Fin 1))).toNat = n.val then one else 0) * picked (srcp (ix2 (edgeAt t r) (0 : Fin 1))) T d

def affineOut (x a : (⟨2, ![50000, 128]⟩ : Shape).Idx → EReal) (ws wn : (⟨2, ![128, 128]⟩ : Shape).Idx → EReal)
    (b : (⟨2, ![1, 128]⟩ : Shape).Idx → EReal) (n : Fin 50000) (j : Fin 128) : EReal :=
  ((∑ k : Fin 128, x (ix2 n k) * ws (ix2 k j)) + (∑ k : Fin 128, a (ix2 n k) * wn (ix2 k j))) + b (ix2 (0 : Fin 1) j)

def projOut (h : (⟨2, ![50000, 128]⟩ : Shape).Idx → EReal) (w : (⟨2, ![128, 3]⟩ : Shape).Idx → EReal)
    (n : Fin 50000) (k : Fin 3) : EReal :=
  ∑ j : Fin 128, h (ix2 n j) * w (ix2 j k)

end Cert.SpecK

end
-- ==== Proof.KI.PayCommon.lean ====
import proofs.«404972_j68066641707582_3_alg».proof.Proof.Gen.KernelIdeal.Skeleton
import proofs.«404972_j68066641707582_3_alg».proof.Proof.SpecK
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

noncomputable section

open scoped BigOperators

namespace Cert.KernelIdeal.Hand.AggPay

open Cert.KernelIdeal Cert.KernelIdeal.Gen
open Idealize.ShloMosaic Idealize.ShloMosaic.ValueIdx

abbrev slabWord (k : ℕ) : BitVec 32 := Scalar.muli (Scalar.addi 0#32 (Scalar.muli (Scf.iv 0#32 1#32 k) 1#32)) 1024#32

theorem word_eq_iff (x : BitVec 32) (k q : ℕ) (hk : k < 49) (hq : q < 1024) :
    x = BitVec.ofNat 32 (1024 * k) + BitVec.ofNat 32 q ↔ x.toNat = 1024 * k + q := by
  constructor
  · rintro rfl; simp only [BitVec.toNat_add, BitVec.toNat_ofNat]; omega
  · intro h; apply BitVec.eq_of_toNat_eq; simp only [BitVec.toNat_add, BitVec.toNat_ofNat]; omega

theorem select_cmpi_eq {α : Type} (x y : BitVec 32) (a b : α) :
    Scalar.select (IntOp.cmpi .eq x y) a b = if x = y then a else b := by
  by_cases h : x = y
  · rw [if_pos h]; exact if_pos (StableHlo.Predicate.cmpi_eq_iff.mpr h)
  · rw [if_neg h]; exact if_neg (fun h' => h (StableHlo.Predicate.cmpi_eq_iff.mp h'))

theorem bcast_col_apply (x : IVec S256x1 32) (r : Fin 256) (q : Fin 1024) :
    broadcastTo S256x1024 x broadcasts_S256x1_S256x1024 (ix2 r q) = x (ix2 r (0 : Fin 1)) :=
  broadcastTo_apply x broadcasts_S256x1_S256x1024 (ix2 r q) (ix2 r (0 : Fin 1)) (fun a => match a with
    | ⟨0, _⟩ => by show r.val = if (256 : Nat) = 1 then 0 else r.val; rw [if_neg (by decide)]
    | ⟨1, _⟩ => by show 0 = if (1 : Nat) = 1 then 0 else q.val; rw [if_pos rfl])

theorem bcast_rows_apply (w : BitVec 32) (r : Fin 256) (q : Fin 1024) :
    broadcastTo S256x1024 (addi (broadcast S1x1024 w) (iota .tc S1x1024 32 [1] iota_S1x1024_d1_w32)) broadcasts_S1x1024_S256x1024 (ix2 r q)
      = w + BitVec.ofNat 32 q.val := by
  refine (broadcastTo_1b_ab_apply _ broadcasts_S1x1024_S256x1024 r q).trans ?_
  show IntOp.addi w (iota .tc S1x1024 32 [1] iota_S1x1024_d1_w32 (ix2 (0 : Fin 1) q)) = _
  rw [iota_single_apply]
  rfl

theorem weight_apply (x : IVec S256x1 32) (k : ℕ) (hk : k < 49) (hw : slabWord k = BitVec.ofNat 32 (1024 * k)) (r : Fin 256) (q : Fin 1024) :
    (truncf .bf16 (select (cmpi .eq (broadcastTo S256x1024 x broadcasts_S256x1_S256x1024)
          (broadcastTo S256x1024 (addi (broadcast S1x1024 (slabWord k)) (iota .tc S1x1024 32 [1] iota_S1x1024_d1_w32)) broadcasts_S1x1024_S256x1024))
        (broadcast S256x1024 (Scalar.ofBits .f32 0x3F800000#32)) (broadcast S256x1024 (Scalar.ofBits .f32 0x00000000#32))) bitsLt_bf16_f32
      : FVec Ideal S256x1024 .bf16) (ix2 r q)
      = if (x (ix2 r (0 : Fin 1))).toNat = 1024 * k + q.val then Ideal.ofBits .f32 0x3F800000#32 else 0 := by
  show Scalar.select (IntOp.cmpi .eq (broadcastTo S256x1024 x broadcasts_S256x1_S256x1024 (ix2 r q))
      (broadcastTo S256x1024 (addi (broadcast S1x1024 (slabWord k)) (iota .tc S1x1024 32 [1] iota_S1x1024_d1_w32)) broadcasts_S1x1024_S256x1024 (ix2 r q)))
    (Ideal.ofBits .f32 0x3F800000#32) (Ideal.ofBits .f32 0x00000000#32) = _
  rw [select_cmpi_eq, bcast_col_apply, bcast_rows_apply, hw, Ideal.ofBits_zero_f32]
  exact if_congr (word_eq_iff _ k q.val hk q.isLt) rfl rfl

theorem lhs1_0 (i : S256x128.Idx) (q : dot_S256x1024_S1024x128_S256x128_1_0_0_1_n_n.contr.Idx) :
    (dot_S256x1024_S1024x128_S256x128_1_0_0_1_n_n.lhsIdx i q 0).val = (i 0).val := by
  unfold DotDims.lhsIdx
  rw [dif_neg (show ¬(0 : Fin S256x1024.rank) ∈ dot_S256x1024_S1024x128_S256x128_1_0_0_1_n_n.lhsBatch by decide), dif_pos (show (0 : Fin S256x1024.rank) ∈ dot_S256x1024_S1024x128_S256x128_1_0_0_1_n_n.lhsNonContracting by decide)]
  rfl
theorem lhs1_1 (i : S256x128.Idx) (q : dot_S256x1024_S1024x128_S256x128_1_0_0_1_n_n.contr.Idx) :
    (dot_S256x1024_S1024x128_S256x128_1_0_0_1_n_n.lhsIdx i q 1).val = (q ⟨0, by decide⟩).val :=
  dot_S256x1024_S1024x128_S256x128_1_0_0_1_n_n.lhsIdx_val_of_single rfl i q
theorem rhs1_0 (i : S256x128.Idx) (q : dot_S256x1024_S1024x128_S256x128_1_0_0_1_n_n.contr.Idx) :
    (dot_S256x1024_S1024x128_S256x128_1_0_0_1_n_n.rhsIdx i q 0).val = (q ⟨0, by decide⟩).val :=
  dot_S256x1024_S1024x128_S256x128_1_0_0_1_n_n.rhsIdx_val_of_single rfl i q
theorem rhs1_1 (i : S256x128.Idx) (q : dot_S256x1024_S1024x128_S256x128_1_0_0_1_n_n.contr.Idx) :
    (dot_S256x1024_S1024x128_S256x128_1_0_0_1_n_n.rhsIdx i q 1).val = (i 1).val := by
  unfold DotDims.rhsIdx
  rw [dif_neg (show ¬(1 : Fin S1024x128.rank) ∈ dot_S256x1024_S1024x128_S256x128_1_0_0_1_n_n.rhsBatch by decide), dif_pos (show (1 : Fin S1024x128.rank) ∈ dot_S256x1024_S1024x128_S256x128_1_0_0_1_n_n.rhsNonContracting by decide)]
  rfl

theorem lhs2_0 (i : S1024x128.Idx) (q : dot_S256x1024_S256x128_S1024x128_0_0_1_1_n_n.contr.Idx) :
    (dot_S256x1024_S256x128_S1024x128_0_0_1_1_n_n.lhsIdx i q 0).val = (q ⟨0, by decide⟩).val :=
  dot_S256x1024_S256x128_S1024x128_0_0_1_1_n_n.lhsIdx_val_of_single rfl i q
theorem lhs2_1 (i : S1024x128.Idx) (q : dot_S256x1024_S256x128_S1024x128_0_0_1_1_n_n.contr.Idx) :
    (dot_S256x1024_S256x128_S1024x128_0_0_1_1_n_n.lhsIdx i q 1).val = (i 0).val := by
  unfold DotDims.lhsIdx
  rw [dif_neg (show ¬(1 : Fin S256x1024.rank) ∈ dot_S256x1024_S256x128_S1024x128_0_0_1_1_n_n.lhsBatch by decide), dif_pos (show (1 : Fin S256x1024.rank) ∈ dot_S256x1024_S256x128_S1024x128_0_0_1_1_n_n.lhsNonContracting by decide)]
  rfl
theorem rhs2_0 (i : S1024x128.Idx) (q : dot_S256x1024_S256x128_S1024x128_0_0_1_1_n_n.contr.Idx) :
    (dot_S256x1024_S256x128_S1024x128_0_0_1_1_n_n.rhsIdx i q 0).val = (q ⟨0, by decide⟩).val :=
  dot_S256x1024_S256x128_S1024x128_0_0_1_1_n_n.rhsIdx_val_of_single rfl i q
theorem rhs2_1 (i : S1024x128.Idx) (q : dot_S256x1024_S256x128_S1024x128_0_0_1_1_n_n.contr.Idx) :
    (dot_S256x1024_S256x128_S1024x128_0_0_1_1_n_n.rhsIdx i q 1).val = (i 1).val := by
  unfold DotDims.rhsIdx
  rw [dif_neg (show ¬(1 : Fin S256x128.rank) ∈ dot_S256x1024_S256x128_S1024x128_0_0_1_1_n_n.rhsBatch by decide), dif_pos (show (1 : Fin S256x128.rank) ∈ dot_S256x1024_S256x128_S1024x128_0_0_1_1_n_n.rhsNonContracting by decide)]
  rfl

theorem hz2 : (![0, 0] : Fin 2 → Nat) = fun _ => 0 := funext fun a => match a with | ⟨0, _⟩ => rfl | ⟨1, _⟩ => rfl

abbrev rIdx : Rect S256x1 := Rect.unit (s := S256x1) ![0, 0] S256x1.size inb_S256x1_S256x1_0_0
abbrev rScr : Rect S256x128 := Rect.unit (s := S256x128) ![0, 0] S256x128.size inb_S256x128_S256x128_0_0
abbrev rRes : Rect S50176x128 := Rect.unit (s := S50176x128) ![0, 0] S50176x128.size inb_S50176x128_S50176x128_0_0

def rowIdx (k q : ℕ) (hk : k < 49) (hq : q < 1024) (d : Fin 128) : S50176x128.Idx :=
  ix2 (⟨1024 * k + q, by omega⟩ : Fin 50176) d

theorem read_writes_cons_whole {sig : RefSig} {κ : Kind} {sp : Space} {S : Shape} {e : EltTy} {Val : EltTy → Type}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

def slabSum (w : BitVec 32) (T : (⟨2, ![50176, 128]⟩ : Shape).Idx → EReal) (d : Fin 128) (j : ℕ) : EReal :=
  if h : j < 49 then
    ∑ q : Fin 1024, (if w.toNat = (Cert.SpecK.rowAt ⟨j, h⟩ q).val then Cert.Spec.one else 0) * T (ix2 (Cert.SpecK.rowAt ⟨j, h⟩ q) d)
  else 0

end Cert.KernelIdeal.Hand.AggPay

end
-- ==== Proof.KI.Pay0.lean ====
import proofs.«404972_j68066641707582_3_alg».proof.Proof.KI.PayCommon
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

noncomputable section

open scoped BigOperators

namespace Cert.KernelIdeal.Hand.AggPay0

open Cert.KernelIdeal Cert.KernelIdeal.Gen Cert.KernelIdeal.Hand.AggPay
open Idealize.ShloMosaic Idealize.ShloMosaic.ValueIdx

theorem k0_trips1_eq : k0_t1_loop.trips = 49 := by decide +kernel
theorem k0_trips2_eq : k0_t2_loop.trips = 49 := by decide +kernel

theorem k0_slabWord_eq1 : ∀ k : Fin k0_t1_loop.trips, slabWord k.val = BitVec.ofNat 32 (1024 * k.val) := by decide +kernel
theorem k0_slabWord_eq2 : ∀ k : Fin k0_t2_loop.trips, slabWord k.val = BitVec.ofNat 32 (1024 * k.val) := by decide +kernel

theorem k0_pay3_apply (v3 : Vec Ideal S256x1 .i32) (k : Fin k0_t1_loop.trips) (v20 : Vec Ideal S1024x128 .bf16) (v32 : Vec Ideal S256x128 .f32)
    (r : Fin 256) (d : Fin 128) :
    (k0_pay3 (F := Ideal) v3 k v20 v32 (ix2 r d) : EReal)
      = v32 (ix2 r d) + ∑ q : Fin 1024,
          (if BitVec.toNat (v3 (ix2 r (0 : Fin 1))) = 1024 * k.val + q.val then Ideal.ofBits .f32 0x3F800000#32 else 0) * v20 (ix2 q d) := by
  have hk : k.val < 49 := lt_of_lt_of_eq k.isLt k0_trips1_eq
  unfold k0_pay3
  simp only [shapeCast_self]
  refine (ValueIdx.addf_apply _ _ _).trans ?_
  refine congrArg (fun z : EReal => v32 (ix2 r d) + z) ?_
  refine (Ideal.matmul_constant_zero_apply (φ₁ := .bf16) (φ₂ := .bf16) dot_S256x1024_S1024x128_S256x128_1_0_0_1_n_n none _ _ (ix2 r d)).trans ?_
  rw [← Equiv.sum_comp (ValueIdx.contrEquiv1 dot_S256x1024_S1024x128_S256x128_1_0_0_1_n_n 1024 rfl rfl).symm]
  refine Finset.sum_congr rfl fun q _ => ?_
  have hq := ValueIdx.contrEquiv1_symm_val dot_S256x1024_S1024x128_S256x128_1_0_0_1_n_n 1024 rfl rfl q
  have el : dot_S256x1024_S1024x128_S256x128_1_0_0_1_n_n.lhsIdx (ix2 r d) ((ValueIdx.contrEquiv1 dot_S256x1024_S1024x128_S256x128_1_0_0_1_n_n 1024 rfl rfl).symm q) = ix2 r q := funext fun a => Fin.ext (by
    match a with
    | ⟨0, _⟩ => exact lhs1_0 _ _
    | ⟨1, _⟩ => exact (lhs1_1 _ _).trans hq)
  have er : dot_S256x1024_S1024x128_S256x128_1_0_0_1_n_n.rhsIdx (ix2 r d) ((ValueIdx.contrEquiv1 dot_S256x1024_S1024x128_S256x128_1_0_0_1_n_n 1024 rfl rfl).symm q) = ix2 q d := funext fun a => Fin.ext (by
    match a with
    | ⟨0, _⟩ => exact (rhs1_0 _ _).trans hq
    | ⟨1, _⟩ => exact rhs1_1 _ _)
  rw [el, er]
  refine congrArg (fun z : EReal => z * v20 (ix2 q d)) ?_
  exact weight_apply v3 k.val hk (k0_slabWord_eq1 k) r q

theorem k0_pay4_apply (v5 : Vec Ideal S256x1 .i32) (v12 : Vec Ideal S256x128 .f32) (k : Fin k0_t2_loop.trips) (v31 : Vec Ideal S1024x128 .f32)
    (q : Fin 1024) (d : Fin 128) :
    (k0_pay4 (F := Ideal) v5 v12 k v31 (ix2 q d) : EReal)
      = v31 (ix2 q d) + ∑ r : Fin 256,
          (if BitVec.toNat (v5 (ix2 r (0 : Fin 1))) = 1024 * k.val + q.val then Ideal.ofBits .f32 0x3F800000#32 else 0) * v12 (ix2 r d) := by
  have hk : k.val < 49 := lt_of_lt_of_eq k.isLt k0_trips2_eq
  unfold k0_pay4
  simp only [shapeCast_self]
  refine (ValueIdx.addf_apply _ _ _).trans ?_
  refine congrArg (fun z : EReal => v31 (ix2 q d) + z) ?_
  refine (Ideal.matmul_constant_zero_apply (φ₁ := .bf16) (φ₂ := .bf16) dot_S256x1024_S256x128_S1024x128_0_0_1_1_n_n none _ _ (ix2 q d)).trans ?_
  rw [← Equiv.sum_comp (ValueIdx.contrEquiv1 dot_S256x1024_S256x128_S1024x128_0_0_1_1_n_n 256 rfl rfl).symm]
  refine Finset.sum_congr rfl fun r _ => ?_
  have hr := ValueIdx.contrEquiv1_symm_val dot_S256x1024_S256x128_S1024x128_0_0_1_1_n_n 256 rfl rfl r
  have el : dot_S256x1024_S256x128_S1024x128_0_0_1_1_n_n.lhsIdx (ix2 q d) ((ValueIdx.contrEquiv1 dot_S256x1024_S256x128_S1024x128_0_0_1_1_n_n 256 rfl rfl).symm r) = ix2 r q := funext fun a => Fin.ext (by
    match a with
    | ⟨0, _⟩ => exact (lhs2_0 _ _).trans hr
    | ⟨1, _⟩ => exact lhs2_1 _ _)
  have er : dot_S256x1024_S256x128_S1024x128_0_0_1_1_n_n.rhsIdx (ix2 q d) ((ValueIdx.contrEquiv1 dot_S256x1024_S256x128_S1024x128_0_0_1_1_n_n 256 rfl rfl).symm r) = ix2 r d := funext fun a => Fin.ext (by
    match a with
    | ⟨0, _⟩ => exact (rhs2_0 _ _).trans hr
    | ⟨1, _⟩ => exact rhs2_1 _ _)
  rw [el, er]
  refine congrArg₂ (fun y z : EReal => y * z) ?_ ?_
  · exact weight_apply v5 k.val hk (k0_slabWord_eq2 k) r q
  · rfl

end Cert.KernelIdeal.Hand.AggPay0

end
-- ==== Proof.KI.Val0.lean ====
import proofs.«404972_j68066641707582_3_alg».proof.Proof.KI.R0
import proofs.«404972_j68066641707582_3_alg».proof.Proof.KI.Pay0
import proofs.«404972_j68066641707582_3_alg».proof.Proof.SpecK
import Idealize.ShloMosaic.Lib.Pipeline.Value

set_option maxRecDepth 16384

noncomputable section

open scoped BigOperators

namespace Cert.KernelIdeal.Hand.AggVal0

open Cert.KernelIdeal Cert.KernelIdeal.Gen Cert.KernelIdeal.Hand Cert.KernelIdeal.Hand.AggPay Cert.KernelIdeal.Hand.AggPay0
open Idealize.ShloMosaic Idealize.ShloMosaic.TcCoe Idealize.ShloMosaic.ValueIdx
open Idealize.SL Idealize.SL.Sem

variable {F : FTy → Type} [FloatOps F]

abbrev k0_slab1 (k : Fin k0_t1_loop.trips) : Rect S50176x128 := Rect.unit (s := S50176x128) (k0_off1 k) S1024x128.size (k0_off1_inb k)
abbrev k0_slab2 (k : Fin k0_t2_loop.trips) : Rect S50176x128 := Rect.unit (s := S50176x128) (k0_off2 k) S1024x128.size (k0_off2_inb k)

theorem k0_slab1_emb (k : Fin k0_t1_loop.trips) (q : Fin 1024) (d : Fin 128) :
    (k0_slab1 k).emb (ix2 q d) = rowIdx k.val q.val (lt_of_lt_of_eq k.isLt k0_trips1_eq) q.isLt d := by
  funext a; apply Fin.ext
  rw [Rect.emb_apply]
  match a with
  | ⟨0, _⟩ => show k0_off1 k 0 + 1 * q.val = 1024 * k.val + q.val; rw [k0_off1_eq]; show 1024 * k.val + 1 * q.val = _; omega
  | ⟨1, _⟩ => show k0_off1 k 1 + 1 * d.val = d.val; rw [k0_off1_eq]; show 0 + 1 * d.val = _; omega

theorem k0_slab2_emb (k : Fin k0_t2_loop.trips) (q : Fin 1024) (d : Fin 128) :
    (k0_slab2 k).emb (ix2 q d) = rowIdx k.val q.val (lt_of_lt_of_eq k.isLt k0_trips2_eq) q.isLt d := by
  funext a; apply Fin.ext
  rw [Rect.emb_apply]
  match a with
  | ⟨0, _⟩ => show k0_off2 k 0 + 1 * q.val = 1024 * k.val + q.val; rw [k0_off2_eq]; show 1024 * k.val + 1 * q.val = _; omega
  | ⟨1, _⟩ => show k0_off2 k 1 + 1 * d.val = d.val; rw [k0_off2_eq]; show 0 + 1 * d.val = _; omega

theorem k0_mem_slab2 (k : Fin k0_t2_loop.trips) (y : S50176x128.Idx) :
    y ∈ (k0_slab2 k).set ↔ 1024 * k.val ≤ (y 0).val ∧ (y 0).val < 1024 * k.val + 1024 := by
  rw [Rect.mem_set_unit, k0_off2_eq]
  constructor
  · intro h; exact h 0
  · intro h a
    match a with
    | ⟨0, _⟩ => exact h
    | ⟨1, _⟩ => exact ⟨Nat.zero_le _, by have h1 : (y 1).val < 128 := (y 1).isLt; show (y 1).val < 0 + 128; omega⟩

theorem k0_trip1_piece (𝒱 : Variants) (c : Dev nD) (bd : Option 𝒱.V) (i : grid0.Coords) (arg1 : Memref sig .tc .vmem S256x1 .i32) (harg1 : arg1.IsWhole) (arg2 : Memref sig .tc .vmem S256x1 .i32) (harg2 : arg2.IsWhole) (arg3 : Memref sig .tc .vmem S50176x128 .bf16) (harg3 : arg3.IsWhole) (arg4 : Memref sig .tc .vmem S50176x128 .f32) (harg4 : arg4.IsWhole) (arg5 : Memref sig .tc .vmem S256x128 .f32) (harg5 : arg5.IsWhole)
    (v3 : Vec F S256x1 .i32) (X3 : arg3.view.ty.Contents (Elt F)) (k : Fin k0_t1_loop.trips) (f5 : arg5.view.ty.Contents (Elt F)) :
    tripL_k0_t1 (F := F) 𝒱 c bd i arg1 harg1 arg2 harg2 arg3 harg3 arg4 harg4 arg5 harg5 v3 X3 k f5
      = [⟨rScr, k0_pay3 v3 k (arg3.view.readAt (Elt F) (k0_slab1 k).toLoadRect X3) (arg5.view.readAt (Elt F) rScr.toLoadRect f5)⟩] := by
  unfold tripL_k0_t1 trip_k0_t1
  rfl

theorem k0_trip2_piece (𝒱 : Variants) (c : Dev nD) (bd : Option 𝒱.V) (i : grid0.Coords) (arg1 : Memref sig .tc .vmem S256x1 .i32) (harg1 : arg1.IsWhole) (arg2 : Memref sig .tc .vmem S256x1 .i32) (harg2 : arg2.IsWhole) (arg3 : Memref sig .tc .vmem S50176x128 .bf16) (harg3 : arg3.IsWhole) (arg4 : Memref sig .tc .vmem S50176x128 .f32) (harg4 : arg4.IsWhole) (arg5 : Memref sig .tc .vmem S256x128 .f32) (harg5 : arg5.IsWhole)
    (v5 : Vec F S256x1 .i32) (v12 : Vec F S256x128 .f32) (k : Fin k0_t2_loop.trips) (f4 : arg4.view.ty.Contents (Elt F)) :
    tripL_k0_t2 (F := F) 𝒱 c bd i arg1 harg1 arg2 harg2 arg3 harg3 arg4 harg4 arg5 harg5 v5 v12 k f4
      = [⟨k0_slab2 k, k0_pay4 v5 v12 k (arg4.view.readAt (Elt F) (k0_slab2 k).toLoadRect f4)⟩] := by
  unfold tripL_k0_t2 trip_k0_t2
  rfl

def k0_scr (v3 : Vec F S256x1 .i32) (x2 : Vec F S50176x128 .bf16) : ℕ → Vec F S256x128 .f32
  | 0 => k0_pay2
  | k + 1 => if h : k < k0_t1_loop.trips then k0_pay3 v3 ⟨k, h⟩ (View.ld x2 (k0_slab1 ⟨k, h⟩)) (k0_scr v3 x2 k) else k0_scr v3 x2 k

theorem k0_scratch_after (𝒱 : Variants) (c : Dev nD) (bd : Option 𝒱.V) (i : grid0.Coords) (arg1 : Memref sig .tc .vmem S256x1 .i32) (harg1 : arg1.IsWhole) (arg2 : Memref sig .tc .vmem S256x1 .i32) (harg2 : arg2.IsWhole) (arg3 : Memref sig .tc .vmem S50176x128 .bf16) (harg3 : arg3.IsWhole) (arg4 : Memref sig .tc .vmem S50176x128 .f32) (harg4 : arg4.IsWhole) (arg5 : Memref sig .tc .vmem S256x128 .f32) (harg5 : arg5.IsWhole)
    (v3 : Vec F S256x1 .i32) (x2 : Vec F S50176x128 .bf16) (G5 : arg5.view.ty.Contents (Elt F))
    (hG : arg5.view.read (Elt F) G5 = k0_pay2) :
    ∀ k, k ≤ k0_t1_loop.trips →
      arg5.view.read (Elt F) (arg5.view.writes (Elt F) G5 (pb_k0_t1 (F := F) 𝒱 c bd i arg1 harg1 arg2 harg2 arg3 harg3 arg4 harg4 arg5 harg5 v3 (harg3.unread x2) G5 k)) = k0_scr v3 x2 k
  | 0, _ => by rw [pb_k0_t1.eq_1, View.writes_nil]; exact hG
  | k + 1, hk => by
    have h : k < k0_t1_loop.trips := hk
    have ih := k0_scratch_after 𝒱 c bd i arg1 harg1 arg2 harg2 arg3 harg3 arg4 harg4 arg5 harg5 v3 x2 G5 hG k (Nat.le_of_lt h)
    rw [show k + 1 = (⟨k, h⟩ : Fin k0_t1_loop.trips).val + 1 from rfl, pb_k0_t1_succ, k0_trip1_piece, List.singleton_append,
      read_writes_cons_whole _ _ hz2]
    show k0_pay3 v3 ⟨k, h⟩ _ _ = k0_scr v3 x2 (k + 1)
    rw [k0_scr, dif_pos h, View.readAt_eq_ld, View.readAt_eq_ld, harg3.read_unread, ih, View.ld_unit_zero hz2]

theorem k0_result_after (𝒱 : Variants) (c : Dev nD) (bd : Option 𝒱.V) (i : grid0.Coords) (arg1 : Memref sig .tc .vmem S256x1 .i32) (harg1 : arg1.IsWhole) (arg2 : Memref sig .tc .vmem S256x1 .i32) (harg2 : arg2.IsWhole) (arg3 : Memref sig .tc .vmem S50176x128 .bf16) (harg3 : arg3.IsWhole) (arg4 : Memref sig .tc .vmem S50176x128 .f32) (harg4 : arg4.IsWhole) (arg5 : Memref sig .tc .vmem S256x128 .f32) (harg5 : arg5.IsWhole)
    (v5 : Vec F S256x1 .i32) (v12 : Vec F S256x128 .f32) (G4 : arg4.view.ty.Contents (Elt F)) :
    ∀ m, m ≤ k0_t2_loop.trips →
      (∀ (k : Fin k0_t2_loop.trips) (q : Fin 1024) (d : Fin 128), k.val < m →
        arg4.view.read (Elt F) (arg4.view.writes (Elt F) G4 (pb_k0_t2 (F := F) 𝒱 c bd i arg1 harg1 arg2 harg2 arg3 harg3 arg4 harg4 arg5 harg5 v5 v12 G4 m)) ((k0_slab2 k).emb (ix2 q d))
          = k0_pay4 v5 v12 k (View.ld (arg4.view.read (Elt F) G4) (k0_slab2 k)) (ix2 q d))
      ∧ (∀ y : S50176x128.Idx, 1024 * m ≤ (y 0).val →
        arg4.view.read (Elt F) (arg4.view.writes (Elt F) G4 (pb_k0_t2 (F := F) 𝒱 c bd i arg1 harg1 arg2 harg2 arg3 harg3 arg4 harg4 arg5 harg5 v5 v12 G4 m)) y
          = arg4.view.read (Elt F) G4 y)
  | 0, _ => ⟨fun k _ _ hk => absurd hk (Nat.not_lt_zero _), fun y _ => by rw [pb_k0_t2.eq_1, View.writes_nil]⟩
  | m + 1, hm => by
    have h : m < k0_t2_loop.trips := hm
    have hN : k0_t2_loop.trips = 49 := k0_trips2_eq
    obtain ⟨iha, ihb⟩ := k0_result_after 𝒱 c bd i arg1 harg1 arg2 harg2 arg3 harg3 arg4 harg4 arg5 harg5 v5 v12 G4 m (Nat.le_of_lt h)
    have hpb : pb_k0_t2 (F := F) 𝒱 c bd i arg1 harg1 arg2 harg2 arg3 harg3 arg4 harg4 arg5 harg5 v5 v12 G4 (m + 1)
        = (⟨k0_slab2 ⟨m, h⟩, k0_pay4 v5 v12 ⟨m, h⟩ (arg4.view.readAt (Elt F) (k0_slab2 ⟨m, h⟩).toLoadRect
            (arg4.view.writes (Elt F) G4 (pb_k0_t2 (F := F) 𝒱 c bd i arg1 harg1 arg2 harg2 arg3 harg3 arg4 harg4 arg5 harg5 v5 v12 G4 m)))⟩ : View.Piece (Elt F) S50176x128 .f32)
          :: pb_k0_t2 (F := F) 𝒱 c bd i arg1 harg1 arg2 harg2 arg3 harg3 arg4 harg4 arg5 harg5 v5 v12 G4 m := by
      rw [show m + 1 = (⟨m, h⟩ : Fin k0_t2_loop.trips).val + 1 from rfl, pb_k0_t2_succ, k0_trip2_piece, List.singleton_append]
    have hld : arg4.view.readAt (Elt F) (k0_slab2 ⟨m, h⟩).toLoadRect (arg4.view.writes (Elt F) G4 (pb_k0_t2 (F := F) 𝒱 c bd i arg1 harg1 arg2 harg2 arg3 harg3 arg4 harg4 arg5 harg5 v5 v12 G4 m))
        = View.ld (arg4.view.read (Elt F) G4) (k0_slab2 ⟨m, h⟩) := by
      funext x
      rw [View.readAt_eq_ld]
      show arg4.view.read (Elt F) _ ((k0_slab2 ⟨m, h⟩).emb x) = arg4.view.read (Elt F) G4 ((k0_slab2 ⟨m, h⟩).emb x)
      refine ihb _ ?_
      have hx := ((k0_mem_slab2 ⟨m, h⟩ _).mp (by rw [← Rect.map_emb_univ]; exact Finset.mem_map_of_mem _ (Finset.mem_univ x))).1
      exact hx
    refine ⟨fun k q d hk => ?_, fun y hy => ?_⟩
    · rw [hpb]
      by_cases hkm : k.val = m
      · obtain rfl : k = ⟨m, h⟩ := Fin.ext hkm
        rw [View.read_writes_cons_emb, hld]
      · have hk' : k.val < m := by omega
        have hnot : (k0_slab2 k).emb (ix2 q d) ∉ Finset.univ.map (k0_slab2 ⟨m, h⟩).emb := by
          rw [Rect.map_emb_univ, k0_mem_slab2]
          have hx := ((k0_mem_slab2 k _).mp (by rw [← Rect.map_emb_univ]; exact Finset.mem_map_of_mem _ (Finset.mem_univ (ix2 q d)))).2
          intro hh
          have h1 : 1024 * m ≤ ((k0_slab2 k).emb (ix2 q d) 0).val := hh.1
          omega
        rw [View.writes_cons, View.read_slice_write_of_not_mem _ _ _ _ hnot]
        exact iha k q d hk'
    · rw [hpb]
      have hnot : y ∉ Finset.univ.map (k0_slab2 ⟨m, h⟩).emb := by
        rw [Rect.map_emb_univ, k0_mem_slab2]
        intro hh
        have h2 : (y 0).val < 1024 * m + 1024 := hh.2
        omega
      rw [View.writes_cons, View.read_slice_write_of_not_mem _ _ _ _ hnot]
      exact ihb y (by omega)

theorem k0_scratch_read (c : Dev nD) (i : grid0.Coords) (arg1 : Memref sig .tc .vmem S256x1 .i32) (harg1 : arg1.IsWhole) (arg2 : Memref sig .tc .vmem S256x1 .i32) (harg2 : arg2.IsWhole) (arg3 : Memref sig .tc .vmem S50176x128 .bf16) (harg3 : arg3.IsWhole) (arg4 : Memref sig .tc .vmem S50176x128 .f32) (harg4 : arg4.IsWhole) (arg5 : Memref sig .tc .vmem S256x128 .f32) (harg5 : arg5.IsWhole)
    (x0 : Vec F S256x1 .i32) (x2 : Vec F S50176x128 .bf16) :
    arg5.view.readAt (Elt F) rScr.toLoadRect
        (arg5.view.writes (Elt F) arg5.view.junk
          (pb_k0_t1 (F := F) Variants.none c none i arg1 harg1 arg2 harg2 arg3 harg3 arg4 harg4 arg5 harg5 (arg1.view.readAt (Elt F) rIdx.toLoadRect (harg1.unread x0)) (harg3.unread x2)
            (arg5.view.writes (Elt F) arg5.view.junk [⟨rScr, k0_pay2⟩]) k0_t1_loop.trips ++ [⟨rScr, k0_pay2⟩]))
      = k0_scr x0 x2 k0_t1_loop.trips := by
  have e0 : arg1.view.readAt (Elt F) rIdx.toLoadRect (harg1.unread x0) = x0 := by
    rw [View.readAt_eq_ld, harg1.read_unread, View.ld_unit_zero hz2]
  have eG : arg5.view.read (Elt F) (arg5.view.writes (Elt F) arg5.view.junk [⟨rScr, k0_pay2⟩]) = k0_pay2 :=
    read_writes_cons_whole _ _ hz2 _ _ _
  rw [View.writes_append, View.readAt_eq_ld, e0, k0_scratch_after Variants.none c none i arg1 harg1 arg2 harg2 arg3 harg3 arg4 harg4 arg5 harg5 x0 x2 _ eG _ le_rfl, View.ld_unit_zero hz2]

theorem run0_B_find (c : Dev nD) (i : grid0.Coords) (arg1 : Memref sig .tc .vmem S256x1 .i32) (harg1 : arg1.IsWhole) (arg2 : Memref sig .tc .vmem S256x1 .i32) (harg2 : arg2.IsWhole) (arg3 : Memref sig .tc .vmem S50176x128 .bf16) (harg3 : arg3.IsWhole) (arg4 : Memref sig .tc .vmem S50176x128 .f32) (harg4 : arg4.IsWhole) (arg5 : Memref sig .tc .vmem S256x128 .f32) (harg5 : arg5.IsWhole) (hc : ¬cond0 i)
    (x0 x1 : Vec F S256x1 .i32) (x2 : Vec F S50176x128 .bf16) (o : Vec F S50176x128 .f32) :
    (run0_B c i arg1 harg1 arg2 harg2 arg3 harg3 arg4 harg4 arg5 harg5 hc x0 x1 x2 o).1
      = arg4.view.writes (Elt F) (harg4.unread o)
          (pb_k0_t2 (F := F) Variants.none c none i arg1 harg1 arg2 harg2 arg3 harg3 arg4 harg4 arg5 harg5 (arg2.view.readAt (Elt F) rIdx.toLoadRect (harg2.unread x1))
            (arg5.view.readAt (Elt F) rScr.toLoadRect
              (arg5.view.writes (Elt F) arg5.view.junk
                (pb_k0_t1 (F := F) Variants.none c none i arg1 harg1 arg2 harg2 arg3 harg3 arg4 harg4 arg5 harg5 (arg1.view.readAt (Elt F) rIdx.toLoadRect (harg1.unread x0)) (harg3.unread x2)
                  (arg5.view.writes (Elt F) arg5.view.junk [⟨rScr, k0_pay2⟩]) k0_t1_loop.trips ++ [⟨rScr, k0_pay2⟩])))
            (harg4.unread o) k0_t2_loop.trips) := by
  unfold run0_B
  rfl

theorem run0_A_find (c : Dev nD) (i : grid0.Coords) (arg1 : Memref sig .tc .vmem S256x1 .i32) (harg1 : arg1.IsWhole) (arg2 : Memref sig .tc .vmem S256x1 .i32) (harg2 : arg2.IsWhole) (arg3 : Memref sig .tc .vmem S50176x128 .bf16) (harg3 : arg3.IsWhole) (arg4 : Memref sig .tc .vmem S50176x128 .f32) (harg4 : arg4.IsWhole) (arg5 : Memref sig .tc .vmem S256x128 .f32) (harg5 : arg5.IsWhole) (hc : cond0 i)
    (x0 x1 : Vec F S256x1 .i32) (x2 : Vec F S50176x128 .bf16) :
    (run0_A c i arg1 harg1 arg2 harg2 arg3 harg3 arg4 harg4 arg5 harg5 hc x0 x1 x2).1
      = arg4.view.writes (Elt F) arg4.view.junk
          (pb_k0_t2 (F := F) Variants.none c none i arg1 harg1 arg2 harg2 arg3 harg3 arg4 harg4 arg5 harg5 (arg2.view.readAt (Elt F) rIdx.toLoadRect (harg2.unread x1))
            (arg5.view.readAt (Elt F) rScr.toLoadRect
              (arg5.view.writes (Elt F) arg5.view.junk
                (pb_k0_t1 (F := F) Variants.none c none i arg1 harg1 arg2 harg2 arg3 harg3 arg4 harg4 arg5 harg5 (arg1.view.readAt (Elt F) rIdx.toLoadRect (harg1.unread x0)) (harg3.unread x2)
                  (arg5.view.writes (Elt F) arg5.view.junk [⟨rScr, k0_pay2⟩]) k0_t1_loop.trips ++ [⟨rScr, k0_pay2⟩])))
            (arg4.view.writes (Elt F) arg4.view.junk [⟨rRes, k0_pay1⟩]) k0_t2_loop.trips ++ [⟨rRes, k0_pay1⟩]) := by
  unfold run0_A
  rfl

theorem run0_B_entry (c : Dev nD) (i : grid0.Coords) (arg1 : Memref sig .tc .vmem S256x1 .i32) (harg1 : arg1.IsWhole) (arg2 : Memref sig .tc .vmem S256x1 .i32) (harg2 : arg2.IsWhole) (arg3 : Memref sig .tc .vmem S50176x128 .bf16) (harg3 : arg3.IsWhole) (arg4 : Memref sig .tc .vmem S50176x128 .f32) (harg4 : arg4.IsWhole) (arg5 : Memref sig .tc .vmem S256x128 .f32) (harg5 : arg5.IsWhole) (hc : ¬cond0 i)
    (x0 x1 : Vec F S256x1 .i32) (x2 : Vec F S50176x128 .bf16) (o : Vec F S50176x128 .f32)
    (k : Fin k0_t2_loop.trips) (q : Fin 1024) (d : Fin 128) :
    arg4.view.read (Elt F) (run0_B c i arg1 harg1 arg2 harg2 arg3 harg3 arg4 harg4 arg5 harg5 hc x0 x1 x2 o).1 ((k0_slab2 k).emb (ix2 q d))
      = k0_pay4 x1 (k0_scr x0 x2 k0_t1_loop.trips) k (View.ld o (k0_slab2 k)) (ix2 q d) := by
  have e1 : arg2.view.readAt (Elt F) rIdx.toLoadRect (harg2.unread x1) = x1 := by
    rw [View.readAt_eq_ld, harg2.read_unread, View.ld_unit_zero hz2]
  rw [run0_B_find, k0_scratch_read, e1]
  refine ((k0_result_after Variants.none c none i arg1 harg1 arg2 harg2 arg3 harg3 arg4 harg4 arg5 harg5 x1 _ _ k0_t2_loop.trips le_rfl).1 k q d k.isLt).trans ?_
  rw [harg4.read_unread]

theorem run0_A_entry (c : Dev nD) (i : grid0.Coords) (arg1 : Memref sig .tc .vmem S256x1 .i32) (harg1 : arg1.IsWhole) (arg2 : Memref sig .tc .vmem S256x1 .i32) (harg2 : arg2.IsWhole) (arg3 : Memref sig .tc .vmem S50176x128 .bf16) (harg3 : arg3.IsWhole) (arg4 : Memref sig .tc .vmem S50176x128 .f32) (harg4 : arg4.IsWhole) (arg5 : Memref sig .tc .vmem S256x128 .f32) (harg5 : arg5.IsWhole) (hc : cond0 i)
    (x0 x1 : Vec F S256x1 .i32) (x2 : Vec F S50176x128 .bf16)
    (k : Fin k0_t2_loop.trips) (q : Fin 1024) (d : Fin 128) :
    arg4.view.read (Elt F) (run0_A c i arg1 harg1 arg2 harg2 arg3 harg3 arg4 harg4 arg5 harg5 hc x0 x1 x2).1 ((k0_slab2 k).emb (ix2 q d))
      = k0_pay4 x1 (k0_scr x0 x2 k0_t1_loop.trips) k (View.ld (k0_pay1 (F := F)) (k0_slab2 k)) (ix2 q d) := by
  have e1 : arg2.view.readAt (Elt F) rIdx.toLoadRect (harg2.unread x1) = x1 := by
    rw [View.readAt_eq_ld, harg2.read_unread, View.ld_unit_zero hz2]
  have eG : arg4.view.read (Elt F) (arg4.view.writes (Elt F) arg4.view.junk [⟨rRes, k0_pay1⟩]) = k0_pay1 :=
    read_writes_cons_whole _ _ hz2 _ _ _
  rw [run0_A_find, k0_scratch_read, e1, View.writes_append]
  refine ((k0_result_after Variants.none c none i arg1 harg1 arg2 harg2 arg3 harg3 arg4 harg4 arg5 harg5 x1 _ _ k0_t2_loop.trips le_rfl).1 k q d k.isLt).trans ?_
  rw [eG]

theorem k0_scr_apply (v3 : Vec Ideal S256x1 .i32) (x2 : Vec Ideal S50176x128 .bf16) (r : Fin 256) (d : Fin 128) :
    ∀ k, k ≤ k0_t1_loop.trips →
      (k0_scr (F := Ideal) v3 x2 k (ix2 r d) : EReal) = ∑ j ∈ Finset.range k, slabSum (v3 (ix2 r (0 : Fin 1))) x2 d j
  | 0, _ => by
    rw [Finset.sum_range_zero]
    show (k0_pay2 (F := Ideal) (ix2 r d) : EReal) = 0
    unfold k0_pay2
    simp only [shapeCast_self]
    exact Ideal.ofBits_zero_f32
  | k + 1, hk => by
    have h : k < k0_t1_loop.trips := hk
    have h49 : k < 49 := lt_of_lt_of_eq h k0_trips1_eq
    rw [Finset.sum_range_succ, ← k0_scr_apply v3 x2 r d k (Nat.le_of_lt h)]
    rw [k0_scr, dif_pos h, k0_pay3_apply]
    refine congrArg (fun z : EReal => (k0_scr (F := Ideal) v3 x2 k (ix2 r d) : EReal) + z) ?_
    unfold slabSum
    rw [dif_pos h49]
    refine Finset.sum_congr rfl fun q _ => ?_
    have e : (View.ld x2 (k0_slab1 ⟨k, h⟩) (ix2 q d) : EReal) = x2 (ix2 (Cert.SpecK.rowAt ⟨k, h49⟩ q) d) :=
      congrArg x2 (k0_slab1_emb ⟨k, h⟩ q d)
    rw [e]
    rfl

theorem k0_scr_eq_picked (v3 : Vec Ideal S256x1 .i32) (x2 : Vec Ideal S50176x128 .bf16) (r : Fin 256) (d : Fin 128) :
    (k0_scr (F := Ideal) v3 x2 k0_t1_loop.trips (ix2 r d) : EReal) = Cert.SpecK.picked (v3 (ix2 r (0 : Fin 1))) x2 d := by
  rw [k0_scr_apply v3 x2 r d _ le_rfl, k0_trips1_eq, Finset.sum_range]
  unfold Cert.SpecK.picked
  refine Finset.sum_congr rfl fun j _ => ?_
  unfold slabSum
  rw [dif_pos j.isLt]

theorem k0_entry_of_slabs (x0 x1 : Vec Ideal S256x1 .i32) (x2 : Vec Ideal S50176x128 .bf16) (o R : Vec Ideal S50176x128 .f32)
    (hR : ∀ (k : Fin k0_t2_loop.trips) (q : Fin 1024) (d : Fin 128),
      R ((k0_slab2 k).emb (ix2 q d)) = k0_pay4 (F := Ideal) x1 (k0_scr x0 x2 k0_t1_loop.trips) k (View.ld o (k0_slab2 k)) (ix2 q d))
    (n : Fin 50176) (d : Fin 128) :
    (R (ix2 n d) : EReal) = o (ix2 n d)
      + ∑ r : Fin 256, (if BitVec.toNat (x1 (ix2 r (0 : Fin 1))) = n.val then Cert.Spec.one else 0) * Cert.SpecK.picked (x0 (ix2 r (0 : Fin 1))) x2 d := by
  obtain ⟨k, q, hkq⟩ : ∃ (k : Fin k0_t2_loop.trips) (q : Fin 1024), 1024 * k.val + q.val = n.val :=
    ⟨⟨n.val / 1024, by rw [k0_trips2_eq]; have := n.isLt; omega⟩, ⟨n.val % 1024, Nat.mod_lt _ (by decide)⟩, Nat.div_add_mod _ _⟩
  have hy : (k0_slab2 k).emb (ix2 q d) = ix2 n d := by
    rw [k0_slab2_emb]; unfold rowIdx
    exact congrArg (fun a : Fin 50176 => ix2 a d) (Fin.ext hkq)
  have h := hR k q d
  rw [hy, k0_pay4_apply] at h
  rw [h]
  refine congrArg₂ (fun a b : EReal => a + b) (congrArg o hy) (Finset.sum_congr rfl fun r _ => ?_)
  rw [hkq, k0_scr_eq_picked]

theorem k0_pay1_apply (y : S50176x128.Idx) : (k0_pay1 (F := Ideal) y : EReal) = 0 := by
  unfold k0_pay1
  exact Ideal.ofBits_zero_f32

end Cert.KernelIdeal.Hand.AggVal0

namespace Cert.KernelIdeal.Hand

open Cert.KernelIdeal Cert.KernelIdeal.Gen Cert.KernelIdeal.Hand.AggPay Cert.KernelIdeal.Hand.AggPay0 Cert.KernelIdeal.Hand.AggVal0
open Idealize.ShloMosaic Idealize.ShloMosaic.TcCoe Idealize.ShloMosaic.ValueIdx
open Idealize.SL Idealize.SL.Sem

section Points

variable (V : (c : Dev nD) → (b : Ref sig .tc) → Buf (Elt Ideal) ((c : Thread nD τ).loc b))

theorem outB0_apply (c : Dev nD) (t : Fin cfg0.N) (h0 : t.val ≠ 0) (o : Vec Ideal S50176x128 .f32) (n : Fin 50176) (d : Fin 128) :
    (outB0 (F := Ideal) V c t h0 o (ix2 n d) : EReal) = o (ix2 n d)
      + ∑ r : Fin 256, (if BitVec.toNat ((iblk0 V c 1 t : Vec Ideal S256x1 .i32) (ix2 r (0 : Fin 1))) = n.val then Cert.Spec.one else 0)
          * Cert.SpecK.picked ((iblk0 V c 0 t : Vec Ideal S256x1 .i32) (ix2 r (0 : Fin 1))) (iblk0 V c 2 t : Vec Ideal S50176x128 .bf16) d := by
  unfold outB0
  exact k0_entry_of_slabs (iblk0 V c 0 t) (iblk0 V c 1 t) (iblk0 V c 2 t) o
    ((m0_3 t).view.read (Elt Ideal) (run0_B c (grid0.coords t) (m0_0 t) (hm0_0 t) (m0_1 t) (hm0_1 t) (m0_2 t) (hm0_2 t) (m0_3 t) (hm0_3 t) m0_s hm0_s (fun h => h0 ((hcond0 t).mp h))
      (iblk0 V c 0 t) (iblk0 V c 1 t) (iblk0 V c 2 t) o).1)
    (fun k q d => run0_B_entry c (grid0.coords t) (m0_0 t) (hm0_0 t) (m0_1 t) (hm0_1 t) (m0_2 t) (hm0_2 t) (m0_3 t) (hm0_3 t) m0_s hm0_s
      (fun h => h0 ((hcond0 t).mp h)) (iblk0 V c 0 t) (iblk0 V c 1 t) (iblk0 V c 2 t) o k q d) n d

theorem outA0_apply (c : Dev nD) (t : Fin cfg0.N) (h0 : t.val = 0) (n : Fin 50176) (d : Fin 128) :
    (outA0 (F := Ideal) V c t h0 (ix2 n d) : EReal)
      = ∑ r : Fin 256, (if BitVec.toNat ((iblk0 V c 1 t : Vec Ideal S256x1 .i32) (ix2 r (0 : Fin 1))) = n.val then Cert.Spec.one else 0)
          * Cert.SpecK.picked ((iblk0 V c 0 t : Vec Ideal S256x1 .i32) (ix2 r (0 : Fin 1))) (iblk0 V c 2 t : Vec Ideal S50176x128 .bf16) d := by
  unfold outA0
  refine (k0_entry_of_slabs (iblk0 V c 0 t) (iblk0 V c 1 t) (iblk0 V c 2 t) (k0_pay1 (F := Ideal))
    ((m0_3 t).view.read (Elt Ideal) (run0_A c (grid0.coords t) (m0_0 t) (hm0_0 t) (m0_1 t) (hm0_1 t) (m0_2 t) (hm0_2 t) (m0_3 t) (hm0_3 t) m0_s hm0_s ((hcond0 t).mpr h0)
      (iblk0 V c 0 t) (iblk0 V c 1 t) (iblk0 V c 2 t)).1)
    (fun k q d => run0_A_entry c (grid0.coords t) (m0_0 t) (hm0_0 t) (m0_1 t) (hm0_1 t) (m0_2 t) (hm0_2 t) (m0_3 t) (hm0_3 t) m0_s hm0_s
      ((hcond0 t).mpr h0) (iblk0 V c 0 t) (iblk0 V c 1 t) (iblk0 V c 2 t) k q d) n d).trans ?_
  rw [k0_pay1_apply, zero_add]

end Points

end Cert.KernelIdeal.Hand

end
-- ==== Proof.KI.Out0.lean ====
import proofs.«404972_j68066641707582_3_alg».proof.Proof.KI.R0
import proofs.«404972_j68066641707582_3_alg».proof.Proof.KI.Val0
import proofs.«404972_j68066641707582_3_alg».proof.Proof.SpecK
import Idealize.ShloMosaic.Lib.ValueIdx
import Idealize.ShloMosaic.Lib.Pipeline.Value
import Mathlib.Algebra.BigOperators.Group.Finset.Basic
import Mathlib.Algebra.BigOperators.Fin

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

variable (V : (c : Dev nD) → (b : Ref sig .tc) → Buf (Elt Ideal) ((c : Thread nD τ).loc b))

def term0 (c : Dev nD) (t : Fin cfg0.N) (n : Fin 50176) (d : Fin 128) : EReal :=
  ∑ r : Fin 256, (if BitVec.toNat (iblk0 V c 1 t (ix2 r (0 : Fin 1))) = n.val then Cert.Spec.one else 0)
    * Cert.SpecK.picked (iblk0 V c 0 t (ix2 r (0 : Fin 1))) (iblk0 V c 2 t) d

def termN0 (c : Dev nD) (n : Fin 50176) (d : Fin 128) (s : ℕ) : EReal :=
  if h : s < cfg0.N then term0 V c ⟨s, h⟩ n d else 0

theorem outAt0_apply (c : Dev nD) (n : Fin 50176) (d : Fin 128) : ∀ (k : ℕ) (hk : k < cfg0.N),
    outAt0 (F := Ideal) V c k hk (ix2 n d) = ∑ s ∈ Finset.range (k + 1), termN0 V c n d s
  | 0, hk => by
    rw [Finset.sum_range_one, termN0, dif_pos hk]
    exact (congrFun (outAt0_zero V c ⟨0, hk⟩ rfl) (ix2 n d)).trans (outA0_apply V c ⟨0, hk⟩ rfl n d)
  | k + 1, hk => by
    rw [Finset.sum_range_succ, ← outAt0_apply c n d k (Nat.lt_of_succ_lt hk), termN0, dif_pos hk]
    exact (congrFun (outAt0_pos V c ⟨k + 1, hk⟩ (Nat.succ_ne_zero k)) (ix2 n d)).trans
      (outB0_apply V c ⟨k + 1, hk⟩ (Nat.succ_ne_zero k) _ n d)

theorem index0_0 : ∀ t : Fin cfg0.N, win0_0.index t 0 = t.val ∧ win0_0.index t 1 = 0 :=
  (by decide +kernel : ∀ t : Fin grid0.N, win0_0.index t 0 = t.val ∧ win0_0.index t 1 = 0)
theorem index0_1 : ∀ t : Fin cfg0.N, win0_1.index t 0 = t.val ∧ win0_1.index t 1 = 0 :=
  (by decide +kernel : ∀ t : Fin grid0.N, win0_1.index t 0 = t.val ∧ win0_1.index t 1 = 0)
theorem index0_2 : ∀ t : Fin cfg0.N, win0_2.index t 0 = 0 ∧ win0_2.index t 1 = 0 :=
  (by decide +kernel : ∀ t : Fin grid0.N, win0_2.index t 0 = 0 ∧ win0_2.index t 1 = 0)
theorem index0_3 : ∀ t : Fin cfg0.N, win0_3.index t 0 = 0 ∧ win0_3.index t 1 = 0 :=
  (by decide +kernel : ∀ t : Fin grid0.N, win0_3.index t 0 = 0 ∧ win0_3.index t 1 = 0)

theorem iblk0_0_apply (c : Dev nD) (T : Fin 2344) (h : T.val < cfg0.N) (r : Fin 256) :
    iblk0 V c 0 ⟨T.val, h⟩ (ix2 r (0 : Fin 1)) = V c main_v2 (ix2 (Cert.SpecK.edgeAt T r) (0 : Fin 1)) := by
  have h0 : win0_0.index ⟨T.val, h⟩ 0 = T.val := (index0_0 ⟨T.val, h⟩).1
  have h1 : win0_0.index ⟨T.val, h⟩ 1 = 0 := (index0_0 ⟨T.val, h⟩).2
  unfold iblk0
  rw [View.read_apply]
  show V c main_v2 _ = V c main_v2 _
  congr 1
  funext a
  apply Fin.ext
  match a with
  | ⟨0, _⟩ => show win0_0.index ⟨T.val, h⟩ 0 * 256 + 1 * r.val = 256 * T.val + r.val; rw [h0]; omega
  | ⟨1, _⟩ => show win0_0.index ⟨T.val, h⟩ 1 * 1 + 1 * 0 = 0; rw [h1]

theorem iblk0_1_apply (c : Dev nD) (T : Fin 2344) (h : T.val < cfg0.N) (r : Fin 256) :
    iblk0 V c 1 ⟨T.val, h⟩ (ix2 r (0 : Fin 1)) = V c main_v5 (ix2 (Cert.SpecK.edgeAt T r) (0 : Fin 1)) := by
  have h0 : win0_1.index ⟨T.val, h⟩ 0 = T.val := (index0_1 ⟨T.val, h⟩).1
  have h1 : win0_1.index ⟨T.val, h⟩ 1 = 0 := (index0_1 ⟨T.val, h⟩).2
  unfold iblk0
  rw [View.read_apply]
  show V c main_v5 _ = V c main_v5 _
  congr 1
  funext a
  apply Fin.ext
  match a with
  | ⟨0, _⟩ => show win0_1.index ⟨T.val, h⟩ 0 * 256 + 1 * r.val = 256 * T.val + r.val; rw [h0]; omega
  | ⟨1, _⟩ => show win0_1.index ⟨T.val, h⟩ 1 * 1 + 1 * 0 = 0; rw [h1]

theorem iblk0_2_eq (c : Dev nD) (t : Fin cfg0.N) : iblk0 V c 2 t = V c main_v14 := by
  have hz : (fun a => win0_2.index t a * main_v14.ty.shape.size a) = fun _ => 0 := funext fun a => by
    match a with
    | ⟨0, _⟩ => show win0_2.index t 0 * _ = 0; rw [(index0_2 t).1, Nat.zero_mul]
    | ⟨1, _⟩ => show win0_2.index t 1 * _ = 0; rw [(index0_2 t).2, Nat.zero_mul]
  exact Memref.read_access_unit_zero (Elt Ideal) main_v14 hz (fun a => by rw [congrFun hz a]; simp) (V c main_v14)

theorem term0_eq (c : Dev nD) (T : Fin 2344) (h : T.val < cfg0.N) (n : Fin 50176) (d : Fin 128) :
    term0 V c ⟨T.val, h⟩ n d = ∑ r : Fin 256,
      (if (V c main_v5 (ix2 (Cert.SpecK.edgeAt T r) (0 : Fin 1))).toNat = n.val then Cert.Spec.one else 0)
        * Cert.SpecK.picked (V c main_v2 (ix2 (Cert.SpecK.edgeAt T r) (0 : Fin 1))) (V c main_v14) d := by
  unfold term0
  refine Finset.sum_congr rfl fun r _ => ?_
  rw [iblk0_0_apply, iblk0_1_apply, iblk0_2_eq]

theorem last0 : 2343 < cfg0.N := lt_of_lt_of_eq (by decide : 2343 < 2344) (show cfg0.N = 2344 from N_0).symm

theorem flushed0_3_eq (c : Dev nD) (t : Fin cfg0.N) (hf : (cfg0.win 3).flush t = true) :
    (dat0 V c).flushed 3 t = ((cfg0.win 3).blk t).view.read (Elt Ideal) (outAt0 V c 2343 last0) := by
  have hN : t.val < 2344 := lt_of_lt_of_eq t.isLt (show cfg0.N = 2344 from N_0)
  have h3 : t.val = 2343 := by have := (flush0_3 t).mp hf; omega
  obtain rfl : t = ⟨2343, last0⟩ := Fin.ext h3
  show (cfg0.win 3).cut (grid0.coords ⟨2343, last0⟩) ((dat0 V c).after 3 ⟨2343, last0⟩) = _
  rw [after0_3]
  have hz : (fun a => win0_3.index ⟨2343, last0⟩ a * main_v15.ty.shape.size a) = fun _ => 0 := funext fun a => by
    match a with
    | ⟨0, _⟩ => show win0_3.index ⟨2343, last0⟩ 0 * _ = 0; rw [(index0_3 _).1, Nat.zero_mul]
    | ⟨1, _⟩ => show win0_3.index ⟨2343, last0⟩ 1 * _ = 0; rw [(index0_3 _).2, Nat.zero_mul]
  exact (Memref.read_access_unit_zero (Elt Ideal) main_v15 hz (fun a => by rw [congrFun hz a]; simp) (outAt0 V c 2343 last0)).symm

theorem arrAt0_3 (c : Dev nD) : (dat0 V c).arrAt 3 cfg0.N = outAt0 V c 2343 last0 :=
  (dat0 V c).arrAt_eq_of_cover 3 (outAt0 V c 2343 last0) (flushed0_3_eq V c) fun i =>
    ⟨⟨2343, last0⟩, (flush0_3 ⟨2343, last0⟩).mpr rfl, by
      show i ∈ ((View.whole main_v15).slice (win0_3.rect ⟨2343, last0⟩)).set
      rw [View.set_slice_whole, Rect.mem_set_unit]
      intro a
      have h0 : (i 0 : Nat) < 50176 := (i 0).isLt
      have h1 : (i 1 : Nat) < 128 := (i 1).isLt
      match a with
      | ⟨0, _⟩ =>
        show win0_3.index ⟨2343, last0⟩ 0 * 50176 ≤ (i 0 : Nat) ∧ (i 0 : Nat) < win0_3.index ⟨2343, last0⟩ 0 * 50176 + 50176
        rw [(index0_3 _).1]; omega
      | ⟨1, _⟩ =>
        show win0_3.index ⟨2343, last0⟩ 1 * 128 ≤ (i 1 : Nat) ∧ (i 1 : Nat) < win0_3.index ⟨2343, last0⟩ 1 * 128 + 128
        rw [(index0_3 _).2]; omega⟩

theorem arrAt0_out (c : Dev nD) (n : Fin 50176) (d : Fin 128) :
    ((dat0 (F := Ideal) V c).arrAt 3 cfg0.N : S50176x128.Idx → EReal) (ix2 n d)
      = Cert.SpecK.aggOut (V c main_v2) (V c main_v5) (V c main_v14) n d := by
  show @Eq EReal _ _
  rw [arrAt0_3, outAt0_apply, Finset.sum_range]
  unfold Cert.SpecK.aggOut
  refine Finset.sum_congr rfl fun T _ => ?_
  have h : T.val < cfg0.N := lt_of_lt_of_eq T.isLt (show cfg0.N = 2344 from N_0).symm
  rw [termN0, dif_pos h, term0_eq]

end Cert.KernelIdeal.Hand

end
-- ==== Proof.KI.Val2.lean ====
import proofs.«404972_j68066641707582_3_alg».proof.Proof.KI.R2
import proofs.«404972_j68066641707582_3_alg».proof.Proof.KI.Val0

set_option maxRecDepth 16384

noncomputable section

open scoped BigOperators

namespace Cert.KernelIdeal.Hand

open Cert.KernelIdeal Cert.KernelIdeal.Gen Cert.KernelIdeal.Hand.AggPay Cert.KernelIdeal.Hand.AggPay0 Cert.KernelIdeal.Hand.AggVal0
open Idealize.ShloMosaic Idealize.ShloMosaic.TcCoe Idealize.ShloMosaic.ValueIdx
open Idealize.SL Idealize.SL.Sem

section Points

variable (V : (c : Dev nD) → (b : Ref sig .tc) → Buf (Elt Ideal) ((c : Thread nD τ).loc b))

theorem outB2_apply (c : Dev nD) (t : Fin cfg2.N) (h0 : t.val ≠ 0) (o : Vec Ideal S50176x128 .f32) (n : Fin 50176) (d : Fin 128) :
    (outB2 (F := Ideal) V c t h0 o (ix2 n d) : EReal) = o (ix2 n d)
      + ∑ r : Fin 256, (if BitVec.toNat ((iblk2 V c 1 t : Vec Ideal S256x1 .i32) (ix2 r (0 : Fin 1))) = n.val then Cert.Spec.one else 0)
          * Cert.SpecK.picked ((iblk2 V c 0 t : Vec Ideal S256x1 .i32) (ix2 r (0 : Fin 1))) (iblk2 V c 2 t : Vec Ideal S50176x128 .bf16) d := by
  unfold outB2
  exact k0_entry_of_slabs (iblk2 V c 0 t) (iblk2 V c 1 t) (iblk2 V c 2 t) o
    ((m2_3 t).view.read (Elt Ideal) (run0_B c (grid2.coords t) (m2_0 t) (hm2_0 t) (m2_1 t) (hm2_1 t) (m2_2 t) (hm2_2 t) (m2_3 t) (hm2_3 t) m2_s hm2_s (fun h => h0 ((hcond2 t).mp h))
      (iblk2 V c 0 t) (iblk2 V c 1 t) (iblk2 V c 2 t) o).1)
    (fun k q d => run0_B_entry c (grid2.coords t) (m2_0 t) (hm2_0 t) (m2_1 t) (hm2_1 t) (m2_2 t) (hm2_2 t) (m2_3 t) (hm2_3 t) m2_s hm2_s
      (fun h => h0 ((hcond2 t).mp h)) (iblk2 V c 0 t) (iblk2 V c 1 t) (iblk2 V c 2 t) o k q d) n d

theorem outA2_apply (c : Dev nD) (t : Fin cfg2.N) (h0 : t.val = 0) (n : Fin 50176) (d : Fin 128) :
    (outA2 (F := Ideal) V c t h0 (ix2 n d) : EReal)
      = ∑ r : Fin 256, (if BitVec.toNat ((iblk2 V c 1 t : Vec Ideal S256x1 .i32) (ix2 r (0 : Fin 1))) = n.val then Cert.Spec.one else 0)
          * Cert.SpecK.picked ((iblk2 V c 0 t : Vec Ideal S256x1 .i32) (ix2 r (0 : Fin 1))) (iblk2 V c 2 t : Vec Ideal S50176x128 .bf16) d := by
  unfold outA2
  refine (k0_entry_of_slabs (iblk2 V c 0 t) (iblk2 V c 1 t) (iblk2 V c 2 t) (k0_pay1 (F := Ideal))
    ((m2_3 t).view.read (Elt Ideal) (run0_A c (grid2.coords t) (m2_0 t) (hm2_0 t) (m2_1 t) (hm2_1 t) (m2_2 t) (hm2_2 t) (m2_3 t) (hm2_3 t) m2_s hm2_s ((hcond2 t).mpr h0)
      (iblk2 V c 0 t) (iblk2 V c 1 t) (iblk2 V c 2 t)).1)
    (fun k q d => run0_A_entry c (grid2.coords t) (m2_0 t) (hm2_0 t) (m2_1 t) (hm2_1 t) (m2_2 t) (hm2_2 t) (m2_3 t) (hm2_3 t) m2_s hm2_s
      ((hcond2 t).mpr h0) (iblk2 V c 0 t) (iblk2 V c 1 t) (iblk2 V c 2 t) k q d) n d).trans ?_
  rw [k0_pay1_apply, zero_add]

end Points

end Cert.KernelIdeal.Hand

end
-- ==== Proof.KI.Out2.lean ====
import proofs.«404972_j68066641707582_3_alg».proof.Proof.KI.R2
import proofs.«404972_j68066641707582_3_alg».proof.Proof.KI.Val2
import proofs.«404972_j68066641707582_3_alg».proof.Proof.SpecK
import Idealize.ShloMosaic.Lib.ValueIdx
import Idealize.ShloMosaic.Lib.Pipeline.Value
import Mathlib.Algebra.BigOperators.Group.Finset.Basic
import Mathlib.Algebra.BigOperators.Fin

/-!
Region 2's output array, whole, at the ideal instance.

The region sweeps the 600064 padded edges in 2344 blocks of 256. Its result buffer is zeroed at the first block and
carried from block to block; block `t` adds to row `n`, column `d` the sum over its 256 edges of one or zero (the
edge's destination word names row `n` or not) times the table row the edge's source word picks. So after block `k`
the buffer holds the sum of the addends of blocks 0 to `k` (induction on the block; only the order in which the
addends are added is used), the buffer is written back once, after the last block, and that write covers the whole
array. Reading each block's words and the table in the arrays themselves (block `t` of an index column starts at
row `256·t`; the table's one block is the table) gives the double sum over blocks and edges.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

variable (V : (c : Dev nD) → (b : Ref sig .tc) → Buf (Elt Ideal) ((c : Thread nD τ).loc b))

/-! ## The sum over the points -/

/-- What point `t` adds at row `n`, column `d`: over the block's 256 edges, one or zero (the edge's destination word
    names row `n` or not) times the table row the edge's source word picks. -/
def term2 (c : Dev nD) (t : Fin cfg2.N) (n : Fin 50176) (d : Fin 128) : EReal :=
  ∑ r : Fin 256, (if BitVec.toNat (iblk2 V c 1 t (ix2 r (0 : Fin 1))) = n.val then Cert.Spec.one else 0)
    * Cert.SpecK.picked (iblk2 V c 0 t (ix2 r (0 : Fin 1))) (iblk2 V c 2 t) d

/-- The same at any natural number: nothing past the grid. -/
def termN2 (c : Dev nD) (n : Fin 50176) (d : Fin 128) (s : ℕ) : EReal :=
  if h : s < cfg2.N then term2 V c ⟨s, h⟩ n d else 0

/-- After point `k` the result buffer holds, at row `n` and column `d`, the sum of the addends of the points up to
    `k`: the first point leaves its own addend, each later one adds its own to what it finds. By induction on the
    point; only the order of the additions is used. -/
theorem outAt2_apply (c : Dev nD) (n : Fin 50176) (d : Fin 128) : ∀ (k : ℕ) (hk : k < cfg2.N),
    outAt2 (F := Ideal) V c k hk (ix2 n d) = ∑ s ∈ Finset.range (k + 1), termN2 V c n d s
  | 0, hk => by
    rw [Finset.sum_range_one, termN2, dif_pos hk]
    exact (congrFun (outAt2_zero V c ⟨0, hk⟩ rfl) (ix2 n d)).trans (outA2_apply V c ⟨0, hk⟩ rfl n d)
  | k + 1, hk => by
    rw [Finset.sum_range_succ, ← outAt2_apply c n d k (Nat.lt_of_succ_lt hk), termN2, dif_pos hk]
    exact (congrFun (outAt2_pos V c ⟨k + 1, hk⟩ (Nat.succ_ne_zero k)) (ix2 n d)).trans
      (outB2_apply V c ⟨k + 1, hk⟩ (Nat.succ_ne_zero k) _ n d)

/-! ## The blocks, read in the arrays -/

/-- The block index of each window at every point, decided over the 2344 points: the two index columns at row
    block `t`, the table and the result at block (0, 0). -/
theorem index2_0 : ∀ t : Fin cfg2.N, win2_0.index t 0 = t.val ∧ win2_0.index t 1 = 0 :=
  (by decide +kernel : ∀ t : Fin grid2.N, win2_0.index t 0 = t.val ∧ win2_0.index t 1 = 0)
theorem index2_1 : ∀ t : Fin cfg2.N, win2_1.index t 0 = t.val ∧ win2_1.index t 1 = 0 :=
  (by decide +kernel : ∀ t : Fin grid2.N, win2_1.index t 0 = t.val ∧ win2_1.index t 1 = 0)
theorem index2_2 : ∀ t : Fin cfg2.N, win2_2.index t 0 = 0 ∧ win2_2.index t 1 = 0 :=
  (by decide +kernel : ∀ t : Fin grid2.N, win2_2.index t 0 = 0 ∧ win2_2.index t 1 = 0)
theorem index2_3 : ∀ t : Fin cfg2.N, win2_3.index t 0 = 0 ∧ win2_3.index t 1 = 0 :=
  (by decide +kernel : ∀ t : Fin grid2.N, win2_3.index t 0 = 0 ∧ win2_3.index t 1 = 0)

/-- Row `r` of the source window's block at point `t` is the source column at the padded edge `256·t + r`: on the
    row axis the block index `t` times the block's 256 rows plus `r`, on the column axis zero. -/
theorem iblk2_0_apply (c : Dev nD) (T : Fin 2344) (h : T.val < cfg2.N) (r : Fin 256) :
    iblk2 V c 0 ⟨T.val, h⟩ (ix2 r (0 : Fin 1)) = V c main_v2 (ix2 (Cert.SpecK.edgeAt T r) (0 : Fin 1)) := by
  have h0 : win2_0.index ⟨T.val, h⟩ 0 = T.val := (index2_0 ⟨T.val, h⟩).1
  have h1 : win2_0.index ⟨T.val, h⟩ 1 = 0 := (index2_0 ⟨T.val, h⟩).2
  unfold iblk2
  rw [View.read_apply]
  show V c main_v2 _ = V c main_v2 _
  congr 1
  funext a
  apply Fin.ext
  match a with
  | ⟨0, _⟩ => show win2_0.index ⟨T.val, h⟩ 0 * 256 + 1 * r.val = 256 * T.val + r.val; rw [h0]; omega
  | ⟨1, _⟩ => show win2_0.index ⟨T.val, h⟩ 1 * 1 + 1 * 0 = 0; rw [h1]

/-- The destination window's block, likewise, in the destination column. -/
theorem iblk2_1_apply (c : Dev nD) (T : Fin 2344) (h : T.val < cfg2.N) (r : Fin 256) :
    iblk2 V c 1 ⟨T.val, h⟩ (ix2 r (0 : Fin 1)) = V c main_v5 (ix2 (Cert.SpecK.edgeAt T r) (0 : Fin 1)) := by
  have h0 : win2_1.index ⟨T.val, h⟩ 0 = T.val := (index2_1 ⟨T.val, h⟩).1
  have h1 : win2_1.index ⟨T.val, h⟩ 1 = 0 := (index2_1 ⟨T.val, h⟩).2
  unfold iblk2
  rw [View.read_apply]
  show V c main_v5 _ = V c main_v5 _
  congr 1
  funext a
  apply Fin.ext
  match a with
  | ⟨0, _⟩ => show win2_1.index ⟨T.val, h⟩ 0 * 256 + 1 * r.val = 256 * T.val + r.val; rw [h0]; omega
  | ⟨1, _⟩ => show win2_1.index ⟨T.val, h⟩ 1 * 1 + 1 * 0 = 0; rw [h1]

/-- The table window's one block is the whole table: block (0, 0) of an array of the block's own size. -/
theorem iblk2_2_eq (c : Dev nD) (t : Fin cfg2.N) : iblk2 V c 2 t = V c main_v22 := by
  have hz : (fun a => win2_2.index t a * main_v22.ty.shape.size a) = fun _ => 0 := funext fun a => by
    match a with
    | ⟨0, _⟩ => show win2_2.index t 0 * _ = 0; rw [(index2_2 t).1, Nat.zero_mul]
    | ⟨1, _⟩ => show win2_2.index t 1 * _ = 0; rw [(index2_2 t).2, Nat.zero_mul]
  exact Memref.read_access_unit_zero (Elt Ideal) main_v22 hz (fun a => by rw [congrFun hz a]; simp) (V c main_v22)

/-- So point `T`'s addend is the reference's inner sum over the block's edges, read in the three arrays. -/
theorem term2_eq (c : Dev nD) (T : Fin 2344) (h : T.val < cfg2.N) (n : Fin 50176) (d : Fin 128) :
    term2 V c ⟨T.val, h⟩ n d = ∑ r : Fin 256,
      (if (V c main_v5 (ix2 (Cert.SpecK.edgeAt T r) (0 : Fin 1))).toNat = n.val then Cert.Spec.one else 0)
        * Cert.SpecK.picked (V c main_v2 (ix2 (Cert.SpecK.edgeAt T r) (0 : Fin 1))) (V c main_v22) d := by
  unfold term2
  refine Finset.sum_congr rfl fun r _ => ?_
  rw [iblk2_0_apply, iblk2_1_apply, iblk2_2_eq]

/-! ## The result array after the run -/

/-- The last point of the grid. -/
theorem last2 : 2343 < cfg2.N := lt_of_lt_of_eq (by decide : 2343 < 2344) (show cfg2.N = 2344 from N_2).symm

/-- The one write-back, at the last point, writes what the result buffer holds after that point: block (0, 0) of
    the 50176×128 array, read through zero offsets, is the array. -/
theorem flushed2_3_eq (c : Dev nD) (t : Fin cfg2.N) (hf : (cfg2.win 3).flush t = true) :
    (dat2 V c).flushed 3 t = ((cfg2.win 3).blk t).view.read (Elt Ideal) (outAt2 V c 2343 last2) := by
  have hN : t.val < 2344 := lt_of_lt_of_eq t.isLt (show cfg2.N = 2344 from N_2)
  have h3 : t.val = 2343 := by have := (flush2_3 t).mp hf; omega
  obtain rfl : t = ⟨2343, last2⟩ := Fin.ext h3
  show (cfg2.win 3).cut (grid2.coords ⟨2343, last2⟩) ((dat2 V c).after 3 ⟨2343, last2⟩) = _
  rw [after2_3]
  have hz : (fun a => win2_3.index ⟨2343, last2⟩ a * main_v23.ty.shape.size a) = fun _ => 0 := funext fun a => by
    match a with
    | ⟨0, _⟩ => show win2_3.index ⟨2343, last2⟩ 0 * _ = 0; rw [(index2_3 _).1, Nat.zero_mul]
    | ⟨1, _⟩ => show win2_3.index ⟨2343, last2⟩ 1 * _ = 0; rw [(index2_3 _).2, Nat.zero_mul]
  exact (Memref.read_access_unit_zero (Elt Ideal) main_v23 hz (fun a => by rw [congrFun hz a]; simp) (outAt2 V c 2343 last2)).symm

/-- So the result array ends holding what the buffer holds after the last point: that point's block covers every
    index of the array. -/
theorem arrAt2_3 (c : Dev nD) : (dat2 V c).arrAt 3 cfg2.N = outAt2 V c 2343 last2 :=
  (dat2 V c).arrAt_eq_of_cover 3 (outAt2 V c 2343 last2) (flushed2_3_eq V c) fun i =>
    ⟨⟨2343, last2⟩, (flush2_3 ⟨2343, last2⟩).mpr rfl, by
      show i ∈ ((View.whole main_v23).slice (win2_3.rect ⟨2343, last2⟩)).set
      rw [View.set_slice_whole, Rect.mem_set_unit]
      intro a
      have h0 : (i 0 : Nat) < 50176 := (i 0).isLt
      have h1 : (i 1 : Nat) < 128 := (i 1).isLt
      match a with
      | ⟨0, _⟩ =>
        show win2_3.index ⟨2343, last2⟩ 0 * 50176 ≤ (i 0 : Nat) ∧ (i 0 : Nat) < win2_3.index ⟨2343, last2⟩ 0 * 50176 + 50176
        rw [(index2_3 _).1]; omega
      | ⟨1, _⟩ =>
        show win2_3.index ⟨2343, last2⟩ 1 * 128 ≤ (i 1 : Nat) ∧ (i 1 : Nat) < win2_3.index ⟨2343, last2⟩ 1 * 128 + 128
        rw [(index2_3 _).2]; omega⟩

/-! ## The region's output, in closed form -/

/-- Region 2 leaves in its output array, at row `n` and column `d`, the sum over the 2344 edge blocks and the 256
    edges of each of one or zero (the edge's destination word names row `n` or not) times the table row its source
    word picks: the array is the result buffer after the last point, that buffer the sum of the points' addends,
    and each addend the inner sum read in the arrays. -/
theorem arrAt2_out (c : Dev nD) (n : Fin 50176) (d : Fin 128) :
    ((dat2 (F := Ideal) V c).arrAt 3 cfg2.N : S50176x128.Idx → EReal) (ix2 n d)
      = Cert.SpecK.aggOut (V c main_v2) (V c main_v5) (V c main_v22) n d := by
  show @Eq EReal _ _
  rw [arrAt2_3, outAt2_apply, Finset.sum_range]
  unfold Cert.SpecK.aggOut
  refine Finset.sum_congr rfl fun T _ => ?_
  have h : T.val < cfg2.N := lt_of_lt_of_eq T.isLt (show cfg2.N = 2344 from N_2).symm
  rw [termN2, dif_pos h, term2_eq]

end Cert.KernelIdeal.Hand

end
-- ==== Proof.KI.Pay1.lean ====
import proofs.«404972_j68066641707582_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

theorem lhs1_0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
theorem lhs1_1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q
theorem rhs1_0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q
theorem rhs1_1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

theorem matmul1_apply (l : FVec Ideal S1000x128 .bf16) (r : FVec Ideal S128x128 .bf16) (p : Fin 1000) (q : Fin 128) :
    matmul dot_S1000x128_S128x128_S1000x128_1_0_0_1_n_n none l r (constant (F := Ideal) S1000x128 .f32 0x00000000#32) (ix2 p q : S1000x128.Idx)
      = ∑ k : Fin 128, l (ix2 p k : S1000x128.Idx) * r (ix2 k q : S128x128.Idx) := by
  simp only [matmul]
  rw [Ideal.matmul_constant_zero_apply, ← Equiv.sum_comp (ValueIdx.contrEquiv1 dot_S1000x128_S128x128_S1000x128_1_0_0_1_n_n 128 rfl rfl).symm]
  refine Finset.sum_congr rfl fun k _ => ?_
  have hk := ValueIdx.contrEquiv1_symm_val dot_S1000x128_S128x128_S1000x128_1_0_0_1_n_n 128 rfl rfl k
  have el : dot_S1000x128_S128x128_S1000x128_1_0_0_1_n_n.lhsIdx (ix2 p q : S1000x128.Idx) ((ValueIdx.contrEquiv1 dot_S1000x128_S128x128_S1000x128_1_0_0_1_n_n 128 rfl rfl).symm k) = (ix2 p k : S1000x128.Idx) := funext fun a => Fin.ext (by
    match a with
    | ⟨0, _⟩ => exact lhs1_0 _ _
    | ⟨1, _⟩ => exact (lhs1_1 _ _).trans hk)
  have er : dot_S1000x128_S128x128_S1000x128_1_0_0_1_n_n.rhsIdx (ix2 p q : S1000x128.Idx) ((ValueIdx.contrEquiv1 dot_S1000x128_S128x128_S1000x128_1_0_0_1_n_n 128 rfl rfl).symm k) = (ix2 k q : S128x128.Idx) := funext fun a => Fin.ext (by
    match a with
    | ⟨0, _⟩ => exact (rhs1_0 _ _).trans hk
    | ⟨1, _⟩ => exact rhs1_1 _ _)
  rw [el, er]

theorem pay1_apply (x0 x1 : Vec Ideal S1000x128 .f32) (x2 x3 : Vec Ideal S128x128 .f32) (x4 : Vec Ideal S1x128 .f32)
    (p : Fin 1000) (q : Fin 128) :
    (k1_pay1 (F := Ideal) x0 x1 x2 x3 x4 (ix2 p q : S1000x128.Idx) : EReal)
      = max (((∑ k : Fin 128, (x0 (ix2 p k : S1000x128.Idx) : EReal) * x2 (ix2 k q : S128x128.Idx))
          + (∑ k : Fin 128, (x1 (ix2 p k : S1000x128.Idx) : EReal) * x3 (ix2 k q : S128x128.Idx)))
          + x4 (ix2 (0 : Fin 1) q : S1x128.Idx)) 0 := by
  have e1 : (matmul dot_S1000x128_S128x128_S1000x128_1_0_0_1_n_n none (truncf (F := Ideal) .bf16 x0 bitsLt_bf16_f32) (truncf (F := Ideal) .bf16 x2 bitsLt_bf16_f32)
        (constant (F := Ideal) S1000x128 .f32 0x00000000#32) (ix2 p q : S1000x128.Idx) : EReal)
      = ∑ k : Fin 128, (x0 (ix2 p k : S1000x128.Idx) : EReal) * x2 (ix2 k q : S128x128.Idx) :=
    matmul1_apply (truncf (F := Ideal) .bf16 x0 bitsLt_bf16_f32) (truncf (F := Ideal) .bf16 x2 bitsLt_bf16_f32) p q
  have e2 : (matmul dot_S1000x128_S128x128_S1000x128_1_0_0_1_n_n none
        (truncf (F := Ideal) .bf16 (shapeCast S1000x128 x1 shapeCasts_S1000x128_S1000x128) bitsLt_bf16_f32) (truncf (F := Ideal) .bf16 x3 bitsLt_bf16_f32)
        (constant (F := Ideal) S1000x128 .f32 0x00000000#32) (ix2 p q : S1000x128.Idx) : EReal)
      = ∑ k : Fin 128, (x1 (ix2 p k : S1000x128.Idx) : EReal) * x3 (ix2 k q : S128x128.Idx) := by
    rw [shapeCast_self]
    exact matmul1_apply (truncf (F := Ideal) .bf16 x1 bitsLt_bf16_f32) (truncf (F := Ideal) .bf16 x3 bitsLt_bf16_f32) p q
  have e3 : (broadcastTo S1000x128 (shapeCast S1x128 x4 shapeCasts_S1x128_S1x128) broadcasts_S1x128_S1000x128 (ix2 p q : S1000x128.Idx) : EReal)
      = x4 (ix2 (0 : Fin 1) q : S1x128.Idx) := by
    rw [shapeCast_self]
    exact broadcastTo_1b_ab_apply x4 broadcasts_S1x128_S1000x128 p q
  have e4 : (Ideal.ofBits .f32 0x00000000#32 : EReal) = 0 := Ideal.ofBits_zero_f32
  exact congrArg₂ (fun a b : EReal => max a b)
    (congrArg₂ (fun a b : EReal => a + b) (congrArg₂ (fun a b : EReal => a + b) e1 e2) e3) e4

end Cert.KernelIdeal.Hand

end
-- ==== Proof.KI.Val1.lean ====
import proofs.«404972_j68066641707582_3_alg».proof.Proof.KI.R1
import proofs.«404972_j68066641707582_3_alg».proof.Proof.KI.Pay1
import proofs.«404972_j68066641707582_3_alg».proof.Proof.SpecK
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz1 : (![0, 0] : Fin 2 → Nat) = fun _ => 0 :=
  funext fun a => match a with | ⟨0, _⟩ => rfl | ⟨1, _⟩ => rfl

theorem out1_5_eq {F : FTy → Type} [FloatOps F] (x0 x1 : Vec F S1000x128 .f32) (x2 x3 : Vec F S128x128 .f32) (x4 : Vec F S1x128 .f32) :
    out1_5 x0 x1 x2 x3 x4 = k1_pay1 x0 x1 x2 x3 x4 := by
  unfold out1_5
  rw [View.canon_unit_zero hz1]
  simp only [View.ld_unit_zero (S := S1000x128) hz1, View.ld_unit_zero (S := S128x128) hz1, View.ld_unit_zero (S := S1x128) hz1]

theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

def rowAt1 (t : Fin cfg1.N) (r : Fin 1000) : Fin 50000 :=
  ⟨1000 * t.val + r.val, by have h : t.val < 50 := Nat.lt_of_lt_of_eq t.isLt N_1; have := r.isLt; omega⟩

theorem blk1_0_apply (c : Dev nD) (t : Fin cfg1.N) (r : Fin 1000) (k : Fin 128) :
    ((iblk1 V c 0 t : Vec Ideal S1000x128 .f32) (ix2 r k : S1000x128.Idx) : EReal)
      = (V c main_arg0 : S50000x128.Idx → EReal) (ix2 (rowAt1 t r) k : S50000x128.Idx) := by
  obtain ⟨h0, h1, -⟩ := idx1 t
  show (V c main_arg0 : S50000x128.Idx → EReal) (((cfg1.win 0).blk t).view.emb (ix2 r k : S1000x128.Idx)) = _
  refine congrArg (V c main_arg0 : S50000x128.Idx → EReal) (funext fun a => Fin.ext ?_)
  match a with
  | ⟨0, _⟩ => show win1_0.index t (0 : Fin 2) * 1000 + 1 * r.val = 1000 * t.val + r.val; rw [h0]; omega
  | ⟨1, _⟩ => show win1_0.index t (1 : Fin 2) * 128 + 1 * k.val = k.val; rw [h1]; omega

theorem blk1_1_apply (c : Dev nD) (t : Fin cfg1.N) (r : Fin 1000) (k : Fin 128) :
    ((iblk1 V c 1 t : Vec Ideal S1000x128 .f32) (ix2 r k : S1000x128.Idx) : EReal)
      = (V c main_v18 : S50000x128.Idx → EReal) (ix2 (rowAt1 t r) k : S50000x128.Idx) := by
  obtain ⟨-, -, h0, h1, -⟩ := idx1 t
  show (V c main_v18 : S50000x128.Idx → EReal) (((cfg1.win 1).blk t).view.emb (ix2 r k : S1000x128.Idx)) = _
  refine congrArg (V c main_v18 : S50000x128.Idx → EReal) (funext fun a => Fin.ext ?_)
  match a with
  | ⟨0, _⟩ => show win1_1.index t (0 : Fin 2) * 1000 + 1 * r.val = 1000 * t.val + r.val; rw [h0]; omega
  | ⟨1, _⟩ => show win1_1.index t (1 : Fin 2) * 128 + 1 * k.val = k.val; rw [h1]; omega

theorem blk1_2_apply (c : Dev nD) (t : Fin cfg1.N) (k : Fin 128) (q : Fin 128) :
    ((iblk1 V c 2 t : Vec Ideal S128x128 .f32) (ix2 k q : S128x128.Idx) : EReal)
      = (V c main_arg4 : S128x128.Idx → EReal) (ix2 k q : S128x128.Idx) := by
  obtain ⟨-, -, -, -, h0, h1, -⟩ := idx1 t
  show (V c main_arg4 : S128x128.Idx → EReal) (((cfg1.win 2).blk t).view.emb (ix2 k q : S128x128.Idx)) = _
  refine congrArg (V c main_arg4 : S128x128.Idx → EReal) (funext fun a => Fin.ext ?_)
  match a with
  | ⟨0, _⟩ => show win1_2.index t (0 : Fin 2) * 128 + 1 * k.val = k.val; rw [h0]; omega
  | ⟨1, _⟩ => show win1_2.index t (1 : Fin 2) * 128 + 1 * q.val = q.val; rw [h1]; omega

theorem blk1_3_apply (c : Dev nD) (t : Fin cfg1.N) (k : Fin 128) (q : Fin 128) :
    ((iblk1 V c 3 t : Vec Ideal S128x128 .f32) (ix2 k q : S128x128.Idx) : EReal)
      = (V c main_arg5 : S128x128.Idx → EReal) (ix2 k q : S128x128.Idx) := by
  obtain ⟨-, -, -, -, -, -, h0, h1, -⟩ := idx1 t
  show (V c main_arg5 : S128x128.Idx → EReal) (((cfg1.win 3).blk t).view.emb (ix2 k q : S128x128.Idx)) = _
  refine congrArg (V c main_arg5 : S128x128.Idx → EReal) (funext fun a => Fin.ext ?_)
  match a with
  | ⟨0, _⟩ => show win1_3.index t (0 : Fin 2) * 128 + 1 * k.val = k.val; rw [h0]; omega
  | ⟨1, _⟩ => show win1_3.index t (1 : Fin 2) * 128 + 1 * q.val = q.val; rw [h1]; omega

theorem blk1_4_apply (c : Dev nD) (t : Fin cfg1.N) (q : Fin 128) :
    ((iblk1 V c 4 t : Vec Ideal S1x128 .f32) (ix2 (0 : Fin 1) q : S1x128.Idx) : EReal)
      = (V c main_v19 : S1x128.Idx → EReal) (ix2 (0 : Fin 1) q : S1x128.Idx) := by
  obtain ⟨-, -, -, -, -, -, -, -, h0, h1, -⟩ := idx1 t
  show (V c main_v19 : S1x128.Idx → EReal) (((cfg1.win 4).blk t).view.emb (ix2 (0 : Fin 1) q : S1x128.Idx)) = _
  refine congrArg (V c main_v19 : S1x128.Idx → EReal) (funext fun a => Fin.ext ?_)
  match a with
  | ⟨0, _⟩ => show win1_4.index t (0 : Fin 2) * 1 + 1 * 0 = 0; rw [h0]
  | ⟨1, _⟩ => show win1_4.index t (1 : Fin 2) * 128 + 1 * q.val = q.val; rw [h1]; omega

theorem emb1_5 (t : Fin cfg1.N) (y : S1000x128.Idx) :
    ((cfg1.win 5).blk t).view.emb y
      = (ix2 (rowAt1 t ⟨(y 0).val, (y 0).isLt⟩) (⟨(y 1).val, (y 1).isLt⟩ : Fin 128) : S50000x128.Idx) := by
  obtain ⟨-, -, -, -, -, -, -, -, -, -, h0, h1⟩ := idx1 t
  funext a; apply Fin.ext
  match a with
  | ⟨0, _⟩ => show win1_5.index t (0 : Fin 2) * 1000 + 1 * (y 0).val = 1000 * t.val + (y 0).val; rw [h0]; omega
  | ⟨1, _⟩ => show win1_5.index t (1 : Fin 2) * 128 + 1 * (y 1).val = (y 1).val; rw [h1]; omega

def outArr1 (c : Dev nD) : S50000x128.Idx → EReal := fun i =>
  max (Cert.SpecK.affineOut (V c main_arg0) (V c main_v18) (V c main_arg4) (V c main_arg5) (V c main_v19)
    (⟨(i 0).val, (i 0).isLt⟩ : Fin 50000) (⟨(i 1).val, (i 1).isLt⟩ : Fin 128)) 0

theorem out1_5_apply (c : Dev nD) (t : Fin cfg1.N) (y : S1000x128.Idx) :
    ((out1_5 (iblk1 V c 0 t) (iblk1 V c 1 t) (iblk1 V c 2 t) (iblk1 V c 3 t) (iblk1 V c 4 t) : Vec Ideal S1000x128 .f32) y : EReal)
      = max (Cert.SpecK.affineOut (V c main_arg0) (V c main_v18) (V c main_arg4) (V c main_arg5) (V c main_v19)
          (rowAt1 t ⟨(y 0).val, (y 0).isLt⟩) (⟨(y 1).val, (y 1).isLt⟩ : Fin 128)) 0 := by
  obtain ⟨r, q, rfl⟩ : ∃ (r : Fin 1000) (q : Fin 128), y = (ix2 r q : S1000x128.Idx) := ⟨y 0, y 1, eq_ix2 y⟩
  refine (congrFun (out1_5_eq (F := Ideal) (iblk1 V c 0 t) (iblk1 V c 1 t) (iblk1 V c 2 t) (iblk1 V c 3 t) (iblk1 V c 4 t)) (ix2 r q : S1000x128.Idx)).trans ?_
  refine (pay1_apply (iblk1 V c 0 t) (iblk1 V c 1 t) (iblk1 V c 2 t) (iblk1 V c 3 t) (iblk1 V c 4 t) r q).trans ?_
  unfold Cert.SpecK.affineOut
  refine congrArg (fun z : EReal => max z 0) ?_
  refine congrArg₂ (fun a b : EReal => a + b) (congrArg₂ (fun a b : EReal => a + b) (Finset.sum_congr rfl fun k _ => ?_) (Finset.sum_congr rfl fun k _ => ?_)) ?_
  · exact congrArg₂ (fun a b : EReal => a * b) (blk1_0_apply V c t r k) (blk1_2_apply V c t k q)
  · exact congrArg₂ (fun a b : EReal => a * b) (blk1_1_apply V c t r k) (blk1_3_apply V c t k q)
  · exact blk1_4_apply V c t q

theorem flushed1_5 (c : Dev nD) (t : Fin cfg1.N) :
    (dat1 V c).flushed 5 t = ((cfg1.win 5).blk t).view.read (Elt Ideal) (outArr1 V c) := by
  show (cfg1.win 5).cut (grid1.coords t) ((dat1 V c).after 5 t) = _
  rw [after1_5]
  funext j
  show ((out1_5 (iblk1 V c 0 t) (iblk1 V c 1 t) (iblk1 V c 2 t) (iblk1 V c 3 t) (iblk1 V c 4 t) : Vec Ideal S1000x128 .f32) j : EReal)
      = outArr1 V c (((cfg1.win 5).blk t).view.emb j)
  rw [emb1_5 t j]
  exact out1_5_apply V c t j

theorem mem_blk1_5 (t : Fin cfg1.N) (i : S50000x128.Idx) :
    i ∈ ((cfg1.win 5).blk t).view.set ↔ ∀ a : Fin 2, win1_5.index t a * S1000x128.size a ≤ (i a).val ∧ (i a).val < win1_5.index t a * S1000x128.size a + S1000x128.size a := by
  show i ∈ ((View.whole main_v20).slice (win1_5.rect t)).set ↔ _
  rw [View.set_slice_whole, Rect.mem_set_unit]
  exact Iff.rfl

theorem cover1_5_arr (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 50 := N_1
  obtain ⟨t, ht⟩ : ∃ t : Fin cfg1.N, t.val = (i 0).val / 1000 := ⟨⟨(i 0).val / 1000, Nat.lt_of_lt_of_eq (show (i 0).val / 1000 < 50 by omega) hN.symm⟩, rfl⟩
  obtain ⟨-, -, -, -, -, -, -, -, -, -, h0, h1⟩ := idx1 t
  refine ⟨t, flush1_5 t, ?_⟩
  rw [mem_blk1_5]
  intro a
  match a with
  | ⟨0, _⟩ => show win1_5.index t (0 : Fin 2) * 1000 ≤ (i 0).val ∧ (i 0).val < win1_5.index t (0 : Fin 2) * 1000 + 1000; rw [h0]; omega
  | ⟨1, _⟩ => show win1_5.index t (1 : Fin 2) * 128 ≤ (i 1).val ∧ (i 1).val < win1_5.index t (1 : Fin 2) * 128 + 128; rw [h1]; omega

theorem arrAt1_whole (c : Dev nD) : (dat1 (F := Ideal) V c).arrAt 5 cfg1.N = outArr1 V c :=
  (dat1 V c).arrAt_eq_of_cover 5 (outArr1 V c) (fun t _ => flushed1_5 V c t) cover1_5_arr

theorem arrAt1_out (c : Dev nD) (n : Fin 50000) (j : Fin 128) :
    ((dat1 (F := Ideal) V c).arrAt 5 cfg1.N : S50000x128.Idx → EReal) (ix2 n j : S50000x128.Idx)
      = max (Cert.SpecK.affineOut (V c main_arg0) (V c main_v18) (V c main_arg4) (V c main_arg5) (V c main_v19) n j) 0 :=
  congrFun (arrAt1_whole V c) (ix2 n j : S50000x128.Idx)

end Cert.KernelIdeal.Hand

end
-- ==== Proof.KI.Pay3.lean ====
import proofs.«404972_j68066641707582_3_alg».proof.Proof.KI.Pay1
import proofs.«404972_j68066641707582_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

theorem pay3_apply (x0 x1 : Vec Ideal S1000x128 .f32) (x2 x3 : Vec Ideal S128x128 .f32) (x4 : Vec Ideal S1x128 .f32)
    (p : Fin 1000) (q : Fin 128) :
    (k3_pay1 (F := Ideal) x0 x1 x2 x3 x4 (ix2 p q : S1000x128.Idx) : EReal)
      = ((∑ k : Fin 128, (x0 (ix2 p k : S1000x128.Idx) : EReal) * x2 (ix2 k q : S128x128.Idx))
          + (∑ k : Fin 128, (x1 (ix2 p k : S1000x128.Idx) : EReal) * x3 (ix2 k q : S128x128.Idx)))
          + x4 (ix2 (0 : Fin 1) q : S1x128.Idx) := by
  have e1 : (matmul dot_S1000x128_S128x128_S1000x128_1_0_0_1_n_n none
        (truncf (F := Ideal) .bf16 (shapeCast S1000x128 x0 shapeCasts_S1000x128_S1000x128) bitsLt_bf16_f32) (truncf (F := Ideal) .bf16 x2 bitsLt_bf16_f32)
        (constant (F := Ideal) S1000x128 .f32 0x00000000#32) (ix2 p q : S1000x128.Idx) : EReal)
      = ∑ k : Fin 128, (x0 (ix2 p k : S1000x128.Idx) : EReal) * x2 (ix2 k q : S128x128.Idx) := by
    rw [shapeCast_self]
    exact matmul1_apply (truncf (F := Ideal) .bf16 x0 bitsLt_bf16_f32) (truncf (F := Ideal) .bf16 x2 bitsLt_bf16_f32) p q
  have e2 : (matmul dot_S1000x128_S128x128_S1000x128_1_0_0_1_n_n none
        (truncf (F := Ideal) .bf16 (shapeCast S1000x128 x1 shapeCasts_S1000x128_S1000x128) bitsLt_bf16_f32) (truncf (F := Ideal) .bf16 x3 bitsLt_bf16_f32)
        (constant (F := Ideal) S1000x128 .f32 0x00000000#32) (ix2 p q : S1000x128.Idx) : EReal)
      = ∑ k : Fin 128, (x1 (ix2 p k : S1000x128.Idx) : EReal) * x3 (ix2 k q : S128x128.Idx) := by
    rw [shapeCast_self]
    exact matmul1_apply (truncf (F := Ideal) .bf16 x1 bitsLt_bf16_f32) (truncf (F := Ideal) .bf16 x3 bitsLt_bf16_f32) p q
  have e3 : (broadcastTo S1000x128 (shapeCast S1x128 x4 shapeCasts_S1x128_S1x128) broadcasts_S1x128_S1000x128 (ix2 p q : S1000x128.Idx) : EReal)
      = x4 (ix2 (0 : Fin 1) q : S1x128.Idx) := by
    rw [shapeCast_self]
    exact broadcastTo_1b_ab_apply x4 broadcasts_S1x128_S1000x128 p q
  exact congrArg₂ (fun a b : EReal => a + b) (congrArg₂ (fun a b : EReal => a + b) e1 e2) e3

end Cert.KernelIdeal.Hand

end
-- ==== Proof.KI.Val3.lean ====
import proofs.«404972_j68066641707582_3_alg».proof.Proof.KI.R3
import proofs.«404972_j68066641707582_3_alg».proof.Proof.KI.Pay3
import proofs.«404972_j68066641707582_3_alg».proof.Proof.SpecK
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz3 : (![0, 0] : Fin 2 → Nat) = fun _ => 0 :=
  funext fun a => match a with | ⟨0, _⟩ => rfl | ⟨1, _⟩ => rfl

theorem out3_5_eq {F : FTy → Type} [FloatOps F] (x0 x1 : Vec F S1000x128 .f32) (x2 x3 : Vec F S128x128 .f32) (x4 : Vec F S1x128 .f32) :
    out3_5 x0 x1 x2 x3 x4 = k3_pay1 x0 x1 x2 x3 x4 := by
  unfold out3_5
  rw [View.canon_unit_zero hz3]
  simp only [View.ld_unit_zero (S := S1000x128) hz3, View.ld_unit_zero (S := S128x128) hz3, View.ld_unit_zero (S := S1x128) hz3]

theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

def rowAt3 (t : Fin cfg3.N) (r : Fin 1000) : Fin 50000 :=
  ⟨1000 * t.val + r.val, by have h : t.val < 50 := Nat.lt_of_lt_of_eq t.isLt N_3; have := r.isLt; omega⟩

theorem blk3_0_apply (c : Dev nD) (t : Fin cfg3.N) (r : Fin 1000) (k : Fin 128) :
    ((iblk3 V c 0 t : Vec Ideal S1000x128 .f32) (ix2 r k : S1000x128.Idx) : EReal)
      = (V c main_v20 : S50000x128.Idx → EReal) (ix2 (rowAt3 t r) k : S50000x128.Idx) := by
  obtain ⟨h0, h1, -⟩ := idx3 t
  show (V c main_v20 : S50000x128.Idx → EReal) (((cfg3.win 0).blk t).view.emb (ix2 r k : S1000x128.Idx)) = _
  refine congrArg (V c main_v20 : S50000x128.Idx → EReal) (funext fun a => Fin.ext ?_)
  match a with
  | ⟨0, _⟩ => show win3_0.index t (0 : Fin 2) * 1000 + 1 * r.val = 1000 * t.val + r.val; rw [h0]; omega
  | ⟨1, _⟩ => show win3_0.index t (1 : Fin 2) * 128 + 1 * k.val = k.val; rw [h1]; omega

theorem blk3_1_apply (c : Dev nD) (t : Fin cfg3.N) (r : Fin 1000) (k : Fin 128) :
    ((iblk3 V c 1 t : Vec Ideal S1000x128 .f32) (ix2 r k : S1000x128.Idx) : EReal)
      = (V c main_v26 : S50000x128.Idx → EReal) (ix2 (rowAt3 t r) k : S50000x128.Idx) := by
  obtain ⟨-, -, h0, h1, -⟩ := idx3 t
  show (V c main_v26 : S50000x128.Idx → EReal) (((cfg3.win 1).blk t).view.emb (ix2 r k : S1000x128.Idx)) = _
  refine congrArg (V c main_v26 : S50000x128.Idx → EReal) (funext fun a => Fin.ext ?_)
  match a with
  | ⟨0, _⟩ => show win3_1.index t (0 : Fin 2) * 1000 + 1 * r.val = 1000 * t.val + r.val; rw [h0]; omega
  | ⟨1, _⟩ => show win3_1.index t (1 : Fin 2) * 128 + 1 * k.val = k.val; rw [h1]; omega

theorem blk3_2_apply (c : Dev nD) (t : Fin cfg3.N) (k : Fin 128) (q : Fin 128) :
    ((iblk3 V c 2 t : Vec Ideal S128x128 .f32) (ix2 k q : S128x128.Idx) : EReal)
      = (V c main_arg7 : S128x128.Idx → EReal) (ix2 k q : S128x128.Idx) := by
  obtain ⟨-, -, -, -, h0, h1, -⟩ := idx3 t
  show (V c main_arg7 : S128x128.Idx → EReal) (((cfg3.win 2).blk t).view.emb (ix2 k q : S128x128.Idx)) = _
  refine congrArg (V c main_arg7 : S128x128.Idx → EReal) (funext fun a => Fin.ext ?_)
  match a with
  | ⟨0, _⟩ => show win3_2.index t (0 : Fin 2) * 128 + 1 * k.val = k.val; rw [h0]; omega
  | ⟨1, _⟩ => show win3_2.index t (1 : Fin 2) * 128 + 1 * q.val = q.val; rw [h1]; omega

theorem blk3_3_apply (c : Dev nD) (t : Fin cfg3.N) (k : Fin 128) (q : Fin 128) :
    ((iblk3 V c 3 t : Vec Ideal S128x128 .f32) (ix2 k q : S128x128.Idx) : EReal)
      = (V c main_arg8 : S128x128.Idx → EReal) (ix2 k q : S128x128.Idx) := by
  obtain ⟨-, -, -, -, -, -, h0, h1, -⟩ := idx3 t
  show (V c main_arg8 : S128x128.Idx → EReal) (((cfg3.win 3).blk t).view.emb (ix2 k q : S128x128.Idx)) = _
  refine congrArg (V c main_arg8 : S128x128.Idx → EReal) (funext fun a => Fin.ext ?_)
  match a with
  | ⟨0, _⟩ => show win3_3.index t (0 : Fin 2) * 128 + 1 * k.val = k.val; rw [h0]; omega
  | ⟨1, _⟩ => show win3_3.index t (1 : Fin 2) * 128 + 1 * q.val = q.val; rw [h1]; omega

theorem blk3_4_apply (c : Dev nD) (t : Fin cfg3.N) (q : Fin 128) :
    ((iblk3 V c 4 t : Vec Ideal S1x128 .f32) (ix2 (0 : Fin 1) q : S1x128.Idx) : EReal)
      = (V c main_v27 : S1x128.Idx → EReal) (ix2 (0 : Fin 1) q : S1x128.Idx) := by
  obtain ⟨-, -, -, -, -, -, -, -, h0, h1, -⟩ := idx3 t
  show (V c main_v27 : S1x128.Idx → EReal) (((cfg3.win 4).blk t).view.emb (ix2 (0 : Fin 1) q : S1x128.Idx)) = _
  refine congrArg (V c main_v27 : S1x128.Idx → EReal) (funext fun a => Fin.ext ?_)
  match a with
  | ⟨0, _⟩ => show win3_4.index t (0 : Fin 2) * 1 + 1 * 0 = 0; rw [h0]
  | ⟨1, _⟩ => show win3_4.index t (1 : Fin 2) * 128 + 1 * q.val = q.val; rw [h1]; omega

theorem emb3_5 (t : Fin cfg3.N) (y : S1000x128.Idx) :
    ((cfg3.win 5).blk t).view.emb y
      = (ix2 (rowAt3 t ⟨(y 0).val, (y 0).isLt⟩) (⟨(y 1).val, (y 1).isLt⟩ : Fin 128) : S50000x128.Idx) := by
  obtain ⟨-, -, -, -, -, -, -, -, -, -, h0, h1⟩ := idx3 t
  funext a; apply Fin.ext
  match a with
  | ⟨0, _⟩ => show win3_5.index t (0 : Fin 2) * 1000 + 1 * (y 0).val = 1000 * t.val + (y 0).val; rw [h0]; omega
  | ⟨1, _⟩ => show win3_5.index t (1 : Fin 2) * 128 + 1 * (y 1).val = (y 1).val; rw [h1]; omega

def outArr3 (c : Dev nD) : S50000x128.Idx → EReal := fun i =>
  Cert.SpecK.affineOut (V c main_v20) (V c main_v26) (V c main_arg7) (V c main_arg8) (V c main_v27)
    (⟨(i 0).val, (i 0).isLt⟩ : Fin 50000) (⟨(i 1).val, (i 1).isLt⟩ : Fin 128)

theorem out3_5_apply (c : Dev nD) (t : Fin cfg3.N) (y : S1000x128.Idx) :
    ((out3_5 (iblk3 V c 0 t) (iblk3 V c 1 t) (iblk3 V c 2 t) (iblk3 V c 3 t) (iblk3 V c 4 t) : Vec Ideal S1000x128 .f32) y : EReal)
      = Cert.SpecK.affineOut (V c main_v20) (V c main_v26) (V c main_arg7) (V c main_arg8) (V c main_v27)
          (rowAt3 t ⟨(y 0).val, (y 0).isLt⟩) (⟨(y 1).val, (y 1).isLt⟩ : Fin 128) := by
  obtain ⟨r, q, rfl⟩ : ∃ (r : Fin 1000) (q : Fin 128), y = (ix2 r q : S1000x128.Idx) := ⟨y 0, y 1, eq_ix2 y⟩
  refine (congrFun (out3_5_eq (F := Ideal) (iblk3 V c 0 t) (iblk3 V c 1 t) (iblk3 V c 2 t) (iblk3 V c 3 t) (iblk3 V c 4 t)) (ix2 r q : S1000x128.Idx)).trans ?_
  refine (pay3_apply (iblk3 V c 0 t) (iblk3 V c 1 t) (iblk3 V c 2 t) (iblk3 V c 3 t) (iblk3 V c 4 t) r q).trans ?_
  unfold Cert.SpecK.affineOut
  refine congrArg₂ (fun a b : EReal => a + b) (congrArg₂ (fun a b : EReal => a + b) (Finset.sum_congr rfl fun k _ => ?_) (Finset.sum_congr rfl fun k _ => ?_)) ?_
  · exact congrArg₂ (fun a b : EReal => a * b) (blk3_0_apply V c t r k) (blk3_2_apply V c t k q)
  · exact congrArg₂ (fun a b : EReal => a * b) (blk3_1_apply V c t r k) (blk3_3_apply V c t k q)
  · exact blk3_4_apply V c t q

theorem flushed3_5 (c : Dev nD) (t : Fin cfg3.N) :
    (dat3 V c).flushed 5 t = ((cfg3.win 5).blk t).view.read (Elt Ideal) (outArr3 V c) := by
  show (cfg3.win 5).cut (grid3.coords t) ((dat3 V c).after 5 t) = _
  rw [after3_5]
  funext j
  show ((out3_5 (iblk3 V c 0 t) (iblk3 V c 1 t) (iblk3 V c 2 t) (iblk3 V c 3 t) (iblk3 V c 4 t) : Vec Ideal S1000x128 .f32) j : EReal)
      = outArr3 V c (((cfg3.win 5).blk t).view.emb j)
  rw [emb3_5 t j]
  exact out3_5_apply V c t j

theorem mem_blk3_5 (t : Fin cfg3.N) (i : S50000x128.Idx) :
    i ∈ ((cfg3.win 5).blk t).view.set ↔ ∀ a : Fin 2, win3_5.index t a * S1000x128.size a ≤ (i a).val ∧ (i a).val < win3_5.index t a * S1000x128.size a + S1000x128.size a := by
  show i ∈ ((View.whole main_v28).slice (win3_5.rect t)).set ↔ _
  rw [View.set_slice_whole, Rect.mem_set_unit]
  exact Iff.rfl

theorem cover3_5_arr (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 50 := N_3
  obtain ⟨t, ht⟩ : ∃ t : Fin cfg3.N, t.val = (i 0).val / 1000 := ⟨⟨(i 0).val / 1000, Nat.lt_of_lt_of_eq (show (i 0).val / 1000 < 50 by omega) hN.symm⟩, rfl⟩
  obtain ⟨-, -, -, -, -, -, -, -, -, -, h0, h1⟩ := idx3 t
  refine ⟨t, flush3_5 t, ?_⟩
  rw [mem_blk3_5]
  intro a
  match a with
  | ⟨0, _⟩ => show win3_5.index t (0 : Fin 2) * 1000 ≤ (i 0).val ∧ (i 0).val < win3_5.index t (0 : Fin 2) * 1000 + 1000; rw [h0]; omega
  | ⟨1, _⟩ => show win3_5.index t (1 : Fin 2) * 128 ≤ (i 1).val ∧ (i 1).val < win3_5.index t (1 : Fin 2) * 128 + 128; rw [h1]; omega

theorem arrAt3_whole (c : Dev nD) : (dat3 (F := Ideal) V c).arrAt 5 cfg3.N = outArr3 V c :=
  (dat3 V c).arrAt_eq_of_cover 5 (outArr3 V c) (fun t _ => flushed3_5 V c t) cover3_5_arr

theorem arrAt3_out (c : Dev nD) (n : Fin 50000) (j : Fin 128) :
    ((dat3 (F := Ideal) V c).arrAt 5 cfg3.N : S50000x128.Idx → EReal) (ix2 n j : S50000x128.Idx)
      = Cert.SpecK.affineOut (V c main_v20) (V c main_v26) (V c main_arg7) (V c main_arg8) (V c main_v27) n j :=
  congrFun (arrAt3_whole V c) (ix2 n j : S50000x128.Idx)

end Cert.KernelIdeal.Hand

end
-- ==== Proof.KI.Val4.lean ====
import proofs.«404972_j68066641707582_3_alg».proof.Proof.KI.R4
import proofs.«404972_j68066641707582_3_alg».proof.Proof.SpecK
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

theorem lhs4_0 (i : S1000x3.Idx) (q : dot_S1000x128_S128x3_S1000x3_1_0_0_1_n_n.contr.Idx) :
    (dot_S1000x128_S128x3_S1000x3_1_0_0_1_n_n.lhsIdx i q 0).val = (i 0).val := by
  unfold DotDims.lhsIdx
  rw [dif_neg (show ¬(0 : Fin S1000x128.rank) ∈ dot_S1000x128_S128x3_S1000x3_1_0_0_1_n_n.lhsBatch by decide), dif_pos (show (0 : Fin S1000x128.rank) ∈ dot_S1000x128_S128x3_S1000x3_1_0_0_1_n_n.lhsNonContracting by decide)]
  rfl
theorem lhs4_1 (i : S1000x3.Idx) (q : dot_S1000x128_S128x3_S1000x3_1_0_0_1_n_n.contr.Idx) :
    (dot_S1000x128_S128x3_S1000x3_1_0_0_1_n_n.lhsIdx i q 1).val = (q ⟨0, by decide⟩).val :=
  dot_S1000x128_S128x3_S1000x3_1_0_0_1_n_n.lhsIdx_val_of_single rfl i q
theorem rhs4_0 (i : S1000x3.Idx) (q : dot_S1000x128_S128x3_S1000x3_1_0_0_1_n_n.contr.Idx) :
    (dot_S1000x128_S128x3_S1000x3_1_0_0_1_n_n.rhsIdx i q 0).val = (q ⟨0, by decide⟩).val :=
  dot_S1000x128_S128x3_S1000x3_1_0_0_1_n_n.rhsIdx_val_of_single rfl i q
theorem rhs4_1 (i : S1000x3.Idx) (q : dot_S1000x128_S128x3_S1000x3_1_0_0_1_n_n.contr.Idx) :
    (dot_S1000x128_S128x3_S1000x3_1_0_0_1_n_n.rhsIdx i q 1).val = (i 1).val := by
  unfold DotDims.rhsIdx
  rw [dif_neg (show ¬(1 : Fin S128x3.rank) ∈ dot_S1000x128_S128x3_S1000x3_1_0_0_1_n_n.rhsBatch by decide), dif_pos (show (1 : Fin S128x3.rank) ∈ dot_S1000x128_S128x3_S1000x3_1_0_0_1_n_n.rhsNonContracting by decide)]
  rfl

theorem matmul4_apply (a : FVec Ideal S1000x128 .bf16) (b : FVec Ideal S128x3 .bf16) (p : Fin 1000) (q : Fin 3) :
    (matmul dot_S1000x128_S128x3_S1000x3_1_0_0_1_n_n none a b (constant (F := Ideal) S1000x3 .f32 0x00000000#32) : FVec Ideal S1000x3 .f32) (ix2 p q)
      = ∑ k : Fin 128, (a (ix2 p k) : EReal) * (b (ix2 k q) : EReal) := by
  show FloatOps.matmul dot_S1000x128_S128x3_S1000x3_1_0_0_1_n_n none a b (constant (F := Ideal) S1000x3 .f32 0x00000000#32) (ix2 p q) = _
  rw [Ideal.matmul_constant_zero_apply, ← Equiv.sum_comp (contrEquiv1 dot_S1000x128_S128x3_S1000x3_1_0_0_1_n_n 128 rfl rfl).symm]
  refine Finset.sum_congr rfl fun k _ => ?_
  have hk := contrEquiv1_symm_val dot_S1000x128_S128x3_S1000x3_1_0_0_1_n_n 128 rfl rfl k
  have el : dot_S1000x128_S128x3_S1000x3_1_0_0_1_n_n.lhsIdx (ix2 p q) ((contrEquiv1 dot_S1000x128_S128x3_S1000x3_1_0_0_1_n_n 128 rfl rfl).symm k) = ix2 p k := funext fun a => Fin.ext (by
    match a with
    | ⟨0, _⟩ => exact lhs4_0 _ _
    | ⟨1, _⟩ => exact (lhs4_1 _ _).trans hk)
  have er : dot_S1000x128_S128x3_S1000x3_1_0_0_1_n_n.rhsIdx (ix2 p q) ((contrEquiv1 dot_S1000x128_S128x3_S1000x3_1_0_0_1_n_n 128 rfl rfl).symm k) = ix2 k q := funext fun a => Fin.ext (by
    match a with
    | ⟨0, _⟩ => exact (rhs4_0 _ _).trans hk
    | ⟨1, _⟩ => exact rhs4_1 _ _)
  rw [el, er]

theorem pay4_2_apply (x0 : Vec Ideal S1000x128 .f32) (x1 : Vec Ideal S128x3 .f32) (p : Fin 1000) (q : Fin 3) :
    (k4_pay2 (F := Ideal) x0 x1 : S1000x3.Idx → EReal) (ix2 p q) = ∑ k : Fin 128, (x0 (ix2 p k) : EReal) * (x1 (ix2 k q) : EReal) := by
  unfold k4_pay2 k4_pay1
  try dsimp only
  refine (matmul4_apply _ _ p q).trans ?_
  refine Finset.sum_congr rfl fun k _ => ?_
  exact congrArg₂ (fun (u v : EReal) => u * v) (congrFun (shapeCast_self x0 _) (ix2 p k)) (congrFun (shapeCast_self x1 _) (ix2 k q))

theorem pay4_3_apply (x0 : Vec Ideal S1000x128 .f32) (x2 : Vec Ideal S128x3 .f32) (p : Fin 1000) (q : Fin 3) :
    (k4_pay3 (F := Ideal) x0 x2 : S1000x3.Idx → EReal) (ix2 p q) = ∑ k : Fin 128, (x0 (ix2 p k) : EReal) * (x2 (ix2 k q) : EReal) := by
  unfold k4_pay3 k4_pay1
  try dsimp only
  refine (matmul4_apply _ _ p q).trans ?_
  refine Finset.sum_congr rfl fun k _ => ?_
  exact congrArg₂ (fun (u v : EReal) => u * v) (congrFun (shapeCast_self x0 _) (ix2 p k)) (congrFun (shapeCast_self x2 _) (ix2 k q))

def projArr4 (X : S50000x128.Idx → EReal) (W : S128x3.Idx → EReal) : S50000x3.Idx → EReal :=
  fun i => Cert.SpecK.projOut X W ⟨(i 0).val, (i 0).isLt⟩ ⟨(i 1).val, (i 1).isLt⟩

theorem block_projArr4 (X : S50000x128.Idx → EReal) (W : S128x3.Idx → EReal)
    (x0 : Vec Ideal S1000x128 .f32) (x1 : Vec Ideal S128x3 .f32) (tv : Nat)
    (h0 : ∀ (p : Fin 1000) (k : Fin 128) (n : Fin 50000), n.val = 1000 * tv + p.val → (x0 (ix2 p k) : EReal) = X (ix2 n k))
    (h1 : ∀ (k : Fin 128) (q : Fin 3), (x1 (ix2 k q) : EReal) = W (ix2 k q))
    (y : S1000x3.Idx → EReal) (hy : ∀ (p : Fin 1000) (q : Fin 3), y (ix2 p q) = ∑ k : Fin 128, (x0 (ix2 p k) : EReal) * (x1 (ix2 k q) : EReal))
    (j : S1000x3.Idx) (i : S50000x3.Idx) (hi0 : (i 0).val = 1000 * tv + (j 0).val) (hi1 : (i 1).val = (j 1).val) :
    y j = projArr4 X W i := by
  obtain ⟨p, q, rfl⟩ : ∃ (p : Fin 1000) (q : Fin 3), j = ix2 p q := ⟨j 0, j 1, eq_ix2 j⟩
  rw [hy p q]
  have hq : (⟨(i 1).val, (i 1).isLt⟩ : Fin 3) = q := Fin.ext hi1
  show _ = ∑ k : Fin 128, X (ix2 (⟨(i 0).val, (i 0).isLt⟩ : Fin 50000) k) * W (ix2 k (⟨(i 1).val, (i 1).isLt⟩ : Fin 3))
  rw [hq]
  refine Finset.sum_congr rfl fun k _ => ?_
  rw [h0 p k ⟨(i 0).val, (i 0).isLt⟩ hi0, h1 k q]

theorem hz4 : (![0, 0] : Fin 2 → Nat) = fun _ => 0 := funext fun a => match a with | ⟨0, _⟩ => rfl | ⟨1, _⟩ => rfl

theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

theorem xblk4_apply (c : Dev nD) (t : Fin cfg4.N) (p : Fin 1000) (k : Fin 128) (n : Fin 50000)
    (hn : n.val = 1000 * t.val + p.val) :
    ((iblk4 V c 0 t : Vec Ideal S1000x128 .f32) (ix2 p k) : EReal) = (V c main_v28 : S50000x128.Idx → EReal) (ix2 n k) := by
  obtain ⟨e0, e1, -⟩ := idx4 t
  show (V c main_v28 : S50000x128.Idx → EReal) (((cfg4.win 0).blk t).view.emb (ix2 p k)) = _
  refine congrArg (V c main_v28 : S50000x128.Idx → EReal) ?_
  funext a; apply Fin.ext
  match a with
  | ⟨0, _⟩ => show win4_0.index t (0 : Fin 2) * 1000 + 1 * p.val = n.val; rw [e0, hn]; omega
  | ⟨1, _⟩ => show win4_0.index t (1 : Fin 2) * 128 + 1 * k.val = k.val; rw [e1]; omega

theorem wblk4_1_apply (c : Dev nD) (t : Fin cfg4.N) (k : Fin 128) (q : Fin 3) :
    ((iblk4 V c 1 t : Vec Ideal S128x3 .f32) (ix2 k q) : EReal) = (V c main_v29 : S128x3.Idx → EReal) (ix2 k q) := by
  obtain ⟨-, -, e2, e3, -⟩ := idx4 t
  show (V c main_v29 : S128x3.Idx → EReal) (((cfg4.win 1).blk t).view.emb (ix2 k q)) = _
  refine congrArg (V c main_v29 : S128x3.Idx → EReal) ?_
  funext a; apply Fin.ext
  match a with
  | ⟨0, _⟩ => show win4_1.index t (0 : Fin 2) * 128 + 1 * k.val = k.val; rw [e2]; omega
  | ⟨1, _⟩ => show win4_1.index t (1 : Fin 2) * 3 + 1 * q.val = q.val; rw [e3]; omega

theorem wblk4_2_apply (c : Dev nD) (t : Fin cfg4.N) (k : Fin 128) (q : Fin 3) :
    ((iblk4 V c 2 t : Vec Ideal S128x3 .f32) (ix2 k q) : EReal) = (V c main_v30 : S128x3.Idx → EReal) (ix2 k q) := by
  obtain ⟨-, -, -, -, e4, e5, -⟩ := idx4 t
  show (V c main_v30 : S128x3.Idx → EReal) (((cfg4.win 2).blk t).view.emb (ix2 k q)) = _
  refine congrArg (V c main_v30 : S128x3.Idx → EReal) ?_
  funext a; apply Fin.ext
  match a with
  | ⟨0, _⟩ => show win4_2.index t (0 : Fin 2) * 128 + 1 * k.val = k.val; rw [e4]; omega
  | ⟨1, _⟩ => show win4_2.index t (1 : Fin 2) * 3 + 1 * q.val = q.val; rw [e5]; omega

theorem flushed4_3_eq (c : Dev nD) (t : Fin cfg4.N) :
    (dat4 (F := Ideal) V c).flushed 3 t = ((cfg4.win 3).blk t).view.read (Elt Ideal) (projArr4 (V c main_v28) (V c main_v29)) := by
  show (cfg4.win 3).cut (grid4.coords t) ((dat4 (F := Ideal) V c).after 3 t) = _
  rw [after4_3]
  unfold out4_3
  rw [View.canon_unit_zero hz4]
  simp only [View.ld_unit_zero (S := S1000x128) hz4, View.ld_unit_zero (S := S128x3) hz4]
  obtain ⟨-, -, -, -, -, -, e6, e7, -⟩ := idx4 t
  funext j
  show (k4_pay2 (F := Ideal) (iblk4 V c 0 t) (iblk4 V c 1 t) : S1000x3.Idx → EReal) j
    = projArr4 (V c main_v28) (V c main_v29) (((cfg4.win 3).blk t).view.emb j)
  refine block_projArr4 (V c main_v28) (V c main_v29) (iblk4 V c 0 t) (iblk4 V c 1 t) t.val
    (fun p k n hn => xblk4_apply V c t p k n hn) (fun k q => wblk4_1_apply V c t k q)
    (k4_pay2 (F := Ideal) (iblk4 V c 0 t) (iblk4 V c 1 t)) (fun p q => pay4_2_apply (iblk4 V c 0 t) (iblk4 V c 1 t) p q)
    j (((cfg4.win 3).blk t).view.emb j) ?_ ?_
  · show win4_3.index t (0 : Fin 2) * 1000 + 1 * (j 0).val = 1000 * t.val + (j 0).val
    rw [e6]; omega
  · show win4_3.index t (1 : Fin 2) * 3 + 1 * (j 1).val = (j 1).val
    rw [e7]; omega

theorem flushed4_4_eq (c : Dev nD) (t : Fin cfg4.N) :
    (dat4 (F := Ideal) V c).flushed 4 t = ((cfg4.win 4).blk t).view.read (Elt Ideal) (projArr4 (V c main_v28) (V c main_v30)) := by
  show (cfg4.win 4).cut (grid4.coords t) ((dat4 (F := Ideal) V c).after 4 t) = _
  rw [after4_4]
  unfold out4_4
  rw [View.canon_unit_zero hz4]
  simp only [View.ld_unit_zero (S := S1000x128) hz4, View.ld_unit_zero (S := S128x3) hz4]
  obtain ⟨-, -, -, -, -, -, -, -, e8, e9⟩ := idx4 t
  funext j
  show (k4_pay3 (F := Ideal) (iblk4 V c 0 t) (iblk4 V c 2 t) : S1000x3.Idx → EReal) j
    = projArr4 (V c main_v28) (V c main_v30) (((cfg4.win 4).blk t).view.emb j)
  refine block_projArr4 (V c main_v28) (V c main_v30) (iblk4 V c 0 t) (iblk4 V c 2 t) t.val
    (fun p k n hn => xblk4_apply V c t p k n hn) (fun k q => wblk4_2_apply V c t k q)
    (k4_pay3 (F := Ideal) (iblk4 V c 0 t) (iblk4 V c 2 t)) (fun p q => pay4_3_apply (iblk4 V c 0 t) (iblk4 V c 2 t) p q)
    j (((cfg4.win 4).blk t).view.emb j) ?_ ?_
  · show win4_4.index t (0 : Fin 2) * 1000 + 1 * (j 0).val = 1000 * t.val + (j 0).val
    rw [e8]; omega
  · show win4_4.index t (1 : Fin 2) * 3 + 1 * (j 1).val = (j 1).val
    rw [e9]; omega

theorem mem_blk4_3 (t : Fin cfg4.N) (i : S50000x3.Idx) :
    i ∈ ((cfg4.win 3).blk t).view.set ↔ ∀ a : Fin 2, win4_3.index t a * S1000x3.size a ≤ (i a).val ∧ (i a).val < win4_3.index t a * S1000x3.size a + S1000x3.size a := by
  show i ∈ ((View.whole main_v31_0).slice (win4_3.rect t)).set ↔ _
  rw [View.set_slice_whole, Rect.mem_set_unit]
  exact Iff.rfl

theorem mem_blk4_4 (t : Fin cfg4.N) (i : S50000x3.Idx) :
    i ∈ ((cfg4.win 4).blk t).view.set ↔ ∀ a : Fin 2, win4_4.index t a * S1000x3.size a ≤ (i a).val ∧ (i a).val < win4_4.index t a * S1000x3.size a + S1000x3.size a := by
  show i ∈ ((View.whole main_v31_1).slice (win4_4.rect t)).set ↔ _
  rw [View.set_slice_whole, Rect.mem_set_unit]
  exact Iff.rfl

theorem cover4_3 (i : S50000x3.Idx) : ∃ t : Fin cfg4.N, (cfg4.win 3).flush t = true ∧ i ∈ ((cfg4.win 3).blk t).view.set := by
  have hi0 : (i 0).val < 50000 := (i 0).isLt
  have hi1 : (i 1).val < 3 := (i 1).isLt
  obtain ⟨t, ht⟩ : ∃ t : Fin cfg4.N, t.val = (i 0).val / 1000 :=
    ⟨⟨(i 0).val / 1000, Nat.lt_of_lt_of_eq (show (i 0).val / 1000 < 50 by omega) N_4.symm⟩, rfl⟩
  obtain ⟨-, -, -, -, -, -, e6, e7, -⟩ := idx4 t
  refine ⟨t, flush4_3 t, ?_⟩
  rw [mem_blk4_3]
  intro a
  match a with
  | ⟨0, _⟩ => show win4_3.index t (0 : Fin 2) * 1000 ≤ (i 0).val ∧ (i 0).val < win4_3.index t (0 : Fin 2) * 1000 + 1000; rw [e6, ht]; omega
  | ⟨1, _⟩ => show win4_3.index t (1 : Fin 2) * 3 ≤ (i 1).val ∧ (i 1).val < win4_3.index t (1 : Fin 2) * 3 + 3; rw [e7]; omega

theorem cover4_4 (i : S50000x3.Idx) : ∃ t : Fin cfg4.N, (cfg4.win 4).flush t = true ∧ i ∈ ((cfg4.win 4).blk t).view.set := by
  have hi0 : (i 0).val < 50000 := (i 0).isLt
  have hi1 : (i 1).val < 3 := (i 1).isLt
  obtain ⟨t, ht⟩ : ∃ t : Fin cfg4.N, t.val = (i 0).val / 1000 :=
    ⟨⟨(i 0).val / 1000, Nat.lt_of_lt_of_eq (show (i 0).val / 1000 < 50 by omega) N_4.symm⟩, rfl⟩
  obtain ⟨-, -, -, -, -, -, -, -, e8, e9⟩ := idx4 t
  refine ⟨t, flush4_4 t, ?_⟩
  rw [mem_blk4_4]
  intro a
  match a with
  | ⟨0, _⟩ => show win4_4.index t (0 : Fin 2) * 1000 ≤ (i 0).val ∧ (i 0).val < win4_4.index t (0 : Fin 2) * 1000 + 1000; rw [e8, ht]; omega
  | ⟨1, _⟩ => show win4_4.index t (1 : Fin 2) * 3 ≤ (i 1).val ∧ (i 1).val < win4_4.index t (1 : Fin 2) * 3 + 3; rw [e9]; omega

theorem arrAt4_3 (c : Dev nD) : (dat4 (F := Ideal) V c).arrAt 3 cfg4.N = projArr4 (V c main_v28) (V c main_v29) :=
  (dat4 (F := Ideal) V c).arrAt_eq_of_cover 3 (projArr4 (V c main_v28) (V c main_v29)) (fun t _ => flushed4_3_eq V c t) cover4_3

theorem arrAt4_4 (c : Dev nD) : (dat4 (F := Ideal) V c).arrAt 4 cfg4.N = projArr4 (V c main_v28) (V c main_v30) :=
  (dat4 (F := Ideal) V c).arrAt_eq_of_cover 4 (projArr4 (V c main_v28) (V c main_v30)) (fun t _ => flushed4_4_eq V c t) cover4_4

theorem arrAt4_out3 (c : Dev nD) (n : Fin 50000) (k : Fin 3) :
    ((dat4 (F := Ideal) V c).arrAt 3 cfg4.N : S50000x3.Idx → EReal) (ix2 n k) = Cert.SpecK.projOut (V c main_v28) (V c main_v29) n k :=
  congrFun (arrAt4_3 V c) (ix2 n k)

theorem arrAt4_out4 (c : Dev nD) (n : Fin 50000) (k : Fin 3) :
    ((dat4 (F := Ideal) V c).arrAt 4 cfg4.N : S50000x3.Idx → EReal) (ix2 n k) = Cert.SpecK.projOut (V c main_v28) (V c main_v30) n k :=
  congrFun (arrAt4_4 V c) (ix2 n k)

end Cert.KernelIdeal.Hand

end
-- ==== Proof.OneHot.lean ====
import proofs.«404972_j68066641707582_3_alg».proof.Proof.Spec
import proofs.«404972_j68066641707582_3_alg».proof.Proof.SpecK
import Mathlib.Algebra.BigOperators.Group.Finset.Basic
import Mathlib.Data.Fintype.BigOperators
import Mathlib.Logic.Equiv.Fin.Basic
import Mathlib.Data.EReal.Basic

noncomputable section

open scoped BigOperators

namespace Cert.OneHot

open Idealize.ShloMosaic Idealize.ShloMosaic.ValueIdx Cert.Spec Cert.SpecK

theorem sum_grid {α : Type*} [AddCommMonoid α] {B K N : ℕ} (hN : B * K = N) (f : Fin N → α)
    (hb : ∀ (j : Fin B) (q : Fin K), K * j.val + q.val < N) :
    ∑ j : Fin B, ∑ q : Fin K, f ⟨K * j.val + q.val, hb j q⟩ = ∑ k : Fin N, f k := by
  subst hN
  rw [← Fintype.sum_prod_type' (fun (j : Fin B) (q : Fin K) => f ⟨K * j.val + q.val, hb j q⟩)]
  refine Fintype.sum_equiv finProdFinEquiv _ _ (fun p => ?_)
  congr 1
  apply Fin.ext
  simp only [finProdFinEquiv_apply_val]
  omega

theorem sum_rowAt (g : Fin 50176 → EReal) : ∑ j : Fin 49, ∑ q : Fin 1024, g (rowAt j q) = ∑ k : Fin 50176, g k :=
  sum_grid (B := 49) (K := 1024) (by norm_num) g (fun j q => (rowAt j q).isLt)

theorem sum_edgeAt (g : Fin 600064 → EReal) : ∑ t : Fin 2344, ∑ r : Fin 256, g (edgeAt t r) = ∑ e : Fin 600064, g e :=
  sum_grid (B := 2344) (K := 256) (by norm_num) g (fun t r => (edgeAt t r).isLt)

theorem toNat_of_inRange {w : BitVec 32} (h0 : 0 ≤ w.toInt) (h1 : w.toInt < 50000) :
    w.toInt = (w.toNat : ℤ) ∧ w.toNat = (rowOf w).val ∧ w.toNat < 50000 := by
  have hb := w.isLt
  have hw : w.toInt = (w.toNat : ℤ) := by
    rw [BitVec.toInt_eq_toNat_cond] at h0 ⊢
    split_ifs at h0 ⊢ with h
    · rfl
    · exfalso; omega
  have hlt : w.toNat < 50000 := by omega
  exact ⟨hw, by simp only [rowOf, Nat.mod_eq_of_lt hlt], hlt⟩

theorem sum_ite_one_mul {N : ℕ} (c : Fin N → Prop) [DecidablePred c] (P : Fin N → EReal) :
    ∑ e : Fin N, (if c e then (1 : EReal) else 0) * P e = ∑ e ∈ Finset.univ.filter c, P e := by
  rw [Finset.sum_filter]
  refine Finset.sum_congr rfl (fun e _ => ?_)
  by_cases hc : c e
  · rw [if_pos hc, if_pos hc, one_mul]
  · rw [if_neg hc, if_neg hc, zero_mul]

theorem picked_eq (hone : Cert.Spec.one = 1) (w : BitVec 32) (T : (⟨2, ![50176, 128]⟩ : Shape).Idx → EReal)
    (d : Fin 128) (k : Fin 50176) (hk : w.toNat = k.val) : picked w T d = T (ix2 k d) := by
  unfold picked
  rw [hone, sum_rowAt (fun k' => (if w.toNat = k'.val then (1 : EReal) else 0) * T (ix2 k' d)),
    sum_ite_one_mul (fun k' : Fin 50176 => w.toNat = k'.val) (fun k' => T (ix2 k' d))]
  rw [Finset.sum_eq_single k]
  · intro b hb hbk
    exfalso
    exact hbk (Fin.ext ((Finset.mem_filter.1 hb).2.symm.trans hk))
  · intro hnot
    exfalso
    exact hnot (Finset.mem_filter.2 ⟨Finset.mem_univ _, hk⟩)

theorem aggOut_eq_aggSum
    (srcp dstp : (⟨2, ![600064, 1]⟩ : Shape).Idx → BitVec 32) (T : (⟨2, ![50176, 128]⟩ : Shape).Idx → EReal)
    (src dst : Fin 600000 → BitVec 32) (h : Fin 50000 → Fin 128 → EReal)
    (hsrc : ∀ e : Fin 600000, srcp (ix2 ⟨e.val, by have := e.isLt; omega⟩ (0 : Fin 1)) = src e)
    (hdst : ∀ e : Fin 600000, dstp (ix2 ⟨e.val, by have := e.isLt; omega⟩ (0 : Fin 1)) = dst e)
    (hpad : ∀ e : Fin 600064, 600000 ≤ e.val → dstp (ix2 e (0 : Fin 1)) = 50000#32)
    (hT : ∀ (n : Fin 50000) (d : Fin 128), T (ix2 ⟨n.val, by have := n.isLt; omega⟩ d) = h n d)
    (hs : Cert.Spec.InRange src) (hd : Cert.Spec.InRange dst) (hone : Cert.Spec.one = 1)
    (n : Fin 50000) (d : Fin 128) :
    Cert.SpecK.aggOut srcp dstp T ⟨n.val, by have := n.isLt; omega⟩ d = Cert.Spec.aggSum src dst h n d := by
  unfold aggOut aggSum
  rw [hone, sum_edgeAt (fun e => (if (dstp (ix2 e (0 : Fin 1))).toNat = n.val then (1 : EReal) else 0)
      * picked (srcp (ix2 e (0 : Fin 1))) T d),
    sum_ite_one_mul (fun e : Fin 600064 => (dstp (ix2 e (0 : Fin 1))).toNat = n.val)
      (fun e => picked (srcp (ix2 e (0 : Fin 1))) T d)]
  symm
  refine Finset.sum_bij (fun (e : Fin 600000) _ => (⟨e.val, by have := e.isLt; omega⟩ : Fin 600064)) ?_ ?_ ?_ ?_
  · intro e he
    have hde := (Finset.mem_filter.1 he).2
    obtain ⟨hi, -, -⟩ := toNat_of_inRange (hd e).1 (hd e).2
    refine Finset.mem_filter.2 ⟨Finset.mem_univ _, ?_⟩
    rw [hdst e]
    omega
  · intro a _ b _ hab
    exact Fin.ext (Fin.mk.inj hab)
  · intro b hb
    have hbn := (Finset.mem_filter.1 hb).2
    have hblt : b.val < 600000 := by
      by_contra hge
      rw [hpad b (by omega)] at hbn
      have h5 : (50000#32 : BitVec 32).toNat = 50000 := by decide
      have := n.isLt
      omega
    have hde : dst ⟨b.val, hblt⟩ = dstp (ix2 b (0 : Fin 1)) := (hdst ⟨b.val, hblt⟩).symm
    obtain ⟨hi, -, -⟩ := toNat_of_inRange (hd ⟨b.val, hblt⟩).1 (hd ⟨b.val, hblt⟩).2
    refine ⟨⟨b.val, hblt⟩, Finset.mem_filter.2 ⟨Finset.mem_univ _, ?_⟩, rfl⟩
    rw [hi, hde, hbn]
  · intro e _
    obtain ⟨-, hrow, hlt⟩ := toNat_of_inRange (hs e).1 (hs e).2
    rw [hsrc e, picked_eq hone (src e) T d ⟨(rowOf (src e)).val, by have := (rowOf (src e)).isLt; omega⟩ hrow,
      hT (rowOf (src e)) d]

end Cert.OneHot

end
-- ==== Proof.KI.KerScore.lean ====
import proofs.«404972_j68066641707582_3_alg».proof.Proof.KI.Args
import proofs.«404972_j68066641707582_3_alg».proof.Proof.KI.Host
import proofs.«404972_j68066641707582_3_alg».proof.Proof.KI.Out0
import proofs.«404972_j68066641707582_3_alg».proof.Proof.KI.Out2
import proofs.«404972_j68066641707582_3_alg».proof.Proof.KI.Val1
import proofs.«404972_j68066641707582_3_alg».proof.Proof.KI.Val3
import proofs.«404972_j68066641707582_3_alg».proof.Proof.KI.Val4
import proofs.«404972_j68066641707582_3_alg».proof.Proof.OneHot
import Idealize.ShloMosaic.Lib.IdealHost

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Cert.Spec

variable (m : (ℓ : Loc nD τ sig) → Buf (Elt Ideal) ℓ) (c : Dev nD)

abbrev srcW : Fin 600000 → BitVec 32 := words (m ((c : Thread nD τ).loc main_arg2))
abbrev dstW : Fin 600000 → BitVec 32 := words (m ((c : Thread nD τ).loc main_arg3))
abbrev xM : Fin 50000 → Fin 128 → EReal := mat (m ((c : Thread nD τ).loc main_arg0))
abbrev w1s : Fin 128 → Fin 128 → EReal := mat (m ((c : Thread nD τ).loc main_arg4))
abbrev w1n : Fin 128 → Fin 128 → EReal := mat (m ((c : Thread nD τ).loc main_arg5))
abbrev b1V : Fin 128 → EReal := vec (m ((c : Thread nD τ).loc main_arg6))
abbrev w2s : Fin 128 → Fin 128 → EReal := mat (m ((c : Thread nD τ).loc main_arg7))
abbrev w2n : Fin 128 → Fin 128 → EReal := mat (m ((c : Thread nD τ).loc main_arg8))
abbrev b2V : Fin 128 → EReal := vec (m ((c : Thread nD τ).loc main_arg9))
abbrev wpM : Fin 256 → Fin 3 → EReal := mat (m ((c : Thread nD τ).loc main_arg10))
abbrev bpV : Fin 3 → EReal := vec (m ((c : Thread nD τ).loc main_arg11))

theorem one_eq : (one : EReal) = 1 := Ideal.ofBits_one_f32

theorem agg1_sum (hs : InRange (srcW m c)) (hd : InRange (dstW m c)) (n : Fin 50000) (d : Fin 128) :
    (W4 m c main_v15 : S50176x128.Idx → EReal) (ix2 (Fin.castLE (by decide) n) d) = aggSum (srcW m c) (dstW m c) (xM m c) n d := by
  have e : (W4 m c main_v15 : S50176x128.Idx → EReal) = ((dat0 (F := Ideal) (U3 m) c).arrAt 3 cfg0.N : S50176x128.Idx → EReal) := W4_arr m c 3
  refine (congrFun e _).trans ?_
  refine (arrAt0_out (U3 m) c (Fin.castLE (by decide) n) d).trans ?_
  exact Cert.OneHot.aggOut_eq_aggSum _ _ _ (srcW m c) (dstW m c) (xM m c)
    (fun e => U3_v2_lo m c _ e.isLt) (fun e => U3_v5_lo m c _ e.isLt) (fun e he => U3_v5_hi m c e he)
    (fun n d => U3_v14_lo m c _ d n.isLt) hs hd one_eq n d

theorem agg1_mean (hs : InRange (srcW m c)) (hd : InRange (dstW m c)) (n : Fin 50000) (d : Fin 128) :
    (U5 m c main_v18 : S50000x128.Idx → EReal) (ix2 n d) = meanAgg (srcW m c) (dstW m c) (xM m c) n d :=
  (U5_v18 m c n d).trans
    (congrArg (fun z : EReal => Ideal.div z (max (degree (dstW m c) n) one)) (agg1_sum m c hs hd n d))

theorem layer1 (hs : InRange (srcW m c)) (hd : InRange (dstW m c)) (n : Fin 50000) (j : Fin 128) :
    (W6 m c main_v20 : S50000x128.Idx → EReal) (ix2 n j) = h1 (srcW m c) (dstW m c) (xM m c) (w1s m c) (w1n m c) (b1V m c) n j := by
  have e : (W6 m c main_v20 : S50000x128.Idx → EReal) = ((dat1 (F := Ideal) (U5 m) c).arrAt 5 cfg1.N : S50000x128.Idx → EReal) := W6_arr m c 5
  have e0 : (U5 m c main_arg0 : S50000x128.Idx → EReal) = (m ((c : Thread nD τ).loc main_arg0) : S50000x128.Idx → EReal) :=
    W5_of_unwritten m c main_arg0 (by decide) (by decide) (by decide) (by decide) (by decide)
  have e4 : (U5 m c main_arg4 : S128x128.Idx → EReal) = (m ((c : Thread nD τ).loc main_arg4) : S128x128.Idx → EReal) :=
    W5_of_unwritten m c main_arg4 (by decide) (by decide) (by decide) (by decide) (by decide)
  have e5 : (U5 m c main_arg5 : S128x128.Idx → EReal) = (m ((c : Thread nD τ).loc main_arg5) : S128x128.Idx → EReal) :=
    W5_of_unwritten m c main_arg5 (by decide) (by decide) (by decide) (by decide) (by decide)
  refine (congrFun e _).trans ((arrAt1_out (U5 m) c n j).trans ?_)
  unfold h1 lin Cert.SpecK.affineOut
  refine congrArg (fun z : EReal => max z 0) ?_
  refine congrArg₂ (fun a b : EReal => a + b) (congrArg₂ (fun a b : EReal => a + b) (Finset.sum_congr rfl fun k _ => ?_) (Finset.sum_congr rfl fun k _ => ?_)) ?_
  · exact congrArg₂ (fun a b : EReal => a * b) (congrFun e0 (ix2 n k)) (congrFun e4 (ix2 k j))
  · exact congrArg₂ (fun a b : EReal => a * b) (agg1_mean m c hs hd n k) (congrFun e5 (ix2 k j))
  · exact U5_v19 m c 0 j

theorem agg2_sum (hs : InRange (srcW m c)) (hd : InRange (dstW m c)) (n : Fin 50000) (d : Fin 128) :
    (W10 m c main_v23 : S50176x128.Idx → EReal) (ix2 (Fin.castLE (by decide) n) d)
      = aggSum (srcW m c) (dstW m c) (h1 (srcW m c) (dstW m c) (xM m c) (w1s m c) (w1n m c) (b1V m c)) n d := by
  have e : (W10 m c main_v23 : S50176x128.Idx → EReal) = ((dat2 (F := Ideal) (U9 m) c).arrAt 3 cfg2.N : S50176x128.Idx → EReal) := W10_arr m c 3
  have e2 : (U9 m c main_v2 : S600064x1.Idx → BitVec 32) = (U3 m c main_v2 : S600064x1.Idx → BitVec 32) :=
    W9_of_W3 m c main_v2 (by decide) (by decide) (by decide) (by decide) (by decide) (by decide)
  have e5 : (U9 m c main_v5 : S600064x1.Idx → BitVec 32) = (U3 m c main_v5 : S600064x1.Idx → BitVec 32) :=
    W9_of_W3 m c main_v5 (by decide) (by decide) (by decide) (by decide) (by decide) (by decide)
  refine (congrFun e _).trans ?_
  refine (arrAt2_out (U9 m) c (Fin.castLE (by decide) n) d).trans ?_
  exact Cert.OneHot.aggOut_eq_aggSum _ _ _ (srcW m c) (dstW m c) _
    (fun e => (congrFun e2 _).trans (U3_v2_lo m c _ e.isLt)) (fun e => (congrFun e5 _).trans (U3_v5_lo m c _ e.isLt))
    (fun e he => (congrFun e5 _).trans (U3_v5_hi m c e he))
    (fun n d => (U9_v22_lo m c _ d n.isLt).trans (layer1 m c hs hd n d)) hs hd one_eq n d

theorem agg2_mean (hs : InRange (srcW m c)) (hd : InRange (dstW m c)) (n : Fin 50000) (d : Fin 128) :
    (U11 m c main_v26 : S50000x128.Idx → EReal) (ix2 n d)
      = meanAgg (srcW m c) (dstW m c) (h1 (srcW m c) (dstW m c) (xM m c) (w1s m c) (w1n m c) (b1V m c)) n d :=
  (U11_v26 m c n d).trans
    (congrArg (fun z : EReal => Ideal.div z (max (degree (dstW m c) n) one)) (agg2_sum m c hs hd n d))

theorem layer2 (hs : InRange (srcW m c)) (hd : InRange (dstW m c)) (n : Fin 50000) (j : Fin 128) :
    (W12 m c main_v28 : S50000x128.Idx → EReal) (ix2 n j)
      = h2 (srcW m c) (dstW m c) (xM m c) (w1s m c) (w1n m c) (b1V m c) (w2s m c) (w2n m c) (b2V m c) n j := by
  have e : (W12 m c main_v28 : S50000x128.Idx → EReal) = ((dat3 (F := Ideal) (U11 m) c).arrAt 5 cfg3.N : S50000x128.Idx → EReal) := W12_arr m c 5
  have e20 : (U11 m c main_v20 : S50000x128.Idx → EReal) = (W6 m c main_v20 : S50000x128.Idx → EReal) :=
    W11_of_W6 m c main_v20 (by decide) (by decide) (by decide) (by decide) (by decide)
  have e7 : (U11 m c main_arg7 : S128x128.Idx → EReal) = (m ((c : Thread nD τ).loc main_arg7) : S128x128.Idx → EReal) :=
    W11_of_unwritten m c main_arg7 (by decide) (by decide) (by decide) (by decide) (by decide) (by decide) (by decide) (by decide) (by decide) (by decide) (by decide)
  have e8 : (U11 m c main_arg8 : S128x128.Idx → EReal) = (m ((c : Thread nD τ).loc main_arg8) : S128x128.Idx → EReal) :=
    W11_of_unwritten m c main_arg8 (by decide) (by decide) (by decide) (by decide) (by decide) (by decide) (by decide) (by decide) (by decide) (by decide) (by decide)
  refine (congrFun e _).trans ((arrAt3_out (U11 m) c n j).trans ?_)
  unfold h2 lin Cert.SpecK.affineOut
  refine congrArg₂ (fun a b : EReal => a + b) (congrArg₂ (fun a b : EReal => a + b) (Finset.sum_congr rfl fun k _ => ?_) (Finset.sum_congr rfl fun k _ => ?_)) ?_
  · exact congrArg₂ (fun a b : EReal => a * b) ((congrFun e20 (ix2 n k)).trans (layer1 m c hs hd n k)) (congrFun e7 (ix2 k j))
  · exact congrArg₂ (fun a b : EReal => a * b) (agg2_mean m c hs hd n k) (congrFun e8 (ix2 k j))
  · exact U11_v27 m c 0 j

theorem proj_src (hs : InRange (srcW m c)) (hd : InRange (dstW m c)) (n : Fin 50000) (k : Fin 3) :
    (W14 m c main_v31_0 : S50000x3.Idx → EReal) (ix2 n k)
      = ∑ j : Fin 128, h2 (srcW m c) (dstW m c) (xM m c) (w1s m c) (w1n m c) (b1V m c) (w2s m c) (w2n m c) (b2V m c) n j * wpTop (wpM m c) j k := by
  have e : (W14 m c main_v31_0 : S50000x3.Idx → EReal) = ((dat4 (F := Ideal) (U13 m) c).arrAt 3 cfg4.N : S50000x3.Idx → EReal) := W14_arr m c 3
  have e28 : (U13 m c main_v28 : S50000x128.Idx → EReal) = (W12 m c main_v28 : S50000x128.Idx → EReal) := W13_of m c main_v28 (by decide)
  refine (congrFun e _).trans ((arrAt4_out3 (U13 m) c n k).trans ?_)
  show (_ : EReal) = _
  unfold Cert.SpecK.projOut
  refine Finset.sum_congr rfl fun j _ => ?_
  exact congrArg₂ (fun a b : EReal => a * b) ((congrFun e28 (ix2 n j)).trans (layer2 m c hs hd n j)) (U13_v29 m c j k)

theorem proj_dst (hs : InRange (srcW m c)) (hd : InRange (dstW m c)) (n : Fin 50000) (k : Fin 3) :
    (W14 m c main_v31_1 : S50000x3.Idx → EReal) (ix2 n k)
      = ∑ j : Fin 128, h2 (srcW m c) (dstW m c) (xM m c) (w1s m c) (w1n m c) (b1V m c) (w2s m c) (w2n m c) (b2V m c) n j * wpBot (wpM m c) j k := by
  have e : (W14 m c main_v31_1 : S50000x3.Idx → EReal) = ((dat4 (F := Ideal) (U13 m) c).arrAt 4 cfg4.N : S50000x3.Idx → EReal) := W14_arr m c 4
  have e28 : (U13 m c main_v28 : S50000x128.Idx → EReal) = (W12 m c main_v28 : S50000x128.Idx → EReal) := W13_of m c main_v28 (by decide)
  refine (congrFun e _).trans ((arrAt4_out4 (U13 m) c n k).trans ?_)
  show (_ : EReal) = _
  unfold Cert.SpecK.projOut
  refine Finset.sum_congr rfl fun j _ => ?_
  exact congrArg₂ (fun a b : EReal => a * b) ((congrFun e28 (ix2 n j)).trans (layer2 m c hs hd n j)) (U13_v30 m c j k)

theorem ker_score (hs : InRange (srcW m c)) (hd : InRange (dstW m c)) (e : Fin 600000) (k : Fin 3) :
    (W17 m c main_v37 : S600000x3.Idx → EReal) (ix2 e k)
      = score (srcW m c) (dstW m c) (xM m c) (w1s m c) (w1n m c) (b1V m c) (w2s m c) (w2n m c) (b2V m c) (wpM m c) (bpV m c) e k :=
  (W17_v37 m c hs hd e k).trans
    (congrArg₂ (fun a b : EReal => a + b)
      (congrArg₂ (fun a b : EReal => a + b) (proj_src m c hs hd (rowOf (srcW m c e)) k) (proj_dst m c hs hd (rowOf (dstW m c e)) k))
      (rfl : vec (m ((c : Thread nD τ).loc main_arg11)) k = bpV m c k))

end Cert.KernelIdeal.Hand

end
-- ==== Proof.Ref.Index.lean ====
import proofs.«404972_j68066641707582_3_alg».proof.Proof.Gen.ReferenceIdeal.Read
import proofs.«404972_j68066641707582_3_alg».proof.Proof.Spec
import proofs.«404972_j68066641707582_3_alg».proof.Proof.LibTakeFill

noncomputable section

open scoped BigOperators

namespace Cert.Ref

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

variable (x0 : (⟨S50000x128, .f32⟩ : BufTy).Contents (Elt Ideal)) (x2 x3 : (⟨S600000, .i32⟩ : BufTy).Contents (Elt Ideal))
  (x4 x5 : (⟨S128x128, .f32⟩ : BufTy).Contents (Elt Ideal)) (x6 : (⟨S128, .f32⟩ : BufTy).Contents (Elt Ideal))
  (x7 x8 : (⟨S128x128, .f32⟩ : BufTy).Contents (Elt Ideal)) (x9 : (⟨S128, .f32⟩ : BufTy).Contents (Elt Ideal))
  (x10 : (⟨S256x3, .f32⟩ : BufTy).Contents (Elt Ideal)) (x11 : (⟨S3, .f32⟩ : BufTy).Contents (Elt Ideal))

theorem wrap_v4 (hs : Spec.InRange (Spec.words (A := 600000) x2)) (e : Fin 600000) :
    val_main_v4 (F := Ideal) x2 (ix1 e) = x2 (ix1 e) := by
  rewrite [val_main_v4_apply, val_main_v1_apply, val_main_v3_apply, val_main_v0_apply, val_main_c_apply,
    val_main_v2_apply, val_main_c_0_apply]
  exact Cert.Lib.TakeFill.wrap_of_nonneg 50000 _ (hs e).1

theorem wrap_v30 (hs : Spec.InRange (Spec.words (A := 600000) x2)) (e : Fin 600000) :
    val_main_v30 (F := Ideal) x2 (ix1 e) = x2 (ix1 e) := by
  rewrite [val_main_v30_apply, val_main_v27_apply, val_main_v29_apply, val_main_v26_apply, val_main_c_4_apply,
    val_main_v28_apply, val_main_c_5_apply]
  exact Cert.Lib.TakeFill.wrap_of_nonneg 50000 _ (hs e).1

theorem wrap_v55 (hs : Spec.InRange (Spec.words (A := 600000) x2)) (e : Fin 600000) :
    val_main_v55 (F := Ideal) x2 (ix1 e) = x2 (ix1 e) := by
  rewrite [val_main_v55_apply, val_main_v52_apply, val_main_v54_apply, val_main_v51_apply, val_main_c_10_apply,
    val_main_v53_apply, val_main_c_11_apply]
  exact Cert.Lib.TakeFill.wrap_of_nonneg 50000 _ (hs e).1

theorem wrap_v62 (hd : Spec.InRange (Spec.words (A := 600000) x3)) (e : Fin 600000) :
    val_main_v62 (F := Ideal) x3 (ix1 e) = x3 (ix1 e) := by
  rewrite [val_main_v62_apply, val_main_v59_apply, val_main_v61_apply, val_main_v58_apply, val_main_c_12_apply,
    val_main_v60_apply, val_main_c_13_apply]
  exact Cert.Lib.TakeFill.wrap_of_nonneg 50000 _ (hd e).1

theorem v5_at (e : Fin 600000) :
    val_main_v5 (F := Ideal) x2 (ix2 e (0 : Fin 1)) = val_main_v4 (F := Ideal) x2 (ix1 e) :=
  (val_main_v5_apply (F := Ideal) x2 (ix2 e (0 : Fin 1))).trans (congrArg (val_main_v4 (F := Ideal) x2) (funext fun a => by match a with | ⟨0, _⟩ => rfl))

theorem v31_at (e : Fin 600000) :
    val_main_v31 (F := Ideal) x2 (ix2 e (0 : Fin 1)) = val_main_v30 (F := Ideal) x2 (ix1 e) :=
  (val_main_v31_apply (F := Ideal) x2 (ix2 e (0 : Fin 1))).trans (congrArg (val_main_v30 (F := Ideal) x2) (funext fun a => by match a with | ⟨0, _⟩ => rfl))

theorem v56_at (e : Fin 600000) :
    val_main_v56 (F := Ideal) x2 (ix2 e (0 : Fin 1)) = val_main_v55 (F := Ideal) x2 (ix1 e) :=
  (val_main_v56_apply (F := Ideal) x2 (ix2 e (0 : Fin 1))).trans (congrArg (val_main_v55 (F := Ideal) x2) (funext fun a => by match a with | ⟨0, _⟩ => rfl))

theorem v63_at (e : Fin 600000) :
    val_main_v63 (F := Ideal) x3 (ix2 e (0 : Fin 1)) = val_main_v62 (F := Ideal) x3 (ix1 e) :=
  (val_main_v63_apply (F := Ideal) x3 (ix2 e (0 : Fin 1))).trans (congrArg (val_main_v62 (F := Ideal) x3) (funext fun a => by match a with | ⟨0, _⟩ => rfl))

theorem v8_at (e : Fin 600000) :
    val_main_v8 (F := Ideal) x3 (ix2 e (0 : Fin 1)) = x3 (ix1 e) :=
  (val_main_v8_apply (F := Ideal) x3 (ix2 e (0 : Fin 1))).trans (congrArg (x3) (funext fun a => by match a with | ⟨0, _⟩ => rfl))

theorem v12_at (e : Fin 600000) :
    val_main_v12 (F := Ideal) x3 (ix2 e (0 : Fin 1)) = x3 (ix1 e) :=
  (val_main_v12_apply (F := Ideal) x3 (ix2 e (0 : Fin 1))).trans (congrArg (x3) (funext fun a => by match a with | ⟨0, _⟩ => rfl))

theorem v34_at (e : Fin 600000) :
    val_main_v34 (F := Ideal) x3 (ix2 e (0 : Fin 1)) = x3 (ix1 e) :=
  (val_main_v34_apply (F := Ideal) x3 (ix2 e (0 : Fin 1))).trans (congrArg (x3) (funext fun a => by match a with | ⟨0, _⟩ => rfl))

theorem v38_at (e : Fin 600000) :
    val_main_v38 (F := Ideal) x3 (ix2 e (0 : Fin 1)) = x3 (ix1 e) :=
  (val_main_v38_apply (F := Ideal) x3 (ix2 e (0 : Fin 1))).trans (congrArg (x3) (funext fun a => by match a with | ⟨0, _⟩ => rfl))

theorem word_row {w : BitVec 32} (h : 0 ≤ w.toInt ∧ w.toInt < 50000) : w.toInt = ((Spec.rowOf w).val : ℤ) :=
  Spec.rowOf_val h.1 h.2

end Cert.Ref

end
-- ==== Proof.Ref.Layer1.lean ====
import proofs.«404972_j68066641707582_3_alg».proof.Proof.Ref.Index
import proofs.«404972_j68066641707582_3_alg».proof.Proof.LibIndex

noncomputable section

open scoped BigOperators

namespace Cert.Ref

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

variable (x0 : (⟨S50000x128, .f32⟩ : BufTy).Contents (Elt Ideal)) (x2 x3 : (⟨S600000, .i32⟩ : BufTy).Contents (Elt Ideal))
  (x4 x5 : (⟨S128x128, .f32⟩ : BufTy).Contents (Elt Ideal)) (x6 : (⟨S128, .f32⟩ : BufTy).Contents (Elt Ideal))
  (x7 x8 : (⟨S128x128, .f32⟩ : BufTy).Contents (Elt Ideal)) (x9 : (⟨S128, .f32⟩ : BufTy).Contents (Elt Ideal))
  (x10 : (⟨S256x3, .f32⟩ : BufTy).Contents (Elt Ideal)) (x11 : (⟨S3, .f32⟩ : BufTy).Contents (Elt Ideal))

theorem v6_at (hs : Spec.InRange (Spec.words (A := 600000) x2)) (e : Fin 600000) (d : Fin 128) :
    val_main_v6 (F := Ideal) x0 x2 (ix2 e d) = (Spec.mat (A := 50000) (B := 128) x0) (Spec.rowOf ((Spec.words (A := 600000) x2) e)) d := by
  unfold val_main_v6
  refine (Cert.LibIndex.gather_rows_apply gather_S50000x128_S600000x1_S600000x128_1_0_n_n_0_1_1128 rfl rfl rfl rfl rfl rfl rfl
    (x0) (val_main_v5 (F := Ideal) x2) e d (Spec.rowOf ((Spec.words (A := 600000) x2) e)) ?_).trans ?_
  · rewrite [v5_at, wrap_v4 x2 hs]
    exact word_row (hs e)
  · rfl

theorem v9_eq : val_main_v9 (F := Ideal) x0 x2 x3
    = Ideal.hostScatterAdd scatter_S50000x128_S600000x1_S600000x128_1_0_0_1 (val_main_v7 (F := Ideal)) (val_main_v8 (F := Ideal) x3)
        (val_main_v6 (F := Ideal) x0 x2) := rfl

theorem v9_at (hs : Spec.InRange (Spec.words (A := 600000) x2)) (n : Fin 50000) (d : Fin 128) :
    val_main_v9 (F := Ideal) x0 x2 x3 (ix2 n d) = Spec.aggSum (Spec.words (A := 600000) x2) (Spec.words (A := 600000) x3) (Spec.mat (A := 50000) (B := 128) x0) n d := by
  rewrite [v9_eq, Cert.LibIndex.scatterAdd_rows_apply scatter_S50000x128_S600000x1_S600000x128_1_0_0_1 rfl rfl rfl rfl,
    val_main_v7_apply, val_main_cst_apply, Ideal.ofBits_def, Ideal.ofBits_zero_f32, zero_add, Spec.aggSum]
  refine Finset.sum_congr (Finset.filter_congr fun e _ => ?_) (fun e _ => ?_)
  · rewrite [v8_at]
    exact Iff.rfl
  · exact v6_at x0 x2 hs e d

theorem v13_eq : val_main_v13 (F := Ideal) x3
    = Ideal.hostScatterAdd scatter_S50000_S600000x1_S600000_n_0_0_1 (val_main_v11 (F := Ideal)) (val_main_v12 (F := Ideal) x3)
        (val_main_v10 (F := Ideal)) := rfl

theorem v13_at (n : Fin 50000) :
    val_main_v13 (F := Ideal) x3 (ix1 n) = Spec.degree (Spec.words (A := 600000) x3) n := by
  rewrite [v13_eq, Cert.LibIndex.scatterAdd_vec_apply scatter_S50000_S600000x1_S600000_n_0_0_1 rfl rfl rfl rfl,
    val_main_v11_apply, val_main_cst_2_apply, Ideal.ofBits_def, Ideal.ofBits_zero_f32, zero_add, Spec.degree]
  refine Finset.sum_congr (Finset.filter_congr fun e _ => ?_) (fun e _ => ?_)
  · rewrite [v12_at]
    exact Iff.rfl
  · rewrite [val_main_v10_apply, val_main_cst_1_apply, Ideal.ofBits_def]
    rfl

theorem v17_at (n : Fin 50000) (d : Fin 128) :
    val_main_v17 (F := Ideal) x3 (ix2 n d) = max (Spec.degree (Spec.words (A := 600000) x3) n) Spec.one := by
  have h : val_main_v17 (F := Ideal) x3 (ix2 n d) = val_main_v15 (F := Ideal) x3 (ix1 n) :=
    ((val_main_v17_apply (F := Ideal) x3 (ix2 n d)).trans (val_main_v16_apply (F := Ideal) x3 _)).trans
      (congrArg (val_main_v15 (F := Ideal) x3) (funext fun a => by match a with | ⟨0, _⟩ => rfl))
  rewrite [h, val_main_v15_apply, v13_at, val_main_v14_apply, val_main_cst_3_apply, Ideal.ofBits_def,
    Ideal.maximumf_def]
  rfl

theorem v18_at (hs : Spec.InRange (Spec.words (A := 600000) x2)) (n : Fin 50000) (d : Fin 128) :
    val_main_v18 (F := Ideal) x0 x2 x3 (ix2 n d) = Spec.meanAgg (Spec.words (A := 600000) x2) (Spec.words (A := 600000) x3) (Spec.mat (A := 50000) (B := 128) x0) n d := by
  rewrite [val_main_v18_apply, v9_at x0 x2 x3 hs, v17_at, Ideal.hostDivf_def]
  rfl

theorem v19_at  (n : Fin 50000) (j : Fin 128) :
    val_main_v19 (F := Ideal) x0 x4 (ix2 n j) = ∑ k : Fin 128, (Spec.mat (A := 50000) (B := 128) x0) n k * (Spec.mat (A := 128) (B := 128) x4) k j := by
  rewrite [val_main_v19_apply]
  refine Finset.sum_congr rfl fun k _ => ?_
  have hl : lidx_main_v19 (ix2 n j) k = ix2 n k := (funext fun a => by match a with | ⟨0, _⟩ => rfl | ⟨1, _⟩ => rfl)
  have hr : ridx_main_v19 (ix2 n j) k = ix2 k j := (funext fun a => by match a with | ⟨0, _⟩ => rfl | ⟨1, _⟩ => rfl)
  rewrite [hl, hr]
  rfl

theorem v20_at (hs : Spec.InRange (Spec.words (A := 600000) x2)) (n : Fin 50000) (j : Fin 128) :
    val_main_v20 (F := Ideal) x0 x2 x3 x5 (ix2 n j)
      = ∑ k : Fin 128, Spec.meanAgg (Spec.words (A := 600000) x2) (Spec.words (A := 600000) x3) (Spec.mat (A := 50000) (B := 128) x0) n k * (Spec.mat (A := 128) (B := 128) x5) k j := by
  rewrite [val_main_v20_apply]
  refine Finset.sum_congr rfl fun k _ => ?_
  have hl : lidx_main_v20 (ix2 n j) k = ix2 n k := (funext fun a => by match a with | ⟨0, _⟩ => rfl | ⟨1, _⟩ => rfl)
  have hr : ridx_main_v20 (ix2 n j) k = ix2 k j := (funext fun a => by match a with | ⟨0, _⟩ => rfl | ⟨1, _⟩ => rfl)
  rewrite [hl, hr, v18_at x0 x2 x3 hs]
  rfl

theorem v23_at (n : Fin 50000) (j : Fin 128) :
    val_main_v23 (F := Ideal) x6 (ix2 n j) = (Spec.vec (A := 128) x6) j :=
  ((val_main_v23_apply (F := Ideal) x6 (ix2 n j)).trans (val_main_v22_apply (F := Ideal) x6 _)).trans
    (congrArg x6 (funext fun a => by match a with | ⟨0, _⟩ => rfl))

theorem v24_at (hs : Spec.InRange (Spec.words (A := 600000) x2)) (n : Fin 50000) (j : Fin 128) :
    val_main_v24 (F := Ideal) x0 x2 x3 x4 x5 x6 (ix2 n j)
      = Spec.lin (Spec.mat (A := 50000) (B := 128) x0) (Spec.meanAgg (Spec.words (A := 600000) x2) (Spec.words (A := 600000) x3) (Spec.mat (A := 50000) (B := 128) x0)) (Spec.mat (A := 128) (B := 128) x4) (Spec.mat (A := 128) (B := 128) x5) (Spec.vec (A := 128) x6) n j := by
  rewrite [val_main_v24_apply, val_main_v21_apply, v19_at x0 x4, v20_at x0 x2 x3 x5 hs, v23_at]
  rfl

theorem v25_at (hs : Spec.InRange (Spec.words (A := 600000) x2)) (n : Fin 50000) (j : Fin 128) :
    val_main_v25 (F := Ideal) x0 x2 x3 x4 x5 x6 (ix2 n j) = (Spec.h1 (Spec.words (A := 600000) x2) (Spec.words (A := 600000) x3) (Spec.mat (A := 50000) (B := 128) x0) (Spec.mat (A := 128) (B := 128) x4) (Spec.mat (A := 128) (B := 128) x5) (Spec.vec (A := 128) x6)) n j := by
  rewrite [val_main_v25_apply, v24_at x0 x2 x3 x4 x5 x6 hs, val_main_call0_v0_apply, val_main_call0_cst_apply, Ideal.ofBits_def,
    Ideal.ofBits_zero_f32, Ideal.maximumf_def]
  rfl

end Cert.Ref

end
-- ==== Proof.Ref.Layer2.lean ====
import proofs.«404972_j68066641707582_3_alg».proof.Proof.Ref.Layer1

noncomputable section

open scoped BigOperators

namespace Cert.Ref

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

variable (x0 : (⟨S50000x128, .f32⟩ : BufTy).Contents (Elt Ideal)) (x2 x3 : (⟨S600000, .i32⟩ : BufTy).Contents (Elt Ideal))
  (x4 x5 : (⟨S128x128, .f32⟩ : BufTy).Contents (Elt Ideal)) (x6 : (⟨S128, .f32⟩ : BufTy).Contents (Elt Ideal))
  (x7 x8 : (⟨S128x128, .f32⟩ : BufTy).Contents (Elt Ideal)) (x9 : (⟨S128, .f32⟩ : BufTy).Contents (Elt Ideal))
  (x10 : (⟨S256x3, .f32⟩ : BufTy).Contents (Elt Ideal)) (x11 : (⟨S3, .f32⟩ : BufTy).Contents (Elt Ideal))

theorem v32_at (hs : Spec.InRange (Spec.words (A := 600000) x2)) (e : Fin 600000) (d : Fin 128) :
    val_main_v32 (F := Ideal) x0 x2 x3 x4 x5 x6 (ix2 e d) = (Spec.h1 (Spec.words (A := 600000) x2) (Spec.words (A := 600000) x3) (Spec.mat (A := 50000) (B := 128) x0) (Spec.mat (A := 128) (B := 128) x4) (Spec.mat (A := 128) (B := 128) x5) (Spec.vec (A := 128) x6)) (Spec.rowOf ((Spec.words (A := 600000) x2) e)) d := by
  unfold val_main_v32
  refine (Cert.LibIndex.gather_rows_apply gather_S50000x128_S600000x1_S600000x128_1_0_n_n_0_1_1128 rfl rfl rfl rfl rfl rfl rfl
    (val_main_v25 (F := Ideal) x0 x2 x3 x4 x5 x6) (val_main_v31 (F := Ideal) x2) e d (Spec.rowOf ((Spec.words (A := 600000) x2) e)) ?_).trans ?_
  · rewrite [v31_at, wrap_v30 x2 hs]
    exact word_row (hs e)
  · exact v25_at x0 x2 x3 x4 x5 x6 hs _ d

theorem v35_eq : val_main_v35 (F := Ideal) x0 x2 x3 x4 x5 x6
    = Ideal.hostScatterAdd scatter_S50000x128_S600000x1_S600000x128_1_0_0_1 (val_main_v33 (F := Ideal)) (val_main_v34 (F := Ideal) x3)
        (val_main_v32 (F := Ideal) x0 x2 x3 x4 x5 x6) := rfl

theorem v35_at (hs : Spec.InRange (Spec.words (A := 600000) x2)) (n : Fin 50000) (d : Fin 128) :
    val_main_v35 (F := Ideal) x0 x2 x3 x4 x5 x6 (ix2 n d) = Spec.aggSum (Spec.words (A := 600000) x2) (Spec.words (A := 600000) x3) (Spec.h1 (Spec.words (A := 600000) x2) (Spec.words (A := 600000) x3) (Spec.mat (A := 50000) (B := 128) x0) (Spec.mat (A := 128) (B := 128) x4) (Spec.mat (A := 128) (B := 128) x5) (Spec.vec (A := 128) x6)) n d := by
  rewrite [v35_eq, Cert.LibIndex.scatterAdd_rows_apply scatter_S50000x128_S600000x1_S600000x128_1_0_0_1 rfl rfl rfl rfl,
    val_main_v33_apply, val_main_cst_6_apply, Ideal.ofBits_def, Ideal.ofBits_zero_f32, zero_add, Spec.aggSum]
  refine Finset.sum_congr (Finset.filter_congr fun e _ => ?_) (fun e _ => ?_)
  · rewrite [v34_at]
    exact Iff.rfl
  · exact v32_at x0 x2 x3 x4 x5 x6 hs e d

theorem v39_eq : val_main_v39 (F := Ideal) x3
    = Ideal.hostScatterAdd scatter_S50000_S600000x1_S600000_n_0_0_1 (val_main_v37 (F := Ideal)) (val_main_v38 (F := Ideal) x3)
        (val_main_v36 (F := Ideal)) := rfl

theorem v39_at (n : Fin 50000) :
    val_main_v39 (F := Ideal) x3 (ix1 n) = Spec.degree (Spec.words (A := 600000) x3) n := by
  rewrite [v39_eq, Cert.LibIndex.scatterAdd_vec_apply scatter_S50000_S600000x1_S600000_n_0_0_1 rfl rfl rfl rfl,
    val_main_v37_apply, val_main_cst_8_apply, Ideal.ofBits_def, Ideal.ofBits_zero_f32, zero_add, Spec.degree]
  refine Finset.sum_congr (Finset.filter_congr fun e _ => ?_) (fun e _ => ?_)
  · rewrite [v38_at]
    exact Iff.rfl
  · rewrite [val_main_v36_apply, val_main_cst_7_apply, Ideal.ofBits_def]
    rfl

theorem v43_at (n : Fin 50000) (d : Fin 128) :
    val_main_v43 (F := Ideal) x3 (ix2 n d) = max (Spec.degree (Spec.words (A := 600000) x3) n) Spec.one := by
  have h : val_main_v43 (F := Ideal) x3 (ix2 n d) = val_main_v41 (F := Ideal) x3 (ix1 n) :=
    ((val_main_v43_apply (F := Ideal) x3 (ix2 n d)).trans (val_main_v42_apply (F := Ideal) x3 _)).trans
      (congrArg (val_main_v41 (F := Ideal) x3) (funext fun a => by match a with | ⟨0, _⟩ => rfl))
  rewrite [h, val_main_v41_apply, v39_at, val_main_v40_apply, val_main_cst_9_apply, Ideal.ofBits_def,
    Ideal.maximumf_def]
  rfl

theorem v44_at (hs : Spec.InRange (Spec.words (A := 600000) x2)) (n : Fin 50000) (d : Fin 128) :
    val_main_v44 (F := Ideal) x0 x2 x3 x4 x5 x6 (ix2 n d) = Spec.meanAgg (Spec.words (A := 600000) x2) (Spec.words (A := 600000) x3) (Spec.h1 (Spec.words (A := 600000) x2) (Spec.words (A := 600000) x3) (Spec.mat (A := 50000) (B := 128) x0) (Spec.mat (A := 128) (B := 128) x4) (Spec.mat (A := 128) (B := 128) x5) (Spec.vec (A := 128) x6)) n d := by
  rewrite [val_main_v44_apply, v35_at x0 x2 x3 x4 x5 x6 hs, v43_at, Ideal.hostDivf_def]
  rfl

theorem v45_at (hs : Spec.InRange (Spec.words (A := 600000) x2)) (n : Fin 50000) (j : Fin 128) :
    val_main_v45 (F := Ideal) x0 x2 x3 x4 x5 x6 x7 (ix2 n j) = ∑ k : Fin 128, (Spec.h1 (Spec.words (A := 600000) x2) (Spec.words (A := 600000) x3) (Spec.mat (A := 50000) (B := 128) x0) (Spec.mat (A := 128) (B := 128) x4) (Spec.mat (A := 128) (B := 128) x5) (Spec.vec (A := 128) x6)) n k * (Spec.mat (A := 128) (B := 128) x7) k j := by
  rewrite [val_main_v45_apply]
  refine Finset.sum_congr rfl fun k _ => ?_
  have hl : lidx_main_v45 (ix2 n j) k = ix2 n k := (funext fun a => by match a with | ⟨0, _⟩ => rfl | ⟨1, _⟩ => rfl)
  have hr : ridx_main_v45 (ix2 n j) k = ix2 k j := (funext fun a => by match a with | ⟨0, _⟩ => rfl | ⟨1, _⟩ => rfl)
  rewrite [hl, hr, v25_at x0 x2 x3 x4 x5 x6 hs]
  rfl

theorem v46_at (hs : Spec.InRange (Spec.words (A := 600000) x2)) (n : Fin 50000) (j : Fin 128) :
    val_main_v46 (F := Ideal) x0 x2 x3 x4 x5 x6 x8 (ix2 n j)
      = ∑ k : Fin 128, Spec.meanAgg (Spec.words (A := 600000) x2) (Spec.words (A := 600000) x3) (Spec.h1 (Spec.words (A := 600000) x2) (Spec.words (A := 600000) x3) (Spec.mat (A := 50000) (B := 128) x0) (Spec.mat (A := 128) (B := 128) x4) (Spec.mat (A := 128) (B := 128) x5) (Spec.vec (A := 128) x6)) n k * (Spec.mat (A := 128) (B := 128) x8) k j := by
  rewrite [val_main_v46_apply]
  refine Finset.sum_congr rfl fun k _ => ?_
  have hl : lidx_main_v46 (ix2 n j) k = ix2 n k := (funext fun a => by match a with | ⟨0, _⟩ => rfl | ⟨1, _⟩ => rfl)
  have hr : ridx_main_v46 (ix2 n j) k = ix2 k j := (funext fun a => by match a with | ⟨0, _⟩ => rfl | ⟨1, _⟩ => rfl)
  rewrite [hl, hr, v44_at x0 x2 x3 x4 x5 x6 hs]
  rfl

theorem v49_at (n : Fin 50000) (j : Fin 128) :
    val_main_v49 (F := Ideal) x9 (ix2 n j) = (Spec.vec (A := 128) x9) j :=
  ((val_main_v49_apply (F := Ideal) x9 (ix2 n j)).trans (val_main_v48_apply (F := Ideal) x9 _)).trans
    (congrArg x9 (funext fun a => by match a with | ⟨0, _⟩ => rfl))

theorem v50_at (hs : Spec.InRange (Spec.words (A := 600000) x2)) (n : Fin 50000) (j : Fin 128) :
    val_main_v50 (F := Ideal) x0 x2 x3 x4 x5 x6 x7 x8 x9 (ix2 n j)
      = Spec.lin (Spec.h1 (Spec.words (A := 600000) x2) (Spec.words (A := 600000) x3) (Spec.mat (A := 50000) (B := 128) x0) (Spec.mat (A := 128) (B := 128) x4) (Spec.mat (A := 128) (B := 128) x5) (Spec.vec (A := 128) x6)) (Spec.meanAgg (Spec.words (A := 600000) x2) (Spec.words (A := 600000) x3) (Spec.h1 (Spec.words (A := 600000) x2) (Spec.words (A := 600000) x3) (Spec.mat (A := 50000) (B := 128) x0) (Spec.mat (A := 128) (B := 128) x4) (Spec.mat (A := 128) (B := 128) x5) (Spec.vec (A := 128) x6))) (Spec.mat (A := 128) (B := 128) x7) (Spec.mat (A := 128) (B := 128) x8) (Spec.vec (A := 128) x9) n j := by
  rewrite [val_main_v50_apply, val_main_v47_apply, v45_at x0 x2 x3 x4 x5 x6 x7 hs, v46_at x0 x2 x3 x4 x5 x6 x8 hs, v49_at]
  rfl

theorem v50_h2 (hs : Spec.InRange (Spec.words (A := 600000) x2)) (n : Fin 50000) (j : Fin 128) :
    val_main_v50 (F := Ideal) x0 x2 x3 x4 x5 x6 x7 x8 x9 (ix2 n j) = (Spec.h2 (Spec.words (A := 600000) x2) (Spec.words (A := 600000) x3) (Spec.mat (A := 50000) (B := 128) x0) (Spec.mat (A := 128) (B := 128) x4) (Spec.mat (A := 128) (B := 128) x5) (Spec.vec (A := 128) x6) (Spec.mat (A := 128) (B := 128) x7) (Spec.mat (A := 128) (B := 128) x8) (Spec.vec (A := 128) x9)) n j :=
  (v50_at x0 x2 x3 x4 x5 x6 x7 x8 x9 hs n j).trans rfl

end Cert.Ref

end
-- ==== Proof.Ref.Score.lean ====
import proofs.«404972_j68066641707582_3_alg».proof.Proof.Ref.Layer2
import Mathlib.Algebra.BigOperators.Fin

noncomputable section

open scoped BigOperators

namespace Cert.Ref

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

variable (x0 : (⟨S50000x128, .f32⟩ : BufTy).Contents (Elt Ideal)) (x2 x3 : (⟨S600000, .i32⟩ : BufTy).Contents (Elt Ideal))
  (x4 x5 : (⟨S128x128, .f32⟩ : BufTy).Contents (Elt Ideal)) (x6 : (⟨S128, .f32⟩ : BufTy).Contents (Elt Ideal))
  (x7 x8 : (⟨S128x128, .f32⟩ : BufTy).Contents (Elt Ideal)) (x9 : (⟨S128, .f32⟩ : BufTy).Contents (Elt Ideal))
  (x10 : (⟨S256x3, .f32⟩ : BufTy).Contents (Elt Ideal)) (x11 : (⟨S3, .f32⟩ : BufTy).Contents (Elt Ideal))

theorem v57_at (hs : Spec.InRange (Spec.words (A := 600000) x2)) (e : Fin 600000) (k : Fin 128) :
    val_main_v57 (F := Ideal) x0 x2 x3 x4 x5 x6 x7 x8 x9 (ix2 e k) = (Spec.h2 (Spec.words (A := 600000) x2) (Spec.words (A := 600000) x3) (Spec.mat (A := 50000) (B := 128) x0) (Spec.mat (A := 128) (B := 128) x4) (Spec.mat (A := 128) (B := 128) x5) (Spec.vec (A := 128) x6) (Spec.mat (A := 128) (B := 128) x7) (Spec.mat (A := 128) (B := 128) x8) (Spec.vec (A := 128) x9)) (Spec.rowOf ((Spec.words (A := 600000) x2) e)) k := by
  unfold val_main_v57
  refine (Cert.LibIndex.gather_rows_apply gather_S50000x128_S600000x1_S600000x128_1_0_n_n_0_1_1128 rfl rfl rfl rfl rfl rfl rfl
    (val_main_v50 (F := Ideal) x0 x2 x3 x4 x5 x6 x7 x8 x9) (val_main_v56 (F := Ideal) x2) e k (Spec.rowOf ((Spec.words (A := 600000) x2) e)) ?_).trans ?_
  · rewrite [v56_at, wrap_v55 x2 hs]
    exact word_row (hs e)
  · exact v50_h2 x0 x2 x3 x4 x5 x6 x7 x8 x9 hs _ k

theorem v64_at (hs : Spec.InRange (Spec.words (A := 600000) x2)) (hd : Spec.InRange (Spec.words (A := 600000) x3)) (e : Fin 600000) (k : Fin 128) :
    val_main_v64 (F := Ideal) x0 x2 x3 x4 x5 x6 x7 x8 x9 (ix2 e k) = (Spec.h2 (Spec.words (A := 600000) x2) (Spec.words (A := 600000) x3) (Spec.mat (A := 50000) (B := 128) x0) (Spec.mat (A := 128) (B := 128) x4) (Spec.mat (A := 128) (B := 128) x5) (Spec.vec (A := 128) x6) (Spec.mat (A := 128) (B := 128) x7) (Spec.mat (A := 128) (B := 128) x8) (Spec.vec (A := 128) x9)) (Spec.rowOf ((Spec.words (A := 600000) x3) e)) k := by
  unfold val_main_v64
  refine (Cert.LibIndex.gather_rows_apply gather_S50000x128_S600000x1_S600000x128_1_0_n_n_0_1_1128 rfl rfl rfl rfl rfl rfl rfl
    (val_main_v50 (F := Ideal) x0 x2 x3 x4 x5 x6 x7 x8 x9) (val_main_v63 (F := Ideal) x3) e k (Spec.rowOf ((Spec.words (A := 600000) x3) e)) ?_).trans ?_
  · rewrite [v63_at, wrap_v62 x3 hd]
    exact word_row (hd e)
  · exact v50_h2 x0 x2 x3 x4 x5 x6 x7 x8 x9 hs _ k

theorem v65_left (e : Fin 600000) (k : Fin 128) :
    val_main_v65 (F := Ideal) x0 x2 x3 x4 x5 x6 x7 x8 x9 (ix2 e (⟨k.val, by have := k.isLt; omega⟩ : Fin 256))
      = val_main_v57 (F := Ideal) x0 x2 x3 x4 x5 x6 x7 x8 x9 (ix2 e k) := by
  unfold val_main_v65
  exact concatenate_pair_apply_left (t := S600000x256) (s₁ := S600000x128) (s₂ := S600000x128) 1
    (val_main_v57 (F := Ideal) x0 x2 x3 x4 x5 x6 x7 x8 x9) (val_main_v64 (F := Ideal) x0 x2 x3 x4 x5 x6 x7 x8 x9) concatenates_S600000x128_S600000x128_S600000x256_d1
    (ix2 e (⟨k.val, by have := k.isLt; omega⟩ : Fin 256)) rfl (ix2 e k)
    (fun b => by match b with | ⟨0, _⟩ => rfl | ⟨1, _⟩ => rfl)

theorem v65_right (e : Fin 600000) (k : Fin 128) :
    val_main_v65 (F := Ideal) x0 x2 x3 x4 x5 x6 x7 x8 x9 (ix2 e (⟨128 + k.val, by have := k.isLt; omega⟩ : Fin 256))
      = val_main_v64 (F := Ideal) x0 x2 x3 x4 x5 x6 x7 x8 x9 (ix2 e k) := by
  unfold val_main_v65
  exact concatenate_pair_apply_right (t := S600000x256) (s₁ := S600000x128) (s₂ := S600000x128) 1
    (val_main_v57 (F := Ideal) x0 x2 x3 x4 x5 x6 x7 x8 x9) (val_main_v64 (F := Ideal) x0 x2 x3 x4 x5 x6 x7 x8 x9) concatenates_S600000x128_S600000x128_S600000x256_d1
    (ix2 e (⟨128 + k.val, by have := k.isLt; omega⟩ : Fin 256)) rfl rfl (ix2 e k)
    (fun b hb => by match b, hb with | ⟨0, _⟩, _ => rfl | ⟨1, _⟩, hb => exact absurd rfl hb)
    (Nat.add_comm k.val 128)

theorem sum_halves (f : Fin 256 → EReal) :
    ∑ k : Fin 256, f k
      = (∑ k : Fin 128, f ⟨k.val, by have := k.isLt; omega⟩) + ∑ k : Fin 128, f ⟨128 + k.val, by have := k.isLt; omega⟩ :=
  Fin.sum_univ_add (a := 128) (b := 128) f

theorem l66 (e : Fin 600000) (c : Fin 3) (k : Fin 256) : lidx_main_v66 (ix2 e c) k = ix2 e k :=
  (funext fun a => by match a with | ⟨0, _⟩ => rfl | ⟨1, _⟩ => rfl)

theorem r66 (e : Fin 600000) (c : Fin 3) (k : Fin 256) : ridx_main_v66 (ix2 e c) k = ix2 k c :=
  (funext fun a => by match a with | ⟨0, _⟩ => rfl | ⟨1, _⟩ => rfl)

theorem v66_at (hs : Spec.InRange (Spec.words (A := 600000) x2)) (hd : Spec.InRange (Spec.words (A := 600000) x3)) (e : Fin 600000) (c : Fin 3) :
    val_main_v66 (F := Ideal) x0 x2 x3 x4 x5 x6 x7 x8 x9 x10 (ix2 e c)
      = (∑ k : Fin 128, (Spec.h2 (Spec.words (A := 600000) x2) (Spec.words (A := 600000) x3) (Spec.mat (A := 50000) (B := 128) x0) (Spec.mat (A := 128) (B := 128) x4) (Spec.mat (A := 128) (B := 128) x5) (Spec.vec (A := 128) x6) (Spec.mat (A := 128) (B := 128) x7) (Spec.mat (A := 128) (B := 128) x8) (Spec.vec (A := 128) x9)) (Spec.rowOf ((Spec.words (A := 600000) x2) e)) k * Spec.wpTop (Spec.mat (A := 256) (B := 3) x10) k c)
        + (∑ k : Fin 128, (Spec.h2 (Spec.words (A := 600000) x2) (Spec.words (A := 600000) x3) (Spec.mat (A := 50000) (B := 128) x0) (Spec.mat (A := 128) (B := 128) x4) (Spec.mat (A := 128) (B := 128) x5) (Spec.vec (A := 128) x6) (Spec.mat (A := 128) (B := 128) x7) (Spec.mat (A := 128) (B := 128) x8) (Spec.vec (A := 128) x9)) (Spec.rowOf ((Spec.words (A := 600000) x3) e)) k * Spec.wpBot (Spec.mat (A := 256) (B := 3) x10) k c) := by
  rewrite [val_main_v66_apply]
  refine (sum_halves _).trans ?_
  refine congrArg₂ (· + ·) (Finset.sum_congr rfl fun k _ => ?_) (Finset.sum_congr rfl fun k _ => ?_)
  · rewrite [l66, r66, v65_left, v57_at x0 x2 x3 x4 x5 x6 x7 x8 x9 hs]
    rfl
  · rewrite [l66, r66, v65_right, v64_at x0 x2 x3 x4 x5 x6 x7 x8 x9 hs hd]
    rfl

theorem v69_at (hs : Spec.InRange (Spec.words (A := 600000) x2)) (hd : Spec.InRange (Spec.words (A := 600000) x3)) (e : Fin 600000) (c : Fin 3) :
    val_main_v69 (F := Ideal) x0 x2 x3 x4 x5 x6 x7 x8 x9 x10 x11 (ix2 e c)
      = Spec.score (Spec.words (A := 600000) x2) (Spec.words (A := 600000) x3) (Spec.mat (A := 50000) (B := 128) x0) (Spec.mat (A := 128) (B := 128) x4) (Spec.mat (A := 128) (B := 128) x5) (Spec.vec (A := 128) x6) (Spec.mat (A := 128) (B := 128) x7) (Spec.mat (A := 128) (B := 128) x8) (Spec.vec (A := 128) x9) (Spec.mat (A := 256) (B := 3) x10) (Spec.vec (A := 3) x11) e c := by
  have hb : val_main_v68 (F := Ideal) x11 (ix2 e c) = (Spec.vec (A := 3) x11) c :=
    ((val_main_v68_apply (F := Ideal) x11 (ix2 e c)).trans (val_main_v67_apply (F := Ideal) x11 _)).trans
      (congrArg x11 (funext fun a => by match a with | ⟨0, _⟩ => rfl))
  rewrite [val_main_v69_apply, v66_at x0 x2 x3 x4 x5 x6 x7 x8 x9 x10 hs hd, hb]
  rfl

theorem ref_score (m : (ℓ : Loc nD τ sig) → Buf (Elt Ideal) ℓ) (c : Dev nD)
    (hs : Spec.InRange (Spec.words (A := 600000) (m ((c.tc : Thread nD τ).loc main_arg2))))
    (hd : Spec.InRange (Spec.words (A := 600000) (m ((c.tc : Thread nD τ).loc main_arg3))))
    (e : Fin 600000) (k : Fin 3) :
    (Cert.ReferenceIdeal.Value.res_main_v69 (F := Ideal) m c : S600000x3.Idx → EReal) (ix2 e k)
      = Spec.score (Spec.words (A := 600000) (m ((c.tc : Thread nD τ).loc main_arg2)))
          (Spec.words (A := 600000) (m ((c.tc : Thread nD τ).loc main_arg3)))
          (Spec.mat (A := 50000) (B := 128) (m ((c.tc : Thread nD τ).loc main_arg0)))
          (Spec.mat (A := 128) (B := 128) (m ((c.tc : Thread nD τ).loc main_arg4)))
          (Spec.mat (A := 128) (B := 128) (m ((c.tc : Thread nD τ).loc main_arg5)))
          (Spec.vec (A := 128) (m ((c.tc : Thread nD τ).loc main_arg6)))
          (Spec.mat (A := 128) (B := 128) (m ((c.tc : Thread nD τ).loc main_arg7)))
          (Spec.mat (A := 128) (B := 128) (m ((c.tc : Thread nD τ).loc main_arg8)))
          (Spec.vec (A := 128) (m ((c.tc : Thread nD τ).loc main_arg9)))
          (Spec.mat (A := 256) (B := 3) (m ((c.tc : Thread nD τ).loc main_arg10)))
          (Spec.vec (A := 3) (m ((c.tc : Thread nD τ).loc main_arg11))) e k := by
  rewrite [val_main_v69_eq]
  exact v69_at _ _ _ _ _ _ _ _ _ _ _ hs hd e k

end Cert.Ref

end
-- ==== Proof.lean ====
import proofs.«404972_j68066641707582_3_alg».proof.Defs
import proofs.«404972_j68066641707582_3_alg».proof.Proof.Gen.Kernel
import proofs.«404972_j68066641707582_3_alg».proof.Proof.Gen.KernelIdeal
import proofs.«404972_j68066641707582_3_alg».proof.Proof.Gen.ReferenceIdeal
import proofs.«404972_j68066641707582_3_alg».proof.Proof.Gen.ReferenceIdeal.Run
import proofs.«404972_j68066641707582_3_alg».proof.Proof.Gen.ReferenceIdeal.Read
import proofs.«404972_j68066641707582_3_alg».proof.Proof.Gen.Pre_finite_inputs
import proofs.«404972_j68066641707582_3_alg».proof.Proof.Spec
import proofs.«404972_j68066641707582_3_alg».proof.Proof.KI.Args
import proofs.«404972_j68066641707582_3_alg».proof.Proof.KI.PreRange
import proofs.«404972_j68066641707582_3_alg».proof.Proof.KI.KerScore
import proofs.«404972_j68066641707582_3_alg».proof.Proof.Ref.Score
import Idealize.ShloMosaic.Adequacy
import Idealize.ShloMosaic.Init

/-!
The five claims. The kernel program is proved once, at any float instance: it runs to the end, its result array
ends at the last boundary's contents and no item writes an argument array. The printed program and its
idealization are one text, so that one run gives both frames. The score of edge e in class k is, on both sides,
the second layer's row of the edge's source against the upper half of the predictor matrix plus its destination's
row against the lower half plus the bias; only commutativity and associativity of the sums and 1·x = x, 0·x = 0
join the kernel's sums over padded tables to the reference's gather and scatter, so finiteness is never used.
-/

set_option maxRecDepth 16384

noncomputable section

namespace Cert.Proof

open Idealize.ShloMosaic Idealize.ShloMosaic.TcCoe Idealize.ShloMosaic.ValueIdx Idealize.ShloMosaic.Tactic Idealize.SL.Sem

theorem frame_ki : Cert.frame_KernelIdeal := fun m ρ _ => Cert.KernelIdeal.Hand.frame m ρ

/-- The two programs are one text, so the two frame statements are the same proposition. -/
theorem frame_k : Cert.frame_Kernel := fun m ρ _ =>
  Eq.mpr (by sl_kernel_rfl) (Cert.KernelIdeal.Hand.frame (F := Bits) m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Entry by entry both results are the specification's score of the edge in the class, of arguments that agree;
    the endpoint words name nodes by the precondition, on the reference's side through the agreement. -/
theorem algebraic : Cert.algebraic_KernelIdeal_ReferenceIdeal := by
  intro m g m' g' hpre hagree
  refine ⟨fun c => Cert.KernelIdeal.Hand.W17 m c (Proc.devRef .tc Cert.KernelIdeal.main_v37), Cert.KernelIdeal.Hand.run_kept m g, ?_⟩
  refine (θ_run Cert.ReferenceIdeal.defs _ _).mono (fun r h c => ⟨(h c).1.trans ?_, (h c).2⟩) (Cert.ReferenceIdeal.Value.run (F := Ideal) m' g')
  show (Cert.ReferenceIdeal.Value.res_main_v69 (F := Ideal) m' c : Cert.KernelIdeal.S600000x3.Idx → EReal)
    = (Cert.KernelIdeal.Hand.W17 m c (Proc.devRef .tc Cert.KernelIdeal.main_v37) : Cert.KernelIdeal.S600000x3.Idx → EReal)
  funext i
  obtain ⟨e, k, rfl⟩ : ∃ (e : Fin 600000) (k : Fin 3), i = ix2 e k := ⟨i 0, i 1, eq_ix2 i⟩
  have hs := Cert.KernelIdeal.Hand.src_inRange m hpre c
  have hd := Cert.KernelIdeal.Hand.dst_inRange m hpre c
  obtain ⟨a0, a1, a2, a3, a4, a5, a6, a7, a8, a9, a10, a11⟩ := hagree c
  refine (Cert.Ref.ref_score m' c (by rw [a2]; exact hs) (by rw [a3]; exact hd) e k).trans ?_
  refine Eq.trans ?_ (Cert.KernelIdeal.Hand.ker_score m c hs hd e k).symm
  rw [a0, a2, a3, a4, a5, a6, a7, a8, a9, a10, a11]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
